-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x256 : Shape := ⟨2, ![10000, 256]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_arg2 : IVec S2x320000 32) (main_arg12 : FVec F S256 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_c_22 : IVec S_ 32 := constantI S_ 32 0#32
  let main_v59 : IVec S2x320000 32 := broadcastInDim S2x320000 ![] bcast_S_S2x320000 main_c_22
  let main_v60 : IVec S2x320000 1 := cmpi .sge main_arg2 main_v59
  let main_c_23 : IVec S_ 32 := constantI S_ 32 10000#32
  let main_v61 : IVec S2x320000 32 := broadcastInDim S2x320000 ![] bcast_S_S2x320000 main_c_23
  let main_v62 : IVec S2x320000 1 := cmpi .slt main_arg2 main_v61
  let main_v63 : IVec S2x320000 1 := andi main_v60 main_v62
  let main_c_24 : IVec S_ 1 := constantI S_ 1 1#1
  let main_v64 : IVec S_ 1 := (fun x v => Host.reduce IntOp.andi x v reducesTo_S2x320000_S_d0_1 h_S_) main_v63 main_c_24
  let main_v65 : IVec S_ 1 := andi main_v58 main_v64
  main_v65

def fn_part2 {F : FTy → Type} [FloatOps F] (main_arg2 : IVec S2x320000 32) (main_arg8 : FVec F S256 .f32) (main_arg9 : FVec F S512x256 .f32) (main_arg10 : FVec F S256 .f32) (main_arg11 : FVec F S512x256 .f32) (main_arg12 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S512x256 .f32 := Host.absf main_arg11
  let main_cst_18 : FVec F S_ .f32 := constant S_ .f32 0x7F800000#32
  let main_v50 : FVec F S512x256 .f32 := broadcastInDim S512x256 ![] bcast_S_S512x256 main_cst_18
  fn_part3 (F := F) main_arg2 main_arg12 main_v48 main_v49 main_v50

def fn_part1 {F : FTy → Type} [FloatOps F] (main_arg2 : IVec S2x320000 32) (main_arg5 : FVec F S256x256 .f32) (main_arg6 : FVec F S256 .f32) (main_arg7 : FVec F S512x256 .f32) (main_arg8 : FVec F S256 .f32) (main_arg9 : FVec F S512x256 .f32) (main_arg10 : FVec F S256 .f32) (main_arg11 : FVec F S512x256 .f32) (main_arg12 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S10000x128 .f32) (main_arg1 : FVec F S10000x256 .f32) (main_arg2 : IVec S2x320000 32) (main_arg3 : FVec F S128x256 .f32) (main_arg4 : FVec F S256 .f32) (main_arg5 : FVec F S256x256 .f32) (main_arg6 : FVec F S256 .f32) (main_arg7 : FVec F S512x256 .f32) (main_arg8 : FVec F S256 .f32) (main_arg9 : FVec F S512x256 .f32) (main_arg10 : FVec F S256 .f32) (main_arg11 : FVec F S512x256 .f32) (main_arg12 : FVec F S256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg5 main_arg6 main_arg7 main_arg8 main_arg9 main_arg10 main_arg11 main_arg12 main_v13 main_v16
-- ==== Kernel.lean ====
abbrev S10000x128 : Shape := ⟨2, ![10000, 128]⟩
abbrev S10000x256 : Shape := ⟨2, ![10000, 256]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10240x10240 : Shape := ⟨2, ![10240, 10240]⟩
abbrev S320000x2 : Shape := ⟨2, ![320000, 2]⟩
abbrev S10000x1 : Shape := ⟨2, ![10000, 1]⟩
abbrev S10000x2 : Shape := ⟨2, ![10000, 2]⟩
abbrev S10240x128 : Shape := ⟨2, ![10240, 128]⟩
abbrev S10240x256 : Shape := ⟨2, ![10240, 256]⟩
abbrev S1x256 : Shape := ⟨2, ![1, 256]⟩
abbrev S2048x128 : Shape := ⟨2, ![2048, 128]⟩
abbrev S2048x256 : Shape := ⟨2, ![2048, 256]⟩
abbrev S2048x2048 : Shape := ⟨2, ![2048, 2048]⟩

abbrev nBuf : Space → Nat
  | .hbm => 130
  | .vmem => 59
  | .smem => 0
  | _ => 0

abbrev hbmTy0_0 (i : Nat) : BufTy := match i % 128 with
  | 0 => ⟨S10000x128, .f32⟩
  | 1 => ⟨S10000x256, .f32⟩
  | 2 => ⟨S2x320000, .i32⟩
  | 3 => ⟨S128x256, .f32⟩
  | 4 => ⟨S256, .f32⟩
  | 5 => ⟨S256x256, .f32⟩
  | 6 => ⟨S256, .f32⟩
  | 7 => ⟨S512x256, .f32⟩
  | 8 => ⟨S256, .f32⟩
  | 9 => ⟨S512x256, .f32⟩
  | 10 => ⟨S256, .f32⟩
  | 11 => ⟨S512x256, .f32⟩
  | 12 => ⟨S256, .f32⟩
  | 13 => ⟨S1x320000, .i32⟩
  | 14 => ⟨S320000, .i32⟩
  | 15 => ⟨S1x320000, .i32⟩
  | 16 => ⟨S320000, .i32⟩
  | 17 => ⟨S_, .f32⟩
  | 18 => ⟨S10000, .f32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S_, .f32⟩
  | 28 => ⟨S320000, .f32⟩
  | 29 => ⟨S10000, .f32⟩
  | 30 => ⟨S_, .f32⟩
  | 31 => ⟨S10000, .f32⟩
  | 32 => ⟨S10000, .f32⟩
  | 33 => ⟨S10000, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000, .f32⟩
  | 52 => ⟨S320000, .f32⟩
  | 53 => ⟨S_, .f32⟩
  | 54 => ⟨S10240x10240, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S320000x1, .i32⟩
  | 71 => ⟨S320000x2, .i32⟩
  | 72 => ⟨S10240x10240, .f32⟩
  | 73 => ⟨S10000, .i32⟩
  | 74 => ⟨S10000, .f32⟩
  | 75 => ⟨S_, .i32⟩
  | 76 => ⟨S10000, .i32⟩
  | 77 => ⟨S10000, .i1⟩
  | 78 => ⟨S_, .i32⟩
  | 79 => ⟨S10000, .i32⟩
  | 80 => ⟨S10000, .i32⟩
  | 81 => ⟨S10000, .i32⟩
  | 82 => ⟨S_, .i32⟩
  | 83 => ⟨S10000, .i32⟩
  | 84 => ⟨S10000, .i1⟩
  | 85 => ⟨S_, .i32⟩
  | 86 => ⟨S10000, .i32⟩
  | 87 => ⟨S10000, .i32⟩
  | 88 => ⟨S10000, .i32⟩
  | 89 => ⟨S10000x1, .i32⟩
  | 90 => ⟨S10000x1, .i32⟩
  | 91 => ⟨S10000x2, .i32⟩
  | 92 => ⟨S10240x10240, .f32⟩
  | 93 => ⟨S10240x10240, .bf16⟩
  | 94 => ⟨S_, .i32⟩
  | 95 => ⟨S_, .f32⟩
  | 96 => ⟨S10240x128, .f32⟩
  | 97 => ⟨S10240x128, .bf16⟩
  | 98 => ⟨S_, .i32⟩
  | 99 => ⟨S_, .f32⟩
  | 100 => ⟨S10240x256, .f32⟩
  | 101 => ⟨S128x256, .bf16⟩
  | 102 => ⟨S256x256, .bf16⟩
  | 103 => ⟨S256x256, .f32⟩
  | 104 => ⟨S256x256, .bf16⟩
  | 105 => ⟨S256x256, .f32⟩
  | 106 => ⟨S256x256, .bf16⟩
  | 107 => ⟨S256x256, .f32⟩
  | 108 => ⟨S256x256, .bf16⟩
  | 109 => ⟨S256x256, .f32⟩
  | 110 => ⟨S256x256, .bf16⟩
  | 111 => ⟨S256x256, .f32⟩
  | 112 => ⟨S256x256, .bf16⟩
  | 113 => ⟨S256x256, .f32⟩
  | 114 => ⟨S256x256, .bf16⟩
  | 115 => ⟨S_, .f32⟩
  | 116 => ⟨S1x256, .f32⟩
  | 117 => ⟨S1x256, .f32⟩
  | 118 => ⟨S1x256, .f32⟩
  | 119 => ⟨S1x256, .f32⟩
  | 120 => ⟨S1x256, .f32⟩
  | 121 => ⟨S1x256, .f32⟩
  | 122 => ⟨S10240x256, .bf16⟩
  | 123 => ⟨S10240x256, .bf16⟩
  | 124 => ⟨S10240x256, .bf16⟩
  | 125 => ⟨S10240x256, .bf16⟩
  | 126 => ⟨S10240x256, .f32⟩
  | 127 => ⟨S10240x256, .f32⟩
  | _ => ⟨S10000x128, .f32⟩

abbrev hbmTy0_1 (i : Nat) : BufTy := match i % 128 with
  | 0 => ⟨S10240x256, .f32⟩
  | 1 => ⟨S10000x256, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S128x256, .bf16⟩
  | .local _ .vmem, ⟨3, _⟩ => ⟨S1x256, .f32⟩
  | .local _ .vmem, ⟨4, _⟩ => ⟨S2048x256, .bf16⟩
  | .local _ .vmem, ⟨5, _⟩ => ⟨S2048x256, .bf16⟩
  | .local _ .vmem, ⟨6, _⟩ => ⟨S2048x2048, .bf16⟩
  | .local _ .vmem, ⟨7, _⟩ => ⟨S2048x2048, .bf16⟩
  | .local _ .vmem, ⟨8, _⟩ => ⟨S2048x256, .bf16⟩
  | .local _ .vmem, ⟨9, _⟩ => ⟨S2048x256, .bf16⟩
  | .local _ .vmem, ⟨10, _⟩ => ⟨S1x256, .f32⟩
  | .local _ .vmem, ⟨11, _⟩ => ⟨S2048x256, .bf16⟩
  | .local _ .vmem, ⟨12, _⟩ => ⟨S2048x256, .bf16⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S256x256, .bf16⟩
  | .local _ .vmem, ⟨17, _⟩ => ⟨S1x256, .f32⟩
  | .local _ .vmem, ⟨18, _⟩ => ⟨S2048x256, .bf16⟩
  | .local _ .vmem, ⟨19, _⟩ => ⟨S2048x256, .bf16⟩
  | .local _ .vmem, ⟨20, _⟩ => ⟨S2048x2048, .bf16⟩
  | .local _ .vmem, ⟨21, _⟩ => ⟨S2048x2048, .bf16⟩
  | .local _ .vmem, ⟨22, _⟩ => ⟨S2048x256, .bf16⟩
  | .local _ .vmem, ⟨23, _⟩ => ⟨S2048x256, .bf16⟩
  | .local _ .vmem, ⟨24, _⟩ => ⟨S1x256, .f32⟩
  | .local _ .vmem, ⟨25, _⟩ => ⟨S2048x256, .bf16⟩
  | .local _ .vmem, ⟨26, _⟩ => ⟨S2048x256, .bf16⟩
  | .local _ .vmem, ⟨27, _⟩ => ⟨S2048x256, .f32⟩
  | .local _ .vmem, ⟨28, _⟩ => ⟨S2048x256, .bf16⟩
  | .local _ .vmem, ⟨29, _⟩ => ⟨S2048x256, .bf16⟩
  | .local _ .vmem, ⟨30, _⟩ => ⟨S256x256, .bf16⟩
  | .local _ .vmem, ⟨31, _⟩ => ⟨S2048x256, .f32⟩
  | .local _ .vmem, ⟨32, _⟩ => ⟨S2048x256, .f32⟩
  | .local _ .vmem, ⟨33, _⟩ => ⟨S256x256, .bf16⟩
  | .local _ .vmem, ⟨34, _⟩ => ⟨S1x256, .f32⟩
  | .local _ .vmem, ⟨35, _⟩ => ⟨S2048x256, .f32⟩
  | .local _ .vmem, ⟨36, _⟩ => ⟨S2048x256, .f32⟩
  | .local _ .vmem, ⟨37, _⟩ => ⟨S2048x256, .bf16⟩
  | .local _ .vmem, ⟨38, _⟩ => ⟨S2048x256, .bf16⟩
  | .local _ .vmem, ⟨39, _⟩ => ⟨S256x256, .bf16⟩
  | .local _ .vmem, ⟨40, _⟩ => ⟨S2048x256, .f32⟩
  | .local _ .vmem, ⟨41, _⟩ => ⟨S2048x256, .f32⟩
  | .local _ .vmem, ⟨42, _⟩ => ⟨S256x256, .bf16⟩
  | .local _ .vmem, ⟨43, _⟩ => ⟨S1x256, .f32⟩
  | .local _ .vmem, ⟨44, _⟩ => ⟨S2048x256, .f32⟩
  | .local _ .vmem, ⟨45, _⟩ => ⟨S2048x256, .f32⟩
  | .local _ .vmem, ⟨46, _⟩ => ⟨S2048x256, .bf16⟩
  | .local _ .vmem, ⟨47, _⟩ => ⟨S2048x256, .bf16⟩
  | .local _ .vmem, ⟨48, _⟩ => ⟨S256x256, .bf16⟩
  | .local _ .vmem, ⟨49, _⟩ => ⟨S2048x256, .f32⟩
  | .local _ .vmem, ⟨50, _⟩ => ⟨S2048x256, .f32⟩
  | .local _ .vmem, ⟨51, _⟩ => ⟨S2048x256, .f32⟩
  | .local _ .vmem, ⟨52, _⟩ => ⟨S2048x256, .f32⟩
  | .local _ .vmem, ⟨53, _⟩ => ⟨S256x256, .bf16⟩
  | .local _ .vmem, ⟨54, _⟩ => ⟨S1x256, .f32⟩
  | .local _ .vmem, ⟨55, _⟩ => ⟨S2048x256, .f32⟩
  | .local _ .vmem, ⟨56, _⟩ => ⟨S2048x256, .f32⟩
  | .local _ .vmem, ⟨57, _⟩ => ⟨S2048x256, .f32⟩
  | .local _ .vmem, ⟨58, _⟩ => ⟨S2048x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_c_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_c_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_14 : Ref sig .tc := ⟨.hbm, 82, rfl⟩
abbrev main_v53 : Ref sig .tc := ⟨.hbm, 83, rfl⟩
abbrev main_v54 : Ref sig .tc := ⟨.hbm, 84, rfl⟩
abbrev main_c_15 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_16 : Ref sig .tc := ⟨.hbm, 94, rfl⟩
abbrev main_call0_v0 : Ref sig .tc := ⟨.hbm, 95, rfl⟩
abbrev main_v63 : Ref sig .tc := ⟨.hbm, 96, rfl⟩
abbrev main_v64 : Ref sig .tc := ⟨.hbm, 97, rfl⟩
abbrev main_c_17 : Ref sig .tc := ⟨.hbm, 98, rfl⟩
abbrev main_call1_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_18 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg3_1 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg6_0 : Ref sig .tc := ⟨.vmem, 55, rfl⟩
abbrev cc6_stg6_1 : Ref sig .tc := ⟨.vmem, 56, rfl⟩
abbrev cc6_stg7_0 : Ref sig .tc := ⟨.vmem, 57, rfl⟩
abbrev cc6_stg7_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem4_0 : DmaSem sig := 32
abbrev cc4_sem5_0 : DmaSem sig := 33
abbrev cc4_sem5_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc5_sem3_0 : DmaSem sig := 40
abbrev cc5_sem4_0 : DmaSem sig := 41
abbrev cc5_sem5_0 : DmaSem sig := 42
abbrev cc5_sem5_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem2_1 : DmaSem sig := 48
abbrev cc6_sem3_0 : DmaSem sig := 49
abbrev cc6_sem3_1 : DmaSem sig := 50
abbrev cc6_sem4_0 : DmaSem sig := 51
abbrev cc6_sem5_0 : DmaSem sig := 52
abbrev cc6_sem6_0 : DmaSem sig := 53
abbrev cc6_sem6_1 : DmaSem sig := 54
abbrev cc6_sem7_0 : DmaSem sig := 55
abbrev cc6_sem7_1 : DmaSem sig := 56

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![5, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![5, 5], ![false, false]⟩

def k3_cond2 (i : grid3.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2048x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2048x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2048x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2048x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2048x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2048x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S256x256 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2048x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S2048x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S10240x10240 : S_.BroadcastsInDim S10240x10240 (![] : Fin 0 → Fin S10240x10240.rank)
  concatenates_S320000x1_S320000x1_S320000x2_d1 : Shape.Concatenates [S320000x1, S320000x1] S320000x2 1
  bcast_S10000_S10000x1_0 : S10000.BroadcastsInDim S10000x1 (![0] : Fin 1 → Fin S10000x1.rank)
  concatenates_S10000x1_S10000x1_S10000x2_d1 : Shape.Concatenates [S10000x1, S10000x1] S10000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  pads_S10000x256_S10240x256_02400_000 : S10000x256.Pads (![0, 0] : Fin 2 → Nat) ![240, 0] ![0, 0] S10240x256
  slices_S512x256_S256x256_0_0 : S512x256.Slices ![0, 0] S256x256
  slices_S512x256_S256x256_256_0 : S512x256.Slices ![256, 0] S256x256
  bcast_S_S1x256 : S_.BroadcastsInDim S1x256 (![] : Fin 0 → Fin S1x256.rank)
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S10240x256_S10000x256_0_0 : S10240x256.Slices ![0, 0] S10000x256
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  scatter_S10240x10240_S320000x2_S320000_n_01_01_1_wf : ScatterDims.WF S10240x10240 S320000x2 S320000 [] [0, 1] [0, 1] 1
  scatter_S10240x10240_S10000x2_S10000_n_01_01_1_wf : ScatterDims.WF S10240x10240 S10000x2 S10000 [] [0, 1] [0, 1] 1
  dot_S2048x128_S128x256_S2048x256_1_0_0_1_n_n_wf : DotDims.WF S2048x128 S128x256 S2048x256 [1] [0] [0] [1] [] []
  dot_S2048x2048_S2048x256_S2048x256_1_0_0_1_n_n_wf : DotDims.WF S2048x2048 S2048x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S10240x128.size a
  hwx0_0 : ∀ i : grid0.Coords, EltTy.bits .bf16 = 32 ∨ (Rect.block (s := S10240x128) S2048x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S10240x256.size a
  hwx0_3 : ∀ i : grid0.Coords, EltTy.bits .bf16 = 32 ∨ (Rect.block (s := S10240x256) S2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S10240x10240.size a
  hwx1_0 : ∀ i : grid1.Coords, EltTy.bits .bf16 = 32 ∨ (Rect.block (s := S10240x10240) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S10240x256.size a
  hwx1_1 : ∀ i : grid1.Coords, EltTy.bits .bf16 = 32 ∨ (Rect.block (s := S10240x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S10240x256.size a
  hwx1_3 : ∀ i : grid1.Coords, EltTy.bits .bf16 = 32 ∨ (Rect.block (s := S10240x256) S2048x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S10240x256.size a
  hwx2_0 : ∀ i : grid2.Coords, EltTy.bits .bf16 = 32 ∨ (Rect.block (s := S10240x256) S2048x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S10240x256.size a
  hwx2_3 : ∀ i : grid2.Coords, EltTy.bits .bf16 = 32 ∨ (Rect.block (s := S10240x256) S2048x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S10240x10240.size a
  hwx3_0 : ∀ i : grid3.Coords, EltTy.bits .bf16 = 32 ∨ (Rect.block (s := S10240x10240) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S10240x256.size a
  hwx3_1 : ∀ i : grid3.Coords, EltTy.bits .bf16 = 32 ∨ (Rect.block (s := S10240x256) S2048x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x256.size a ≤ S10240x256.size a
  hwx3_3 : ∀ i : grid3.Coords, EltTy.bits .bf16 = 32 ∨ (Rect.block (s := S10240x256) S2048x256.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S10240x256.size a
  hwx4_0 : ∀ i : grid4.Coords, EltTy.bits .bf16 = 32 ∨ (Rect.block (s := S10240x256) S2048x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .bf16 = 32 ∨ (Rect.block (s := S256x256) S256x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x256.size a ≤ S10240x256.size a
  hwx4_2 : ∀ i : grid4.Coords, EltTy.bits .f32 = 32 ∨ (Rect.block (s := S10240x256) S2048x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .bf16 = 32 ∨ (Rect.block (s := S256x256) S256x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2048x256.size a ≤ S10240x256.size a
  hwx4_5 : ∀ i : grid4.Coords, EltTy.bits .f32 = 32 ∨ (Rect.block (s := S10240x256) S2048x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x256.size a ≤ S10240x256.size a
  hwx5_0 : ∀ i : grid5.Coords, EltTy.bits .bf16 = 32 ∨ (Rect.block (s := S10240x256) S2048x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .bf16 = 32 ∨ (Rect.block (s := S256x256) S256x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x256.size a ≤ S10240x256.size a
  hwx5_2 : ∀ i : grid5.Coords, EltTy.bits .f32 = 32 ∨ (Rect.block (s := S10240x256) S2048x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .bf16 = 32 ∨ (Rect.block (s := S256x256) S256x256.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x256.size a ≤ S10240x256.size a
  hwx5_5 : ∀ i : grid5.Coords, EltTy.bits .f32 = 32 ∨ (Rect.block (s := S10240x256) S2048x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S10240x256.size a
  hwx6_0 : ∀ i : grid6.Coords, EltTy.bits .bf16 = 32 ∨ (Rect.block (s := S10240x256) S2048x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .bf16 = 32 ∨ (Rect.block (s := S256x256) S256x256.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x256.size a ≤ S10240x256.size a
  hwx6_2 : ∀ i : grid6.Coords, EltTy.bits .f32 = 32 ∨ (Rect.block (s := S10240x256) S2048x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x256.size a ≤ S10240x256.size a
  hwx6_3 : ∀ i : grid6.Coords, EltTy.bits .f32 = 32 ∨ (Rect.block (s := S10240x256) S2048x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .bf16 = 32 ∨ (Rect.block (s := S256x256) S256x256.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2048x256.size a ≤ S10240x256.size a
  hwx6_6 : ∀ i : grid6.Coords, EltTy.bits .f32 = 32 ∨ (Rect.block (s := S10240x256) S2048x256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2048x256.size a ≤ S10240x256.size a
  hwx6_7 : ∀ i : grid6.Coords, EltTy.bits .f32 = 32 ∨ (Rect.block (s := S10240x256) S2048x256.size (cc6_transform_7 i) (hinb6_7 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def scatter_S10240x10240_S320000x2_S320000_n_01_01_1 : ScatterDims S10240x10240 S320000x2 S320000 where
  updateWindowDims := []
  insertedWindowDims := [0, 1]
  scatterDimsToOperandDims := [0, 1]
  indexVectorDim := 1
  wf := scatter_S10240x10240_S320000x2_S320000_n_01_01_1_wf
def scatter_S10240x10240_S10000x2_S10000_n_01_01_1 : ScatterDims S10240x10240 S10000x2 S10000 where
  updateWindowDims := []
  insertedWindowDims := [0, 1]
  scatterDimsToOperandDims := [0, 1]
  indexVectorDim := 1
  wf := scatter_S10240x10240_S10000x2_S10000_n_01_01_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v64) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v80) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v86) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v62) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v86) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v81) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v87) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v87) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S2048x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v89) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S2048x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v71) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v90) S2048x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v89) S2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S2048x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v91) S2048x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v89) S2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S2048x256.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v65) S2048x256.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v79) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v85) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v90) S2048x256.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v92) S2048x256.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S10000x128 : Shape := ⟨2, ![10000, 128]⟩
abbrev S10000x256 : Shape := ⟨2, ![10000, 256]⟩
abbrev S2x320000 : Shape := ⟨2, ![2, 320000]⟩
abbrev S128x256 : Shape := ⟨2, ![128, 256]⟩
abbrev S256 : Shape := ⟨1, ![256]⟩
abbrev S256x256 : Shape := ⟨2, ![256, 256]⟩
abbrev S512x256 : Shape := ⟨2, ![512, 256]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S320000x256 : Shape := ⟨2, ![320000, 256]⟩
abbrev S10000x1 : Shape := ⟨2, ![10000, 1]⟩
abbrev S1x256 : Shape := ⟨2, ![1, 256]⟩
abbrev S10000x512 : Shape := ⟨2, ![10000, 512]⟩

abbrev nBuf : Space → Nat
  | .hbm => 181
  | .vmem => 0
  | .smem => 0
  | _ => 0

abbrev hbmTy0_0 (i : Nat) : BufTy := match i % 128 with
  | 0 => ⟨S10000x128, .f32⟩
  | 1 => ⟨S10000x256, .f32⟩
  | 2 => ⟨S2x320000, .i32⟩
  | 3 => ⟨S128x256, .f32⟩
  | 4 => ⟨S256, .f32⟩
  | 5 => ⟨S256x256, .f32⟩
  | 6 => ⟨S256, .f32⟩
  | 7 => ⟨S512x256, .f32⟩
  | 8 => ⟨S256, .f32⟩
  | 9 => ⟨S512x256, .f32⟩
  | 10 => ⟨S256, .f32⟩
  | 11 => ⟨S512x256, .f32⟩
  | 12 => ⟨S256, .f32⟩
  | 13 => ⟨S1x320000, .i32⟩
  | 14 => ⟨S320000, .i32⟩
  | 15 => ⟨S1x320000, .i32⟩
  | 16 => ⟨S320000, .i32⟩
  | 17 => ⟨S10000x256, .f32⟩
  | 18 => ⟨S_, .f32⟩
  | 19 => ⟨S10000, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S_, .f32⟩
  | 29 => ⟨S320000, .f32⟩
  | 30 => ⟨S10000, .f32⟩
  | 31 => ⟨S_, .f32⟩
  | 32 => ⟨S10000, .f32⟩
  | 33 => ⟨S10000, .f32⟩
  | 34 => ⟨S10000, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000, .f32⟩
  | 53 => ⟨S320000, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S320000x256, .f32⟩
  | 63 => ⟨S320000x1, .f32⟩
  | 64 => ⟨S320000x256, .f32⟩
  | 65 => ⟨S320000x256, .f32⟩
  | 66 => ⟨S_, .f32⟩
  | 67 => ⟨S10000x256, .f32⟩
  | 68 => ⟨S320000x1, .i32⟩
  | 69 => ⟨S10000x256, .f32⟩
  | 70 => ⟨S10000, .f32⟩
  | 71 => ⟨S10000x1, .f32⟩
  | 72 => ⟨S10000x256, .f32⟩
  | 73 => ⟨S10000x256, .f32⟩
  | 74 => ⟨S10000x256, .f32⟩
  | 75 => ⟨S1x256, .f32⟩
  | 76 => ⟨S10000x256, .f32⟩
  | 77 => ⟨S10000x256, .f32⟩
  | 78 => ⟨S_, .f32⟩
  | 79 => ⟨S10000x256, .f32⟩
  | 80 => ⟨S10000x256, .f32⟩
  | 81 => ⟨S10000x256, .f32⟩
  | 82 => ⟨S_, .f32⟩
  | 83 => ⟨S10000, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S_, .f32⟩
  | 93 => ⟨S320000, .f32⟩
  | 94 => ⟨S10000, .f32⟩
  | 95 => ⟨S_, .f32⟩
  | 96 => ⟨S10000, .f32⟩
  | 97 => ⟨S10000, .f32⟩
  | 98 => ⟨S10000, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000, .f32⟩
  | 117 => ⟨S320000, .f32⟩
  | 118 => ⟨S_, .i32⟩
  | 119 => ⟨S320000, .i32⟩
  | 120 => ⟨S320000, .i1⟩
  | 121 => ⟨S_, .i32⟩
  | 122 => ⟨S320000, .i32⟩
  | 123 => ⟨S320000, .i32⟩
  | 124 => ⟨S320000, .i32⟩
  | 125 => ⟨S320000x1, .i32⟩
  | 126 => ⟨S320000x256, .f32⟩
  | 127 => ⟨S320000x1, .f32⟩
  | _ => ⟨S10000x128, .f32⟩

abbrev hbmTy0_1 (i : Nat) : BufTy := match i % 128 with
  | 0 => ⟨S320000x256, .f32⟩
  | 1 => ⟨S320000x256, .f32⟩
  | 2 => ⟨S_, .f32⟩
  | 3 => ⟨S10000x256, .f32⟩
  | 4 => ⟨S320000x1, .i32⟩
  | 5 => ⟨S10000x256, .f32⟩
  | 6 => ⟨S10000, .f32⟩
  | 7 => ⟨S10000x1, .f32⟩
  | 8 => ⟨S10000x256, .f32⟩
  | 9 => ⟨S10000x256, .f32⟩
  | 10 => ⟨S10000x256, .f32⟩
  | 11 => ⟨S1x256, .f32⟩
  | 12 => ⟨S10000x256, .f32⟩
  | 13 => ⟨S10000x256, .f32⟩
  | 14 => ⟨S10000x256, .f32⟩
  | 15 => ⟨S10000x512, .f32⟩
  | 16 => ⟨S10000x256, .f32⟩
  | 17 => ⟨S1x256, .f32⟩
  | 18 => ⟨S10000x256, .f32⟩
  | 19 => ⟨S10000x256, .f32⟩
  | 20 => ⟨S10000x256, .f32⟩
  | 21 => ⟨S10000x256, .f32⟩
  | 22 => ⟨S_, .f32⟩
  | 23 => ⟨S10000x256, .f32⟩
  | 24 => ⟨S10000x256, .f32⟩
  | 25 => ⟨S_, .f32⟩
  | 26 => ⟨S10000x256, .f32⟩
  | 27 => ⟨S10000x256, .f32⟩
  | 28 => ⟨S10000x256, .f32⟩
  | 29 => ⟨S1x256, .f32⟩
  | 30 => ⟨S10000x256, .f32⟩
  | 31 => ⟨S10000x256, .f32⟩
  | 32 => ⟨S10000x256, .f32⟩
  | 33 => ⟨S10000x256, .f32⟩
  | 34 => ⟨S_, .f32⟩
  | 35 => ⟨S10000x256, .f32⟩
  | 36 => ⟨S10000x256, .f32⟩
  | 37 => ⟨S_, .f32⟩
  | 38 => ⟨S10000x256, .f32⟩
  | 39 => ⟨S10000x256, .f32⟩
  | 40 => ⟨S10000x256, .f32⟩
  | 41 => ⟨S10000x512, .f32⟩
  | 42 => ⟨S10000x256, .f32⟩
  | 43 => ⟨S1x256, .f32⟩
  | 44 => ⟨S10000x256, .f32⟩
  | 45 => ⟨S10000x256, .f32⟩
  | 46 => ⟨S10000x256, .f32⟩
  | 47 => ⟨S10000x256, .f32⟩
  | 48 => ⟨S_, .f32⟩
  | 49 => ⟨S10000x256, .f32⟩
  | 50 => ⟨S10000x256, .f32⟩
  | 51 => ⟨S10000x256, .f32⟩
  | 52 => ⟨S10000x256, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_c_17 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_c_20 : Ref sig .tc := ⟨.hbm, 118, rfl⟩
abbrev main_v83 : Ref sig .tc := ⟨.hbm, 119, rfl⟩
abbrev main_v84 : Ref sig .tc := ⟨.hbm, 120, rfl⟩
abbrev main_c_21 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_22 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_23 : Ref sig .tc := ⟨.hbm, 150, rfl⟩
abbrev main_v112 : Ref sig .tc := ⟨.hbm, 151, rfl⟩
abbrev main_v113 : Ref sig .tc := ⟨.hbm, 152, rfl⟩
abbrev main_cst_24 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_25 : Ref sig .tc := ⟨.hbm, 162, rfl⟩
abbrev main_v122 : Ref sig .tc := ⟨.hbm, 163, rfl⟩
abbrev main_v123 : Ref sig .tc := ⟨.hbm, 164, rfl⟩
abbrev main_cst_26 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_27 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  concatenates_S10000x256_S10000x256_S10000x512_d1 : Shape.Concatenates [S10000x256, S10000x256] S10000x512 1
  dot_S10000x128_S128x256_S10000x256_1_0_0_1_n_n_wf : DotDims.WF S10000x128 S128x256 S10000x256 [1] [0] [0] [1] [] []
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []
  dot_S10000x512_S512x256_S10000x256_1_0_0_1_n_n_wf : DotDims.WF S10000x512 S512x256 S10000x256 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.Frame.Base.lean ====
import proofs.«405878_j81363860455818_1_alg».proof.Proof.Gen.KernelIdeal.Launch
import Idealize.ShloMosaic.Lib.Pipeline.Regions

noncomputable section

namespace Cert.KernelIdeal.Fr

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ

local notation "𝕄" => MT nD τ sig Unit (Elt F) ℕ UU ℕ

variable (m : (ℓ : Loc nD τ sig) → Buf (Elt F) ℓ)

abbrev L : GSem nD τ sig → Finset Unit := fun _ => ∅
abbrev lv : GSem nD τ sig → Unit → ℕ := fun _ _ => 0

abbrev 𝒱₀ : Variants := Variants.none

-- core c's buffers at launch, and after each stretch of host operations before the first kernel launch
abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := StableHlo.after hostOps0_1 (V₁ m c)
abbrev V₃ (c : Dev nD) : Valuation τ sig (Elt F) := StableHlo.after hostOps0_2 (V₂ m c)
abbrev V₄ (c : Dev nD) : Valuation τ sig (Elt F) := StableHlo.after hostOps0_3 (V₃ m c)
abbrev V₅ (c : Dev nD) : Valuation τ sig (Elt F) := StableHlo.after hostOps0_4 (V₄ m c)

abbrev R (c : Dev nD) : sProp 𝕄 := iprop(∃ W, owes (c : Thread nD τ) (0 : CellTallies nD τ sig Unit) W)

end Cert.KernelIdeal.Fr

end
-- ==== Proof.Frame.RegLib.lean ====
import proofs.«405878_j81363860455818_1_alg».proof.Proof.Frame.Base
import Idealize.ShloMosaic.Lib.Pipeline.FrameBody
import Idealize.ShloMosaic.Lib.Pipeline.Value

noncomputable section

namespace Cert.KernelIdeal.Fr

open Cert.KernelIdeal Cert.KernelIdeal.Gen

open Idealize.ShloMosaic

variable {F : FTy → Type} [FloatOps F]

-- The whole rectangle of each block shape.
abbrev rBlk : Rect S2048x256 := Rect.unit (s := S2048x256) ![0, 0] S2048x256.size inb_S2048x256_S2048x256_0_0
abbrev rWts : Rect S256x256 := Rect.unit (s := S256x256) ![0, 0] S256x256.size inb_S256x256_S256x256_0_0
abbrev rRow : Rect S1x256 := Rect.unit (s := S1x256) ![0, 0] S1x256.size inb_S1x256_S1x256_0_0

-- A single write through the whole rectangle reads back as its payload, over any contents.
theorem read_store_blk {κ : Kind} {sp : Space} {e : EltTy} (v : View sig κ sp S2048x256 e) (f : v.ty.Contents (Elt F))
    (p : Vec F S2048x256 e) : v.read (Elt F) (v.writes (Elt F) f [⟨rBlk, p⟩]) = View.canon [⟨rBlk, p⟩] :=
  View.read_writes_eq_canon v f _ fun y => ⟨_, List.mem_singleton_self _, View.mem_set_unit_zero (by decide) inb_S2048x256_S2048x256_0_0 y⟩

end Cert.KernelIdeal.Fr

end
-- ==== Proof.Frame.Reg0.lean ====
import proofs.«405878_j81363860455818_1_alg».proof.Proof.Frame.RegLib
import proofs.«405878_j81363860455818_1_alg».proof.Proof.Gen.KernelIdeal.Skeleton
import proofs.«405878_j81363860455818_1_alg».proof.Proof.Gen.KernelIdeal.Points
import Idealize.ShloMosaic.Lib.Tactic

noncomputable section

namespace Cert.KernelIdeal.Fr

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

abbrev W0 (c : Dev nD) (b : Ref sig .tc) : Buf (Elt F) ((c : Thread nD τ).loc b) := V₅ m c b

def iblk0 (c : Dev nD) (w : Fin cfg0.W) (t : Fin cfg0.N) : ((cfg0.win w).xblock (cfg0.grid.coords t)).Idx → Elt F (cfg0.win w).elt :=
  ((cfg0.win w).blk t).view.read (Elt F) (W0 m c (Pipeline.arrRef spec0 w))

abbrev r0_x : Rect S2048x128 := Rect.unit (s := S2048x128) ![0, 0] S2048x128.size inb_S2048x128_S2048x128_0_0
abbrev r0_w : Rect S128x256 := Rect.unit (s := S128x256) ![0, 0] S128x256.size inb_S128x256_S128x256_0_0

-- A block of rows of the features times the first weight matrix, plus the bias row, rounded to bf16.
def out0_3 (x0 : Vec F S2048x128 .bf16) (x1 : Vec F S128x256 .bf16) (x2 : Vec F S1x256 .f32) : Vec F S2048x256 .bf16 :=
  View.canon [⟨rBlk, k0_pay1 (View.ld x0 r0_x) (View.ld x1 r0_w) (View.ld x2 rRow)⟩]

theorem sound_kernel0 (c : Dev nD) (E : Set ℕ) (i : grid0.Coords)
    (arg1 : Memref sig .tc .vmem S2048x128 .bf16) (harg1 : arg1.IsWhole) (arg2 : Memref sig .tc .vmem S128x256 .bf16) (harg2 : arg2.IsWhole)
    (arg3 : Memref sig .tc .vmem S1x256 .f32) (harg3 : arg3.IsWhole) (arg4 : Memref sig .tc .vmem S2048x256 .bf16) (harg4 : arg4.IsWhole)
    (x0 : Vec F S2048x128 .bf16) (x1 : Vec F S128x256 .bf16) (x2 : Vec F S1x256 .f32) (K : PUnit → sProp 𝕄) :
    iprop(owns c.tc arg1 fullShare x0 ∗ owns c.tc arg2 fullShare x1 ∗ owns c.tc arg3 fullShare x2
        ∗ (∃ d, owns c.tc arg4 fullShare d)
        ∗ (iprop(owns c.tc arg1 fullShare x0 ∗ owns c.tc arg2 fullShare x1 ∗ owns c.tc arg3 fullShare x2
            ∗ owns c.tc arg4 fullShare (out0_3 x0 x1 x2)) -∗ K ⟨⟩))
      ⊢ wp frame (wpE (defs₀ (F := F)) Variants.none c none) E (cc0__single_matmul_kernel i arg1 harg1 arg2 harg2 arg3 harg3 arg4 harg4) K := by
  simp only [cc0__single_matmul_kernel_eq_skeleton]; unfold cc0__single_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact read_store_blk _ _ _

def dat0 (c : Dev nD) : Dat τ (Elt F) Unit ℕ UU ℕ cfg0 c where
  A w := W0 m c (Pipeline.arrRef spec0 w)
  after w t := match w with
    | ⟨0, _⟩ => iblk0 m c 0 t
    | ⟨1, _⟩ => iblk0 m c 1 t
    | ⟨2, _⟩ => iblk0 m c 2 t
    | ⟨3, _⟩ => out0_3 (iblk0 m c 0 t) (iblk0 m c 1 t) (iblk0 m c 2 t)
  Φ _ := Pipeline.scopedRest spec0 c
  q _ := fullShare
  owed _ := 0

theorem A0_eq (c : Dev nD) (w : Fin cfg0.W) : (dat0 m c).A w = W0 m c (Pipeline.arrRef spec0 w) := by dsimp only [dat0]
theorem after0_3 (c : Dev nD) (t : Fin cfg0.N) :
    (dat0 m c).after 3 t = out0_3 (iblk0 m c 0 t) (iblk0 m c 1 t) (iblk0 m c 2 t) := by dsimp only [dat0]

theorem before0_0 (c : Dev nD) (t : Fin cfg0.N) (d) : (dat0 m c).before 0 t d = iblk0 m c 0 t :=
  (dat0 m c).before_in_eq_fetched 0 rfl (fun _ => rfl) (fun _ _ _ => rfl) (fun _ => rfl) t d
theorem before0_1 (c : Dev nD) (t : Fin cfg0.N) (d) : (dat0 m c).before 1 t d = iblk0 m c 1 t :=
  (dat0 m c).before_in_eq_fetched 1 rfl (fun _ => rfl) (fun _ _ _ => rfl) (fun _ => rfl) t d
theorem before0_2 (c : Dev nD) (t : Fin cfg0.N) (d) : (dat0 m c).before 2 t d = iblk0 m c 2 t :=
  (dat0 m c).before_in_eq_fetched 2 rfl (fun _ => rfl) (fun _ _ _ => rfl) (fun _ => rfl) t d

theorem body_obligation0 (c : Dev nD) : BodyObligation (dat0 (F := F) m c) (defs₀ (F := F)) Variants.none () Set.univ := fun t => by
  rw [bigSep_W0, bigSep_W0]
  simp only [before0_0, before0_1, before0_2]
  dsimp only [dat0, Dat.owesAt, Dat.bound]
  change _ ⊢ wp _ _ _ (bodyAt0 t) _
  iintro ⟨HΦ, Ho, ⟨%d0, H0⟩, ⟨%d1, H1⟩, ⟨%d2, H2⟩, ⟨%d3, H3⟩⟩
  iapply sound_kernel0
  iframe H0 H1 H2
  isplitl [H3]; · iexists _; iexact H3
  iintro ⟨H0, H1, H2, H3⟩
  iframe

end Cert.KernelIdeal.Fr

end
-- ==== Proof.Frame.RegAcc.lean ====
import proofs.«405878_j81363860455818_1_alg».proof.Proof.Frame.Base
import Idealize.ShloMosaic.Lib.Pipeline.FrameBody
import Idealize.ShloMosaic.Lib.Pipeline.Value

noncomputable section

namespace Cert.KernelIdeal.Fr

open Cert.KernelIdeal Cert.KernelIdeal.Gen

open Idealize.ShloMosaic

variable {F : FTy → Type} [FloatOps F]

theorem offs0 : (![0, 0] : Fin 2 → ℕ) = fun _ => 0 := funext fun a => by fin_cases a <;> rfl

-- The whole-shape rectangle holds every index, so the last piece written through it is what is read.
theorem read_store_last {S : Shape} {e : EltTy} {κ : Kind} {sp : Space} (v : View sig κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

end Cert.KernelIdeal.Fr

end
-- ==== Proof.Frame.Reg1.lean ====
import proofs.«405878_j81363860455818_1_alg».proof.Proof.Frame.RegAcc
import proofs.«405878_j81363860455818_1_alg».proof.Proof.Gen.KernelIdeal.Skeleton
import proofs.«405878_j81363860455818_1_alg».proof.Proof.Gen.KernelIdeal.Points
import Idealize.ShloMosaic.Lib.Tactic

noncomputable section

namespace Cert.KernelIdeal.Fr

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W1 : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (W1 c (Pipeline.arrRef spec1 w))

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 := by decide +kernel
abbrev cond1_1 (i : grid1.Coords) : Prop := k1_cond2 i = 1#1
theorem hcond1_1 : ∀ t : Fin cfg1.N, cond1_1 (grid1.coords t) ↔ t.val % 5 = 4 := by decide +kernel

theorem idleAt1_3 : ∀ t : Fin cfg1.N, ¬cond1_1 (grid1.coords t) → idle1 3 (grid1.coords t) = true ∧ (win1 3).flush t = false := by decide +kernel
theorem liveAt1_3 : ∀ t : Fin cfg1.N, cond1_1 (grid1.coords t) → idle1 3 (grid1.coords t) = false := by decide +kernel

-- One point's update of the running sum: restarted from zeros where k = 0, then the point's product added.
def step1 (i : grid1.Coords) (d : Vec F S2048x256 .f32) (x0 : Vec F S2048x2048 .bf16) (x1 : Vec F S2048x256 .bf16) : Vec F S2048x256 .f32 :=
  k1_pay2 (if cond1_0 i then k1_pay1 else d) x0 x1

def acc1 (c : Dev nD) : ℕ → Vec F S2048x256 .f32
  | 0 => k1_pay1
  | n + 1 =>
    if h : n < cfg1.N then
      if n % 5 = 0 then k1_pay2 (k1_pay1 (F := F)) (iblk1 W1 c 0 ⟨n, h⟩) (iblk1 W1 c 1 ⟨n, h⟩)
      else k1_pay2 (acc1 c n) (iblk1 W1 c 0 ⟨n, h⟩) (iblk1 W1 c 1 ⟨n, h⟩)
    else acc1 c n

theorem acc1_first (c : Dev nD) (t : Fin cfg1.N) (h0 : t.val % 5 = 0) :
    acc1 W1 c (t.val + 1) = k1_pay2 (k1_pay1 (F := F)) (iblk1 W1 c 0 t) (iblk1 W1 c 1 t) := by
  obtain ⟨n, hn⟩ := t
  exact (dif_pos hn).trans (if_pos h0)

theorem acc1_next (c : Dev nD) (t : Fin cfg1.N) (h0 : ¬t.val % 5 = 0) :
    acc1 W1 c (t.val + 1) = k1_pay2 (acc1 W1 c t.val) (iblk1 W1 c 0 t) (iblk1 W1 c 1 t) := by
  obtain ⟨n, hn⟩ := t
  exact (dif_pos hn).trans (if_neg h0)

-- The recursion of acc1 is one such update, whatever the sum was before a row's first point.
theorem acc1_succ (c : Dev nD) (t : Fin cfg1.N) (d : Vec F S2048x256 .f32) (hd : ¬t.val % 5 = 0 → d = acc1 W1 c t.val) :
    acc1 W1 c (t.val + 1) = step1 (grid1.coords t) d (iblk1 W1 c 0 t) (iblk1 W1 c 1 t) := by
  unfold step1
  by_cases h0 : t.val % 5 = 0
  · rw [acc1_first W1 c t h0, if_pos ((hcond1_0 t).mpr h0)]
  · rw [acc1_next W1 c t h0, if_neg fun h => h0 ((hcond1_0 t).mp h), hd h0]

-- The control cases k = 0, 0 < k < 4 and k = 4 in one triple: the case split lives in step1 and in the conditional output.
theorem sound_kernel1 {c : Dev nD} {E} {i : grid1.Coords} (hx : cond1_0 i → ¬cond1_1 i)
    {arg2 harg2 arg3 harg3 arg4 harg4 arg5 harg5 arg6 harg6 x0 x1 x2 d5 d6} {K : PUnit → sProp 𝕄} :
    iprop(owns c arg2 fullShare x0 ∗ owns c arg3 fullShare x1 ∗ owns c arg4 fullShare x2
        ∗ owns c arg5 fullShare d5 ∗ owns c arg6 fullShare d6
        ∗ (iprop(owns c arg2 fullShare x0 ∗ owns c arg3 fullShare x1 ∗ owns c arg4 fullShare x2
            ∗ owns c arg5 fullShare (if cond1_1 i then k1_pay3 (step1 i d6 x0 x1) x2 else d5)
            ∗ owns c arg6 fullShare (step1 i d6 x0 x1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel owns step1
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  by_cases hc0 : cond1_0 i <;> by_cases hc1 : cond1_1 i
  · exact absurd hc1 (hx hc0)
  all_goals
    first | rw [if_pos hc0] | rw [if_neg hc0]
    first | rw [if_pos hc1] | rw [if_neg hc1]
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H5] <;> (iexists _; isplitr)
    on_goal 2 => iexact H5
    on_goal 3 => iexact H6
    all_goals
      ipureintro
      first
      | (sl_unfold_run_names
         simp only [read_store_last (S := S2048x256) _ _ offs0, View.readCov_cons_toLoadRect, View.readAt_eq_ld,
           View.ld_unit_zero (S := S2048x2048) offs0, View.ld_unit_zero (S := S2048x256) offs0, View.ld_unit_zero (S := S1x256) offs0])
      | rfl

-- The invariant carries the running sum: within a row of the grid it is acc1 at the position, at a row's start it is not constrained.
def Phi1 (c : Dev nD) (n : ℕ) : sProp 𝕄 :=
  iprop((∃ d, ⌜¬n % 5 = 0 → d = acc1 W1 c n⌝ ∗ owns c (Memref.whole cc1_scratch0) fullShare d)
    ∗ Pipeline.scopedRestBut spec1 c [cc1_scratch0])

def dat1 (c : Dev nD) : Dat τ (Elt F) Unit ℕ UU ℕ cfg1 c where
  A w := W1 c (Pipeline.arrRef spec1 w)
  after w t := match w with
    | ⟨0, _⟩ => iblk1 W1 c 0 t
    | ⟨1, _⟩ => iblk1 W1 c 1 t
    | ⟨2, _⟩ => iblk1 W1 c 2 t
    | ⟨3, _⟩ => k1_pay3 (acc1 W1 c (t.val + 1)) (iblk1 W1 c 2 t)
  Φ t := Phi1 W1 c t.val
  q _ := fullShare
  owed _ := 0

theorem A1_eq (c : Dev nD) (w : Fin cfg1.W) : (dat1 W1 c).A w = W1 c (Pipeline.arrRef spec1 w) := by dsimp only [dat1]
theorem after1_3 (c : Dev nD) (t : Fin cfg1.N) :
    (dat1 W1 c).after 3 t = k1_pay3 (acc1 W1 c (t.val + 1)) (iblk1 W1 c 2 t) := by dsimp only [dat1]

theorem before1 (c : Dev nD) (t : Fin cfg1.N) : (∀ d, (dat1 W1 c).before 0 t d = iblk1 W1 c 0 t) ∧ (∀ d, (dat1 W1 c).before 1 t d = iblk1 W1 c 1 t)
    ∧ ∀ d, (dat1 W1 c).before 2 t d = iblk1 W1 c 2 t := by
  refine ⟨?_, ?_, ?_⟩ <;> exact fun d =>
    Eq.trans (Dat.before_in_eq_fetched _ _ rfl (fun _ => rfl) (fun _ _ _ => rfl) (fun t => by unfold Dat.blockOf; dsimp only [dat1, iblk1]; try rfl) t d)
      (by unfold Dat.fetched Dat.blockOf iblk1; rw [A1_eq]; try rfl)

-- At a generic point, from the function's triple: acc1_succ names the updated sum, and the output is as found unless k = 4.
theorem body_obligation1 (c : Dev nD) : BodyObligation (dat1 (F := F) W1 c) (defs₀ (F := F)) Variants.none () Set.univ := fun t => by
  rw [bigSep_W1, bigSep_W1]
  dsimp only
  show _ ⊢ wp _ _ _ (bodyAt1 t) _
  unfold bodyAt1
  simp only [(before1 W1 c t).1, (before1 W1 c t).2.1, (before1 W1 c t).2.2]
  dsimp only [dat1, Dat.owesAt, Dat.bound, Fin.coe_castSucc, Fin.val_succ]
  unfold Phi1
  iintro ⟨⟨⟨%d6, %hd6, HS⟩, Hr⟩, Ho, ⟨%d0, H0⟩, ⟨%d1, H1⟩, ⟨%d2, H2⟩, ⟨%d3, H3⟩⟩
  have hs := acc1_succ W1 c t d6 hd6
  iapply (sound_kernel1 (i := grid1.coords t) fun a b => by have := (hcond1_0 t).mp a; have := (hcond1_1 t).mp b; omega)
  iframe
  iintro ⟨H0, H1, H2, H3, HS⟩
  iframe
  isplitl [HS]
  · iexists _; isplitr
    · ipureintro; exact fun _ => hs.symm
    iexact HS
  by_cases h1 : cond1_1 (grid1.coords t)
  · rw [if_pos h1, ← hs, liveAt1_3 t h1]; iexact H3
  · rw [if_neg h1, (idleAt1_3 t h1).1, (idleAt1_3 t h1).2]; iexists d3; iexact H3

-- Position 0 starts a row, so the invariant asks nothing of the running sum there.
theorem Φ1_in (c : Dev nD) :
    (Pipeline.scopedRest spec1 c : sProp 𝕄) ⊢ (dat1 W1 c).Φ 0 := by
  rw [show (dat1 W1 c).Φ 0 = Phi1 W1 c 0 from rfl, scopedRest1_split]
  unfold Phi1
  iintro ⟨⟨%f, HS⟩, Hr⟩
  iframe Hr
  iexists f; isplitr
  · ipureintro; exact fun h => absurd (Nat.zero_mod 5) h
  rw [owns_whole]; iexact HS

-- At the end the invariant's claim on the running sum is dropped.
theorem Φ1_out (c : Dev nD) :
    (dat1 W1 c).Φ (Fin.last cfg1.N) ⊢ (Pipeline.scopedRest spec1 c : sProp 𝕄) := by
  rw [show (dat1 W1 c).Φ (Fin.last cfg1.N) = Phi1 W1 c cfg1.N from rfl, scopedRest1_split]
  unfold Phi1
  simp only [owns_whole]
  iintro ⟨⟨%d, -, HS⟩, Hr⟩
  iframe Hr
  iexists d; iexact HS

end Cert.KernelIdeal.Fr

end
-- ==== Proof.Frame.Reg2.lean ====
import proofs.«405878_j81363860455818_1_alg».proof.Proof.Frame.RegLib
import proofs.«405878_j81363860455818_1_alg».proof.Proof.Gen.KernelIdeal.Skeleton
import proofs.«405878_j81363860455818_1_alg».proof.Proof.Gen.KernelIdeal.Points
import Idealize.ShloMosaic.Lib.Tactic

noncomputable section

namespace Cert.KernelIdeal.Fr

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W2 : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (W2 c (Pipeline.arrRef spec2 w))

-- A block of rows of the first layer's activations times the second weight matrix, plus the bias row, rounded to bf16.
def out2_3 (x0 : Vec F S2048x256 .bf16) (x1 : Vec F S256x256 .bf16) (x2 : Vec F S1x256 .f32) : Vec F S2048x256 .bf16 :=
  View.canon [⟨rBlk, k2_pay1 (View.ld x0 rBlk) (View.ld x1 rWts) (View.ld x2 rRow)⟩]

theorem sound_kernel2 (c : Dev nD) (E : Set ℕ) (i : grid2.Coords)
    (arg1 : Memref sig .tc .vmem S2048x256 .bf16) (harg1 : arg1.IsWhole) (arg2 : Memref sig .tc .vmem S256x256 .bf16) (harg2 : arg2.IsWhole)
    (arg3 : Memref sig .tc .vmem S1x256 .f32) (harg3 : arg3.IsWhole) (arg4 : Memref sig .tc .vmem S2048x256 .bf16) (harg4 : arg4.IsWhole)
    (x0 : Vec F S2048x256 .bf16) (x1 : Vec F S256x256 .bf16) (x2 : Vec F S1x256 .f32) (K : PUnit → sProp 𝕄) :
    iprop(owns c.tc arg1 fullShare x0 ∗ owns c.tc arg2 fullShare x1 ∗ owns c.tc arg3 fullShare x2
        ∗ (∃ d, owns c.tc arg4 fullShare d)
        ∗ (iprop(owns c.tc arg1 fullShare x0 ∗ owns c.tc arg2 fullShare x1 ∗ owns c.tc arg3 fullShare x2
            ∗ owns c.tc arg4 fullShare (out2_3 x0 x1 x2)) -∗ K ⟨⟩))
      ⊢ wp frame (wpE (defs₀ (F := F)) Variants.none c none) E (cc2__single_matmul_kernel i arg1 harg1 arg2 harg2 arg3 harg3 arg4 harg4) K := by
  simp only [cc2__single_matmul_kernel_eq_skeleton]; unfold cc2__single_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact read_store_blk _ _ _

def dat2 (c : Dev nD) : Dat τ (Elt F) Unit ℕ UU ℕ cfg2 c where
  A w := W2 c (Pipeline.arrRef spec2 w)
  after w t := match w with
    | ⟨0, _⟩ => iblk2 W2 c 0 t
    | ⟨1, _⟩ => iblk2 W2 c 1 t
    | ⟨2, _⟩ => iblk2 W2 c 2 t
    | ⟨3, _⟩ => out2_3 (iblk2 W2 c 0 t) (iblk2 W2 c 1 t) (iblk2 W2 c 2 t)
  Φ _ := Pipeline.scopedRest spec2 c
  q _ := fullShare
  owed _ := 0

theorem A2_eq (c : Dev nD) (w : Fin cfg2.W) : (dat2 W2 c).A w = W2 c (Pipeline.arrRef spec2 w) := by dsimp only [dat2]
theorem after2_3 (c : Dev nD) (t : Fin cfg2.N) :
    (dat2 W2 c).after 3 t = out2_3 (iblk2 W2 c 0 t) (iblk2 W2 c 1 t) (iblk2 W2 c 2 t) := by dsimp only [dat2]

theorem before2 (c : Dev nD) (t : Fin cfg2.N) :
    (∀ d, (dat2 W2 c).before 0 t d = iblk2 W2 c 0 t) ∧
    (∀ d, (dat2 W2 c).before 1 t d = iblk2 W2 c 1 t) ∧
    ∀ d, (dat2 W2 c).before 2 t d = iblk2 W2 c 2 t :=
  ⟨(dat2 W2 c).before_in_eq_fetched 0 rfl (fun _ => rfl) (fun _ _ _ => rfl) (fun _ => rfl) t,
    (dat2 W2 c).before_in_eq_fetched 1 rfl (fun _ => rfl) (fun _ _ _ => rfl) (fun _ => rfl) t,
    (dat2 W2 c).before_in_eq_fetched 2 rfl (fun _ => rfl) (fun _ _ _ => rfl) (fun _ => rfl) t⟩

theorem body_obligation2 (c : Dev nD) : BodyObligation (dat2 (F := F) W2 c) (defs₀ (F := F)) Variants.none () Set.univ := fun t => by
  rw [bigSep_W2, bigSep_W2]
  simp only [before2]
  dsimp only [dat2, Dat.owesAt, Dat.bound]
  change _ ⊢ wp _ _ _ (bodyAt2 t) _
  iintro ⟨HΦ, Ho, ⟨%d0, H0⟩, ⟨%d1, H1⟩, ⟨%d2, H2⟩, ⟨%d3, H3⟩⟩
  iapply sound_kernel2
  iframe H0 H1 H2
  isplitl [H3]; · iexists _; iexact H3
  iintro ⟨H0, H1, H2, H3⟩
  iframe

end Cert.KernelIdeal.Fr

end
-- ==== Proof.Frame.Reg3.lean ====
import proofs.«405878_j81363860455818_1_alg».proof.Proof.Frame.RegAcc
import proofs.«405878_j81363860455818_1_alg».proof.Proof.Gen.KernelIdeal.Skeleton
import proofs.«405878_j81363860455818_1_alg».proof.Proof.Gen.KernelIdeal.Points
import Idealize.ShloMosaic.Lib.Tactic

noncomputable section

namespace Cert.KernelIdeal.Fr

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W3 : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (W3 c (Pipeline.arrRef spec3 w))

abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 5 = 0 := by decide +kernel
abbrev cond3_1 (i : grid3.Coords) : Prop := k3_cond2 i = 1#1
theorem hcond3_1 : ∀ t : Fin cfg3.N, cond3_1 (grid3.coords t) ↔ t.val % 5 = 4 := by decide +kernel

theorem idleAt3_3 : ∀ t : Fin cfg3.N, ¬cond3_1 (grid3.coords t) → idle3 3 (grid3.coords t) = true ∧ (win3 3).flush t = false := by decide +kernel
theorem liveAt3_3 : ∀ t : Fin cfg3.N, cond3_1 (grid3.coords t) → idle3 3 (grid3.coords t) = false := by decide +kernel

-- One point's update of the running sum: restarted from zeros where k = 0, then the point's product added.
def step3 (i : grid3.Coords) (d : Vec F S2048x256 .f32) (x0 : Vec F S2048x2048 .bf16) (x1 : Vec F S2048x256 .bf16) : Vec F S2048x256 .f32 :=
  k3_pay2 (if cond3_0 i then k3_pay1 else d) x0 x1

def acc3 (c : Dev nD) : ℕ → Vec F S2048x256 .f32
  | 0 => k3_pay1
  | n + 1 =>
    if h : n < cfg3.N then
      if n % 5 = 0 then k3_pay2 (k3_pay1 (F := F)) (iblk3 W3 c 0 ⟨n, h⟩) (iblk3 W3 c 1 ⟨n, h⟩)
      else k3_pay2 (acc3 c n) (iblk3 W3 c 0 ⟨n, h⟩) (iblk3 W3 c 1 ⟨n, h⟩)
    else acc3 c n

theorem acc3_first (c : Dev nD) (t : Fin cfg3.N) (h0 : t.val % 5 = 0) :
    acc3 W3 c (t.val + 1) = k3_pay2 (k3_pay1 (F := F)) (iblk3 W3 c 0 t) (iblk3 W3 c 1 t) := by
  obtain ⟨n, hn⟩ := t
  exact (dif_pos hn).trans (if_pos h0)

theorem acc3_next (c : Dev nD) (t : Fin cfg3.N) (h0 : ¬t.val % 5 = 0) :
    acc3 W3 c (t.val + 1) = k3_pay2 (acc3 W3 c t.val) (iblk3 W3 c 0 t) (iblk3 W3 c 1 t) := by
  obtain ⟨n, hn⟩ := t
  exact (dif_pos hn).trans (if_neg h0)

-- The recursion of acc3 is one such update, whatever the sum was before a row's first point.
theorem acc3_succ (c : Dev nD) (t : Fin cfg3.N) (d : Vec F S2048x256 .f32) (hd : ¬t.val % 5 = 0 → d = acc3 W3 c t.val) :
    acc3 W3 c (t.val + 1) = step3 (grid3.coords t) d (iblk3 W3 c 0 t) (iblk3 W3 c 1 t) := by
  unfold step3
  by_cases h0 : t.val % 5 = 0
  · rw [acc3_first W3 c t h0, if_pos ((hcond3_0 t).mpr h0)]
  · rw [acc3_next W3 c t h0, if_neg fun h => h0 ((hcond3_0 t).mp h), hd h0]

-- The control cases k = 0, 0 < k < 4 and k = 4 in one triple: the case split lives in step3 and in the conditional output.
theorem sound_kernel3 {c : Dev nD} {E} {i : grid3.Coords} (hx : cond3_0 i → ¬cond3_1 i)
    {arg2 harg2 arg3 harg3 arg4 harg4 arg5 harg5 arg6 harg6 x0 x1 x2 d5 d6} {K : PUnit → sProp 𝕄} :
    iprop(owns c arg2 fullShare x0 ∗ owns c arg3 fullShare x1 ∗ owns c arg4 fullShare x2
        ∗ owns c arg5 fullShare d5 ∗ owns c arg6 fullShare d6
        ∗ (iprop(owns c arg2 fullShare x0 ∗ owns c arg3 fullShare x1 ∗ owns c arg4 fullShare x2
            ∗ owns c arg5 fullShare (if cond3_1 i then k3_pay3 (step3 i d6 x0 x1) x2 else d5)
            ∗ owns c arg6 fullShare (step3 i d6 x0 x1)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel owns step3
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  by_cases hc0 : cond3_0 i <;> by_cases hc1 : cond3_1 i
  · exact absurd hc1 (hx hc0)
  all_goals
    first | rw [if_pos hc0] | rw [if_neg hc0]
    first | rw [if_pos hc1] | rw [if_neg hc1]
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H5] <;> (iexists _; isplitr)
    on_goal 2 => iexact H5
    on_goal 3 => iexact H6
    all_goals
      ipureintro
      first
      | (sl_unfold_run_names
         simp only [read_store_last (S := S2048x256) _ _ offs0, View.readCov_cons_toLoadRect, View.readAt_eq_ld,
           View.ld_unit_zero (S := S2048x2048) offs0, View.ld_unit_zero (S := S2048x256) offs0, View.ld_unit_zero (S := S1x256) offs0])
      | rfl

-- The invariant carries the running sum: within a row of the grid it is acc3 at the position, at a row's start it is not constrained.
def Phi3 (c : Dev nD) (n : ℕ) : sProp 𝕄 :=
  iprop((∃ d, ⌜¬n % 5 = 0 → d = acc3 W3 c n⌝ ∗ owns c (Memref.whole cc3_scratch0) fullShare d)
    ∗ Pipeline.scopedRestBut spec3 c [cc3_scratch0])

def dat3 (c : Dev nD) : Dat τ (Elt F) Unit ℕ UU ℕ cfg3 c where
  A w := W3 c (Pipeline.arrRef spec3 w)
  after w t := match w with
    | ⟨0, _⟩ => iblk3 W3 c 0 t
    | ⟨1, _⟩ => iblk3 W3 c 1 t
    | ⟨2, _⟩ => iblk3 W3 c 2 t
    | ⟨3, _⟩ => k3_pay3 (acc3 W3 c (t.val + 1)) (iblk3 W3 c 2 t)
  Φ t := Phi3 W3 c t.val
  q _ := fullShare
  owed _ := 0

theorem A3_eq (c : Dev nD) (w : Fin cfg3.W) : (dat3 W3 c).A w = W3 c (Pipeline.arrRef spec3 w) := by dsimp only [dat3]
theorem after3_3 (c : Dev nD) (t : Fin cfg3.N) :
    (dat3 W3 c).after 3 t = k3_pay3 (acc3 W3 c (t.val + 1)) (iblk3 W3 c 2 t) := by dsimp only [dat3]

theorem before3 (c : Dev nD) (t : Fin cfg3.N) : (∀ d, (dat3 W3 c).before 0 t d = iblk3 W3 c 0 t) ∧ (∀ d, (dat3 W3 c).before 1 t d = iblk3 W3 c 1 t)
    ∧ ∀ d, (dat3 W3 c).before 2 t d = iblk3 W3 c 2 t := by
  refine ⟨?_, ?_, ?_⟩ <;> exact fun d =>
    Eq.trans (Dat.before_in_eq_fetched _ _ rfl (fun _ => rfl) (fun _ _ _ => rfl) (fun t => by unfold Dat.blockOf; dsimp only [dat3, iblk3]; try rfl) t d)
      (by unfold Dat.fetched Dat.blockOf iblk3; rw [A3_eq]; try rfl)

-- At a generic point, from the function's triple: acc3_succ names the updated sum, and the output is as found unless k = 4.
theorem body_obligation3 (c : Dev nD) : BodyObligation (dat3 (F := F) W3 c) (defs₀ (F := F)) Variants.none () Set.univ := fun t => by
  rw [bigSep_W3, bigSep_W3]
  dsimp only
  show _ ⊢ wp _ _ _ (bodyAt3 t) _
  unfold bodyAt3
  simp only [(before3 W3 c t).1, (before3 W3 c t).2.1, (before3 W3 c t).2.2]
  dsimp only [dat3, Dat.owesAt, Dat.bound, Fin.coe_castSucc, Fin.val_succ]
  unfold Phi3
  iintro ⟨⟨⟨%d6, %hd6, HS⟩, Hr⟩, Ho, ⟨%d0, H0⟩, ⟨%d1, H1⟩, ⟨%d2, H2⟩, ⟨%d3, H3⟩⟩
  have hs := acc3_succ W3 c t d6 hd6
  iapply (sound_kernel3 (i := grid3.coords t) fun a b => by have := (hcond3_0 t).mp a; have := (hcond3_1 t).mp b; omega)
  iframe
  iintro ⟨H0, H1, H2, H3, HS⟩
  iframe
  isplitl [HS]
  · iexists _; isplitr
    · ipureintro; exact fun _ => hs.symm
    iexact HS
  by_cases h1 : cond3_1 (grid3.coords t)
  · rw [if_pos h1, ← hs, liveAt3_3 t h1]; iexact H3
  · rw [if_neg h1, (idleAt3_3 t h1).1, (idleAt3_3 t h1).2]; iexists d3; iexact H3

-- Position 0 starts a row, so the invariant asks nothing of the running sum there.
theorem Φ3_in (c : Dev nD) :
    (Pipeline.scopedRest spec3 c : sProp 𝕄) ⊢ (dat3 W3 c).Φ 0 := by
  rw [show (dat3 W3 c).Φ 0 = Phi3 W3 c 0 from rfl, scopedRest3_split]
  unfold Phi3
  iintro ⟨⟨%f, HS⟩, Hr⟩
  iframe Hr
  iexists f; isplitr
  · ipureintro; exact fun h => absurd (Nat.zero_mod 5) h
  rw [owns_whole]; iexact HS

-- At the end the invariant's claim on the running sum is dropped.
theorem Φ3_out (c : Dev nD) :
    (dat3 W3 c).Φ (Fin.last cfg3.N) ⊢ (Pipeline.scopedRest spec3 c : sProp 𝕄) := by
  rw [show (dat3 W3 c).Φ (Fin.last cfg3.N) = Phi3 W3 c cfg3.N from rfl, scopedRest3_split]
  unfold Phi3
  simp only [owns_whole]
  iintro ⟨⟨%d, -, HS⟩, Hr⟩
  iframe Hr
  iexists d; iexact HS

end Cert.KernelIdeal.Fr

end
-- ==== Proof.Frame.Reg4.lean ====
import proofs.«405878_j81363860455818_1_alg».proof.Proof.Frame.RegLib
import proofs.«405878_j81363860455818_1_alg».proof.Proof.Gen.KernelIdeal.Skeleton
import proofs.«405878_j81363860455818_1_alg».proof.Proof.Gen.KernelIdeal.Points
import Idealize.ShloMosaic.Lib.Tactic

noncomputable section

namespace Cert.KernelIdeal.Fr

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W4 : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (W4 c (Pipeline.arrRef spec4 w))

-- A gate on a block of rows: sigmoid (z W_top + h W_bottom + b), h rounded to bf16 first.
def out4_5 (x0 : Vec F S2048x256 .bf16) (x1 : Vec F S256x256 .bf16) (x2 : Vec F S2048x256 .f32) (x3 : Vec F S256x256 .bf16) (x4 : Vec F S1x256 .f32) : Vec F S2048x256 .f32 :=
  View.canon [⟨rBlk, k4_pay1 (View.ld x0 rBlk) (View.ld x1 rWts) (View.ld x2 rBlk) (View.ld x3 rWts) (View.ld x4 rRow)⟩]

theorem sound_kernel4 (c : Dev nD) (E : Set ℕ) (i : grid4.Coords)
    (arg1 : Memref sig .tc .vmem S2048x256 .bf16) (harg1 : arg1.IsWhole) (arg2 : Memref sig .tc .vmem S256x256 .bf16) (harg2 : arg2.IsWhole)
    (arg3 : Memref sig .tc .vmem S2048x256 .f32) (harg3 : arg3.IsWhole) (arg4 : Memref sig .tc .vmem S256x256 .bf16) (harg4 : arg4.IsWhole)
    (arg5 : Memref sig .tc .vmem S1x256 .f32) (harg5 : arg5.IsWhole) (arg6 : Memref sig .tc .vmem S2048x256 .f32) (harg6 : arg6.IsWhole)
    (x0 : Vec F S2048x256 .bf16) (x1 : Vec F S256x256 .bf16) (x2 : Vec F S2048x256 .f32) (x3 : Vec F S256x256 .bf16) (x4 : Vec F S1x256 .f32) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4
        ∗ (∃ d, owns c.tc arg6 fullShare d)
        ∗ (iprop(owns c.tc arg1 fullShare x0 ∗ owns c.tc arg2 fullShare x1 ∗ owns c.tc arg3 fullShare x2
            ∗ owns c.tc arg4 fullShare x3 ∗ owns c.tc arg5 fullShare x4
            ∗ owns c.tc arg6 fullShare (out4_5 x0 x1 x2 x3 x4)) -∗ K ⟨⟩))
      ⊢ wp frame (wpE (defs₀ (F := F)) Variants.none c none) E (cc4__gate_kernel i arg1 harg1 arg2 harg2 arg3 harg3 arg4 harg4 arg5 harg5 arg6 harg6) K := by
  simp only [cc4__gate_kernel_eq_skeleton]; unfold cc4__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact read_store_blk _ _ _

def dat4 (c : Dev nD) : Dat τ (Elt F) Unit ℕ UU ℕ cfg4 c where
  A w := W4 c (Pipeline.arrRef spec4 w)
  after w t := match w with
    | ⟨0, _⟩ => iblk4 W4 c 0 t
    | ⟨1, _⟩ => iblk4 W4 c 1 t
    | ⟨2, _⟩ => iblk4 W4 c 2 t
    | ⟨3, _⟩ => iblk4 W4 c 3 t
    | ⟨4, _⟩ => iblk4 W4 c 4 t
    | ⟨5, _⟩ => out4_5 (iblk4 W4 c 0 t) (iblk4 W4 c 1 t) (iblk4 W4 c 2 t) (iblk4 W4 c 3 t) (iblk4 W4 c 4 t)
  Φ _ := Pipeline.scopedRest spec4 c
  q _ := fullShare
  owed _ := 0

theorem A4_eq (c : Dev nD) (w : Fin cfg4.W) : (dat4 W4 c).A w = W4 c (Pipeline.arrRef spec4 w) := by dsimp only [dat4]
theorem after4_5 (c : Dev nD) (t : Fin cfg4.N) :
    (dat4 W4 c).after 5 t = out4_5 (iblk4 W4 c 0 t) (iblk4 W4 c 1 t) (iblk4 W4 c 2 t) (iblk4 W4 c 3 t) (iblk4 W4 c 4 t) := by dsimp only [dat4]

theorem before4 (c : Dev nD) (t : Fin cfg4.N) :
    (∀ d, (dat4 W4 c).before 0 t d = iblk4 W4 c 0 t) ∧
    (∀ d, (dat4 W4 c).before 1 t d = iblk4 W4 c 1 t) ∧
    (∀ d, (dat4 W4 c).before 2 t d = iblk4 W4 c 2 t) ∧
    (∀ d, (dat4 W4 c).before 3 t d = iblk4 W4 c 3 t) ∧
    ∀ d, (dat4 W4 c).before 4 t d = iblk4 W4 c 4 t :=
  ⟨(dat4 W4 c).before_in_eq_fetched 0 rfl (fun _ => rfl) (fun _ _ _ => rfl) (fun _ => rfl) t,
    (dat4 W4 c).before_in_eq_fetched 1 rfl (fun _ => rfl) (fun _ _ _ => rfl) (fun _ => rfl) t,
    (dat4 W4 c).before_in_eq_fetched 2 rfl (fun _ => rfl) (fun _ _ _ => rfl) (fun _ => rfl) t,
    (dat4 W4 c).before_in_eq_fetched 3 rfl (fun _ => rfl) (fun _ _ _ => rfl) (fun _ => rfl) t,
    (dat4 W4 c).before_in_eq_fetched 4 rfl (fun _ => rfl) (fun _ _ _ => rfl) (fun _ => rfl) t⟩

theorem body_obligation4 (c : Dev nD) : BodyObligation (dat4 (F := F) W4 c) (defs₀ (F := F)) Variants.none () Set.univ := fun t => by
  rw [bigSep_W4, bigSep_W4]
  simp only [before4]
  dsimp only [dat4, Dat.owesAt, Dat.bound]
  change _ ⊢ wp _ _ _ (bodyAt4 t) _
  iintro ⟨HΦ, Ho, ⟨%d0, H0⟩, ⟨%d1, H1⟩, ⟨%d2, H2⟩, ⟨%d3, H3⟩, ⟨%d4, H4⟩, ⟨%d5, H5⟩⟩
  iapply sound_kernel4
  iframe H0 H1 H2 H3 H4
  isplitl [H5]; · iexists _; iexact H5
  iintro ⟨H0, H1, H2, H3, H4, H5⟩
  iframe

end Cert.KernelIdeal.Fr

end
-- ==== Proof.Frame.Reg5.lean ====
import proofs.«405878_j81363860455818_1_alg».proof.Proof.Frame.Reg4

noncomputable section

namespace Cert.KernelIdeal.Fr

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W5 : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (W5 c (Pipeline.arrRef spec5 w))

-- A gate on a block of rows: sigmoid (z W_top + h W_bottom + b), h rounded to bf16 first.
def out5_5 (x0 : Vec F S2048x256 .bf16) (x1 : Vec F S256x256 .bf16) (x2 : Vec F S2048x256 .f32) (x3 : Vec F S256x256 .bf16) (x4 : Vec F S1x256 .f32) : Vec F S2048x256 .f32 :=
  View.canon [⟨rBlk, k5_pay1 (View.ld x0 rBlk) (View.ld x1 rWts) (View.ld x2 rBlk) (View.ld x3 rWts) (View.ld x4 rRow)⟩]

def dat5 (c : Dev nD) : Dat τ (Elt F) Unit ℕ UU ℕ cfg5 c where
  A w := W5 c (Pipeline.arrRef spec5 w)
  after w t := match w with
    | ⟨0, _⟩ => iblk5 W5 c 0 t
    | ⟨1, _⟩ => iblk5 W5 c 1 t
    | ⟨2, _⟩ => iblk5 W5 c 2 t
    | ⟨3, _⟩ => iblk5 W5 c 3 t
    | ⟨4, _⟩ => iblk5 W5 c 4 t
    | ⟨5, _⟩ => out5_5 (iblk5 W5 c 0 t) (iblk5 W5 c 1 t) (iblk5 W5 c 2 t) (iblk5 W5 c 3 t) (iblk5 W5 c 4 t)
  Φ _ := Pipeline.scopedRest spec5 c
  q _ := fullShare
  owed _ := 0

theorem A5_eq (c : Dev nD) (w : Fin cfg5.W) : (dat5 W5 c).A w = W5 c (Pipeline.arrRef spec5 w) := by dsimp only [dat5]
theorem after5_5 (c : Dev nD) (t : Fin cfg5.N) :
    (dat5 W5 c).after 5 t = out5_5 (iblk5 W5 c 0 t) (iblk5 W5 c 1 t) (iblk5 W5 c 2 t) (iblk5 W5 c 3 t) (iblk5 W5 c 4 t) := by dsimp only [dat5]

theorem before5 (c : Dev nD) (t : Fin cfg5.N) :
    (∀ d, (dat5 W5 c).before 0 t d = iblk5 W5 c 0 t) ∧
    (∀ d, (dat5 W5 c).before 1 t d = iblk5 W5 c 1 t) ∧
    (∀ d, (dat5 W5 c).before 2 t d = iblk5 W5 c 2 t) ∧
    (∀ d, (dat5 W5 c).before 3 t d = iblk5 W5 c 3 t) ∧
    ∀ d, (dat5 W5 c).before 4 t d = iblk5 W5 c 4 t :=
  ⟨(dat5 W5 c).before_in_eq_fetched 0 rfl (fun _ => rfl) (fun _ _ _ => rfl) (fun _ => rfl) t,
    (dat5 W5 c).before_in_eq_fetched 1 rfl (fun _ => rfl) (fun _ _ _ => rfl) (fun _ => rfl) t,
    (dat5 W5 c).before_in_eq_fetched 2 rfl (fun _ => rfl) (fun _ _ _ => rfl) (fun _ => rfl) t,
    (dat5 W5 c).before_in_eq_fetched 3 rfl (fun _ => rfl) (fun _ _ _ => rfl) (fun _ => rfl) t,
    (dat5 W5 c).before_in_eq_fetched 4 rfl (fun _ => rfl) (fun _ _ _ => rfl) (fun _ => rfl) t⟩

-- This launch's body is, by unfolding, the body of the other gate launch, whose triple serves here.
theorem body_obligation5 (c : Dev nD) : BodyObligation (dat5 (F := F) W5 c) (defs₀ (F := F)) Variants.none () Set.univ := fun t => by
  rw [bigSep_W5, bigSep_W5]
  simp only [before5]
  dsimp only [dat5, Dat.owesAt, Dat.bound]
  change _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid5.coords t) (st5_0 t) (hstage5_0 _) (st5_1 t) (hstage5_1 _) (st5_2 t) (hstage5_2 _) (st5_3 t) (hstage5_3 _) (st5_4 t) (hstage5_4 _) (st5_5 t) (hstage5_5 _))
  iframe H0 H1 H2 H3 H4
  isplitl [H5]; · iexists _; iexact H5
  iintro ⟨H0, H1, H2, H3, H4, H5⟩
  iframe HΦ Ho H0 H1 H2 H3 H4
  iexact H5

end Cert.KernelIdeal.Fr

end
-- ==== Proof.Frame.Reg6.lean ====
import proofs.«405878_j81363860455818_1_alg».proof.Proof.Frame.RegLib
import proofs.«405878_j81363860455818_1_alg».proof.Proof.Gen.KernelIdeal.Skeleton
import proofs.«405878_j81363860455818_1_alg».proof.Proof.Gen.KernelIdeal.Points
import Idealize.ShloMosaic.Lib.Tactic

noncomputable section

namespace Cert.KernelIdeal.Fr

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W6 : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (W6 c (Pipeline.arrRef spec6 w))

-- The new hidden state on a block of rows: u * h + (1 - u) * tanh (z W_top + (r * h) W_bottom + b).
def out6_7 (x0 : Vec F S2048x256 .bf16) (x1 : Vec F S256x256 .bf16) (x2 : Vec F S2048x256 .f32) (x3 : Vec F S2048x256 .f32) (x4 : Vec F S256x256 .bf16) (x5 : Vec F S1x256 .f32) (x6 : Vec F S2048x256 .f32) : Vec F S2048x256 .f32 :=
  View.canon [⟨rBlk, k6_pay1 (View.ld x0 rBlk) (View.ld x1 rWts) (View.ld x2 rBlk) (View.ld x3 rBlk) (View.ld x4 rWts) (View.ld x5 rRow) (View.ld x6 rBlk) (View.ld x3 rBlk)⟩]

theorem sound_kernel6 (c : Dev nD) (E : Set ℕ) (i : grid6.Coords)
    (arg1 : Memref sig .tc .vmem S2048x256 .bf16) (harg1 : arg1.IsWhole) (arg2 : Memref sig .tc .vmem S256x256 .bf16) (harg2 : arg2.IsWhole)
    (arg3 : Memref sig .tc .vmem S2048x256 .f32) (harg3 : arg3.IsWhole) (arg4 : Memref sig .tc .vmem S2048x256 .f32) (harg4 : arg4.IsWhole)
    (arg5 : Memref sig .tc .vmem S256x256 .bf16) (harg5 : arg5.IsWhole) (arg6 : Memref sig .tc .vmem S1x256 .f32) (harg6 : arg6.IsWhole)
    (arg7 : Memref sig .tc .vmem S2048x256 .f32) (harg7 : arg7.IsWhole) (arg8 : Memref sig .tc .vmem S2048x256 .f32) (harg8 : arg8.IsWhole)
    (x0 : Vec F S2048x256 .bf16) (x1 : Vec F S256x256 .bf16) (x2 : Vec F S2048x256 .f32) (x3 : Vec F S2048x256 .f32) (x4 : Vec F S256x256 .bf16) (x5 : Vec F S1x256 .f32) (x6 : Vec F S2048x256 .f32) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare x6
        ∗ (∃ d, owns c.tc arg8 fullShare d)
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare x6
            ∗ owns c.tc arg8 fullShare (out6_7 x0 x1 x2 x3 x4 x5 x6)) -∗ K ⟨⟩))
      ⊢ wp frame (wpE (defs₀ (F := F)) Variants.none c none) E (cc6__final_kernel i arg1 harg1 arg2 harg2 arg3 harg3 arg4 harg4 arg5 harg5 arg6 harg6 arg7 harg7 arg8 harg8) K := by
  simp only [cc6__final_kernel_eq_skeleton]; unfold cc6__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact read_store_blk _ _ _

def dat6 (c : Dev nD) : Dat τ (Elt F) Unit ℕ UU ℕ cfg6 c where
  A w := W6 c (Pipeline.arrRef spec6 w)
  after w t := match w with
    | ⟨0, _⟩ => iblk6 W6 c 0 t
    | ⟨1, _⟩ => iblk6 W6 c 1 t
    | ⟨2, _⟩ => iblk6 W6 c 2 t
    | ⟨3, _⟩ => iblk6 W6 c 3 t
    | ⟨4, _⟩ => iblk6 W6 c 4 t
    | ⟨5, _⟩ => iblk6 W6 c 5 t
    | ⟨6, _⟩ => iblk6 W6 c 6 t
    | ⟨7, _⟩ => out6_7 (iblk6 W6 c 0 t) (iblk6 W6 c 1 t) (iblk6 W6 c 2 t) (iblk6 W6 c 3 t) (iblk6 W6 c 4 t) (iblk6 W6 c 5 t) (iblk6 W6 c 6 t)
  Φ _ := Pipeline.scopedRest spec6 c
  q _ := fullShare
  owed _ := 0

theorem A6_eq (c : Dev nD) (w : Fin cfg6.W) : (dat6 W6 c).A w = W6 c (Pipeline.arrRef spec6 w) := by dsimp only [dat6]
theorem after6_7 (c : Dev nD) (t : Fin cfg6.N) :
    (dat6 W6 c).after 7 t = out6_7 (iblk6 W6 c 0 t) (iblk6 W6 c 1 t) (iblk6 W6 c 2 t) (iblk6 W6 c 3 t) (iblk6 W6 c 4 t) (iblk6 W6 c 5 t) (iblk6 W6 c 6 t) := by dsimp only [dat6]

theorem before6 (c : Dev nD) (t : Fin cfg6.N) :
    (∀ d, (dat6 W6 c).before 0 t d = iblk6 W6 c 0 t) ∧
    (∀ d, (dat6 W6 c).before 1 t d = iblk6 W6 c 1 t) ∧
    (∀ d, (dat6 W6 c).before 2 t d = iblk6 W6 c 2 t) ∧
    (∀ d, (dat6 W6 c).before 3 t d = iblk6 W6 c 3 t) ∧
    (∀ d, (dat6 W6 c).before 4 t d = iblk6 W6 c 4 t) ∧
    (∀ d, (dat6 W6 c).before 5 t d = iblk6 W6 c 5 t) ∧
    ∀ d, (dat6 W6 c).before 6 t d = iblk6 W6 c 6 t :=
  ⟨(dat6 W6 c).before_in_eq_fetched 0 rfl (fun _ => rfl) (fun _ _ _ => rfl) (fun _ => rfl) t,
    (dat6 W6 c).before_in_eq_fetched 1 rfl (fun _ => rfl) (fun _ _ _ => rfl) (fun _ => rfl) t,
    (dat6 W6 c).before_in_eq_fetched 2 rfl (fun _ => rfl) (fun _ _ _ => rfl) (fun _ => rfl) t,
    (dat6 W6 c).before_in_eq_fetched 3 rfl (fun _ => rfl) (fun _ _ _ => rfl) (fun _ => rfl) t,
    (dat6 W6 c).before_in_eq_fetched 4 rfl (fun _ => rfl) (fun _ _ _ => rfl) (fun _ => rfl) t,
    (dat6 W6 c).before_in_eq_fetched 5 rfl (fun _ => rfl) (fun _ _ _ => rfl) (fun _ => rfl) t,
    (dat6 W6 c).before_in_eq_fetched 6 rfl (fun _ => rfl) (fun _ _ _ => rfl) (fun _ => rfl) t⟩

theorem body_obligation6 (c : Dev nD) : BodyObligation (dat6 (F := F) W6 c) (defs₀ (F := F)) Variants.none () Set.univ := fun t => by
  rw [bigSep_W6, bigSep_W6]
  simp only [before6]
  dsimp only [dat6, Dat.owesAt, Dat.bound]
  change _ ⊢ wp _ _ _ (bodyAt6 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel6
  iframe H0 H1 H2 H3 H4 H5 H6
  isplitl [H7]; · iexists _; iexact H7
  iintro ⟨H0, H1, H2, H3, H4, H5, H6, H7⟩
  iframe

end Cert.KernelIdeal.Fr

end
-- ==== Proof.Frame.Vals.lean ====
import proofs.«405878_j81363860455818_1_alg».proof.Proof.Frame.Reg0
import proofs.«405878_j81363860455818_1_alg».proof.Proof.Frame.Reg1
import proofs.«405878_j81363860455818_1_alg».proof.Proof.Frame.Reg2
import proofs.«405878_j81363860455818_1_alg».proof.Proof.Frame.Reg3
import proofs.«405878_j81363860455818_1_alg».proof.Proof.Frame.Reg4
import proofs.«405878_j81363860455818_1_alg».proof.Proof.Frame.Reg5
import proofs.«405878_j81363860455818_1_alg».proof.Proof.Frame.Reg6
import Idealize.ShloMosaic.Lib.Pipeline.RegionsLoop
import Idealize.ShloMosaic.Lib.Pipeline.FrameSuffix

noncomputable section

namespace Cert.KernelIdeal.Fr

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

-- The first launch is entered from the buffers as the five stretches of host operations leave them.
abbrev E0 : Dev nD → Valuation τ sig (Elt F) := fun c => V₅ m c
abbrev X0 : (c : Dev nD) → (b : Ref sig .tc) → Buf (Elt F) ((c : Thread nD τ).loc b) := fun c b => E0 m c b

-- After a launch: its windows' arrays at their final contents, every other buffer as before.
def E1 (c : Dev nD) : Valuation τ sig (Elt F) :=
  Pipeline.withArrays spec0 c (E0 m c) fun w => (dat0 m c).arrAt w cfg0.N
theorem E1_arr (c : Dev nD) (w : Fin cfg0.W) :
    E1 m c (Proc.devRef .tc (Pipeline.arrRef spec0 w)) = (dat0 m c).arrAt w cfg0.N :=
  Pipeline.withArrays_arr spec0 launch0.win.arr_inj c _ _ w
abbrev X1 : (c : Dev nD) → (b : Ref sig .tc) → Buf (Elt F) ((c : Thread nD τ).loc b) := fun c b => E1 m c b

def E2 (c : Dev nD) : Valuation τ sig (Elt F) :=
  Pipeline.withArrays spec1 c (E1 m c) fun w => (dat1 (X1 m) c).arrAt w cfg1.N
theorem E2_arr (c : Dev nD) (w : Fin cfg1.W) :
    E2 m c (Proc.devRef .tc (Pipeline.arrRef spec1 w)) = (dat1 (X1 m) c).arrAt w cfg1.N :=
  Pipeline.withArrays_arr spec1 launch1.win.arr_inj c _ _ w
abbrev X2 : (c : Dev nD) → (b : Ref sig .tc) → Buf (Elt F) ((c : Thread nD τ).loc b) := fun c b => E2 m c b

def E3 (c : Dev nD) : Valuation τ sig (Elt F) :=
  Pipeline.withArrays spec2 c (E2 m c) fun w => (dat2 (X2 m) c).arrAt w cfg2.N
theorem E3_arr (c : Dev nD) (w : Fin cfg2.W) :
    E3 m c (Proc.devRef .tc (Pipeline.arrRef spec2 w)) = (dat2 (X2 m) c).arrAt w cfg2.N :=
  Pipeline.withArrays_arr spec2 launch2.win.arr_inj c _ _ w
abbrev X3 : (c : Dev nD) → (b : Ref sig .tc) → Buf (Elt F) ((c : Thread nD τ).loc b) := fun c b => E3 m c b

def E4 (c : Dev nD) : Valuation τ sig (Elt F) :=
  Pipeline.withArrays spec3 c (E3 m c) fun w => (dat3 (X3 m) c).arrAt w cfg3.N
theorem E4_arr (c : Dev nD) (w : Fin cfg3.W) :
    E4 m c (Proc.devRef .tc (Pipeline.arrRef spec3 w)) = (dat3 (X3 m) c).arrAt w cfg3.N :=
  Pipeline.withArrays_arr spec3 launch3.win.arr_inj c _ _ w
abbrev X4 : (c : Dev nD) → (b : Ref sig .tc) → Buf (Elt F) ((c : Thread nD τ).loc b) := fun c b => E4 m c b

def E5 (c : Dev nD) : Valuation τ sig (Elt F) :=
  Pipeline.withArrays spec4 c (E4 m c) fun w => (dat4 (X4 m) c).arrAt w cfg4.N
theorem E5_arr (c : Dev nD) (w : Fin cfg4.W) :
    E5 m c (Proc.devRef .tc (Pipeline.arrRef spec4 w)) = (dat4 (X4 m) c).arrAt w cfg4.N :=
  Pipeline.withArrays_arr spec4 launch4.win.arr_inj c _ _ w
abbrev X5 : (c : Dev nD) → (b : Ref sig .tc) → Buf (Elt F) ((c : Thread nD τ).loc b) := fun c b => E5 m c b

def E6 (c : Dev nD) : Valuation τ sig (Elt F) :=
  Pipeline.withArrays spec5 c (E5 m c) fun w => (dat5 (X5 m) c).arrAt w cfg5.N
theorem E6_arr (c : Dev nD) (w : Fin cfg5.W) :
    E6 m c (Proc.devRef .tc (Pipeline.arrRef spec5 w)) = (dat5 (X5 m) c).arrAt w cfg5.N :=
  Pipeline.withArrays_arr spec5 launch5.win.arr_inj c _ _ w
abbrev X6 : (c : Dev nD) → (b : Ref sig .tc) → Buf (Elt F) ((c : Thread nD τ).loc b) := fun c b => E6 m c b

def E7 (c : Dev nD) : Valuation τ sig (Elt F) :=
  Pipeline.withArrays spec6 c (E6 m c) fun w => (dat6 (X6 m) c).arrAt w cfg6.N
theorem E7_arr (c : Dev nD) (w : Fin cfg6.W) :
    E7 m c (Proc.devRef .tc (Pipeline.arrRef spec6 w)) = (dat6 (X6 m) c).arrAt w cfg6.N :=
  Pipeline.withArrays_arr spec6 launch6.win.arr_inj c _ _ w
abbrev X7 : (c : Dev nD) → (b : Ref sig .tc) → Buf (Elt F) ((c : Thread nD τ).loc b) := fun c b => E7 m c b

end Cert.KernelIdeal.Fr

end
-- ==== Proof.Frame.Segs.lean ====
import proofs.«405878_j81363860455818_1_alg».proof.Proof.Frame.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev adm : (p : Fin 7) → (pcfgs (F := F) p).Adm := fun p => (cfgs p).toPCfg_adm

def pdats : (p : Fin 7) → (c : Dev nD) → Dat τ (Elt F) Unit ℕ UU ℕ (Pipeline.pin (pcfgs (F := F)) adm p) c
  | ⟨0, _⟩ => fun c => dat0 m c
  | ⟨1, _⟩ => fun c => dat1 (X1 m) c
  | ⟨2, _⟩ => fun c => dat2 (X2 m) c
  | ⟨3, _⟩ => fun c => dat3 (X3 m) c
  | ⟨4, _⟩ => fun c => dat4 (X4 m) c
  | ⟨5, _⟩ => fun c => dat5 (X5 m) c
  | ⟨6, _⟩ => fun c => dat6 (X6 m) c

set_option backward.isDefEq.respectTransparency.types false

-- One launch as a segment of the run: from all the unscoped buffers at `E` to the same with its windows' arrays at their final contents.
def regOf (p : Fin 7) (l : Pipeline.LaunchFacts (nD := nD) (τ := τ) cfgs p)
    (hbody : ∀ c, Pipeline.BodyObligationLoose (pdats m p c) defs₀ 𝒱₀ () Set.univ) (E : Dev nD → Valuation τ sig (Elt F))
    (hin : ∀ c, Pipeline.scopedRest (Ix := Unit) (Name := ℕ) (U := UU) (Lvl := ℕ) (Val := Elt F) (cfgs p).spec c ⊢ (pdats m p c).Φ 0
      := by exact fun _ => .rfl)
    (hout : ∀ c, (pdats m p c).Φ (Fin.last _) ⊢ Pipeline.scopedRest (Ix := Unit) (Name := ℕ) (U := UU) (Lvl := ℕ) (Val := Elt F) (cfgs p).spec c
      := by exact fun _ => .rfl)
    (howed : ∀ c t, (pdats m p c).owed t = 0 := by exact fun _ _ => rfl)
    (hrec : ∀ c x, x ∈ (pdats m p c).recorded 0 := by exact fun _ _ => trivial)
    (hq : ∀ c w, (pdats m p c).q w = fullShare := by exact fun _ _ => rfl)
    (hA : ∀ c w, (pdats m p c).A w = E c (Proc.devRef .tc (Pipeline.arrRef (cfgs p).spec w)) := by exact fun _ _ => rfl) :
    Pipeline.RegionSeg (pcfgs (F := F)) adm (pdats m) () defs₀ 𝒱₀ L lv p where
  win := l.win.to₀
  block_pos := l.block_pos
  stage_whole := l.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (E c) ∗ R c)
  post c := iprop(StableHlo.held (c : Thread nD τ) (Pipeline.ucRefs τ sig)
    (Pipeline.withArrays (cfgs p).spec c (E c) fun w => (pdats m p c).arrAt w (cfgs p).N) ∗ R c)
  X _ := iprop(emp)
  Y _ := iprop(emp)
  Z c := Pipeline.unscopedRest (Ix := Unit) (Name := ℕ) (U := UU) (Lvl := ℕ) (cfgs p).spec c fun b => E c b
  hentry c := by
    rw [Pipeline.ownSems0_none]
    have hsplit := Pipeline.arrays_of_unscopedBufs (p := p) (pcfgs (F := F)) adm (pdats m) l.win l.arr_whole c
      ((pdats m p c).share_full (hq c)) (fun b => E c b) (hA c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitr; · iempintro
    iexact Hrest
  hin c := by iintro ⟨-, -, Hr⟩; iapply (hin c); iexact Hr
  hout c := by
    rw [Pipeline.ownSems0_none]
    iintro H
    isplitr; · iempintro
    isplitr; · iempintro
    iapply (hout c); iexact H
  hexit c := by
    have hjoin := Pipeline.unscopedBufs_of_arrays (p := p) (pcfgs (F := F)) adm (Ix := Unit) (Name := ℕ) (U := UU) (Lvl := ℕ)
      l.win l.arr_whole c (pdats m) ((pdats m p c).share_full (hq c)) (fun b => E c b)
      (fun b => Pipeline.withArrays (cfgs p).spec c (E c) (fun w => (pdats m p c).arrAt w (cfgs p).N) b) ((pdats m p c).arrAt · (cfgs p).N)
      (fun w => (Pipeline.withArrays_arr (cfgs p).spec l.win.arr_inj c (E c) (fun w => (pdats m p c).arrAt w (cfgs p).N) w).symm)
      fun b hb => Pipeline.withArrays_of_ne (cfgs p).spec c (E c) _ b fun w e => hb (Finset.mem_image.mpr ⟨w, Finset.mem_univ _, e⟩)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    rw [howed c]
    icases HO with ⟨%W, -, HO⟩; iexists W; iexact HO

def reg0 := regOf m 0 launch0 (fun c => (body_obligation0 m c).loose) (E0 m)
def reg1 := regOf m 1 launch1 (fun c => (body_obligation1 (X1 m) c).loose) (E1 m) (Φ1_in (X1 m)) (Φ1_out (X1 m))
def reg2 := regOf m 2 launch2 (fun c => (body_obligation2 (X2 m) c).loose) (E2 m)
def reg3 := regOf m 3 launch3 (fun c => (body_obligation3 (X3 m) c).loose) (E3 m) (Φ3_in (X3 m)) (Φ3_out (X3 m))
def reg4 := regOf m 4 launch4 (fun c => (body_obligation4 (X4 m) c).loose) (E4 m)
def reg5 := regOf m 5 launch5 (fun c => (body_obligation5 (X5 m) c).loose) (E5 m)
def reg6 := regOf m 6 launch6 (fun c => (body_obligation6 (X6 m) c).loose) (E6 m)

end Cert.KernelIdeal.Fr

end
-- ==== Proof.Frame.Args.lean ====
import proofs.«405878_j81363860455818_1_alg».proof.Proof.Frame.Base
import Idealize.ShloMosaic.Lib.StableHlo.Run

noncomputable section

namespace Cert.KernelIdeal.Fr

open Cert.KernelIdeal Cert.KernelIdeal.Gen
open Idealize.ShloMosaic Idealize.ShloMosaic.TcCoe
open Idealize.SL.Sem

variable {F : FTy → Type} [FloatOps F]

-- The references each stretch of host operations writes, in the order of its operations.
def written0 : List (Ref sig .tc) :=
  [
    main_v0, main_v1, main_v2, main_v3, main_cst, main_v4, main_c, main_v5, main_v6, main_c_0,
    main_v7, main_v8, main_v9, main_v10, main_cst_1, main_v11, main_v12, main_cst_2, main_v13, main_v14,
    main_v15, main_c_3, main_v16, main_v17, main_c_4, main_v18, main_v19, main_v20, main_v21, main_v22,
    main_c_5, main_v23, main_v24, main_c_6, main_v25, main_v26, main_v27, main_v28, main_v29, main_v30,
    main_cst_7, main_v31, main_c_8, main_v32, main_v33, main_c_9, main_v34, main_v35, main_v36, main_c_10,
    main_v37, main_v38, main_c_11, main_v39, main_v40, main_v41, main_v42, main_v43, main_v44, main_v45,
    main_v46, main_v47, main_c_12, main_v48, main_v49, main_c_13, main_v50, main_v51, main_v52, main_c_14,
    main_v53, main_v54, main_c_15, main_v55, main_v56, main_v57, main_v58, main_v59, main_v60, main_v61,
    main_v62, main_c_16 ]

def written1 : List (Ref sig .tc) := [main_call0_v0, main_v63]
def written2 : List (Ref sig .tc) := [main_v64, main_c_17]
def written3 : List (Ref sig .tc) := [main_call1_v0, main_v65]
def written4 : List (Ref sig .tc) :=
  [
    main_v66, main_v67, main_v68, main_v69, main_v70, main_v71, main_v72, main_v73, main_v74, main_v75,
    main_v76, main_v77, main_v78, main_v79, main_cst_18, main_v80, main_v81, main_v82, main_v83, main_v84,
    main_v85 ]

theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

variable (m : (ℓ : Loc nD τ sig) → Buf (Elt F) ℓ)

-- An operation writes its result only, so a reference off a stretch's list keeps its contents across the stretch.
theorem V1_keep (c : Dev nD) (r : Ref sig .tc) (h : r ∉ written0) : V₁ m c (Proc.devRef .tc r) = V₀ m c (Proc.devRef .tc r) :=
  StableHlo.after_of_writes_sub hostOps0 (V₀ m c) (by (repeat' apply And.intro) <;> exact single_sub (by decide)) h
theorem V2_keep (c : Dev nD) (r : Ref sig .tc) (h : r ∉ written1) : V₂ m c (Proc.devRef .tc r) = V₁ m c (Proc.devRef .tc r) :=
  StableHlo.after_of_writes_sub hostOps0_1 (V₁ m c) (by (repeat' apply And.intro) <;> exact single_sub (by decide)) h
theorem V3_keep (c : Dev nD) (r : Ref sig .tc) (h : r ∉ written2) : V₃ m c (Proc.devRef .tc r) = V₂ m c (Proc.devRef .tc r) :=
  StableHlo.after_of_writes_sub hostOps0_2 (V₂ m c) (by (repeat' apply And.intro) <;> exact single_sub (by decide)) h
theorem V4_keep (c : Dev nD) (r : Ref sig .tc) (h : r ∉ written3) : V₄ m c (Proc.devRef .tc r) = V₃ m c (Proc.devRef .tc r) :=
  StableHlo.after_of_writes_sub hostOps0_3 (V₃ m c) (by (repeat' apply And.intro) <;> exact single_sub (by decide)) h
theorem V5_keep (c : Dev nD) (r : Ref sig .tc) (h : r ∉ written4) : V₅ m c (Proc.devRef .tc r) = V₄ m c (Proc.devRef .tc r) :=
  StableHlo.after_of_writes_sub hostOps0_4 (V₄ m c) (by (repeat' apply And.intro) <;> exact single_sub (by decide)) h

theorem V1_of_not_written (c : Dev nD) (r : Ref sig .tc) (h0 : r ∉ written0) :
    V₁ m c (Proc.devRef .tc r) = m ((c : Thread nD τ).loc r) :=
  V1_keep m c r h0
theorem V3_of_not_written (c : Dev nD) (r : Ref sig .tc) (h0 : r ∉ written0) (h1 : r ∉ written1) (h2 : r ∉ written2) :
    V₃ m c (Proc.devRef .tc r) = m ((c : Thread nD τ).loc r) :=
  (V3_keep m c r h2).trans ((V2_keep m c r h1).trans (V1_keep m c r h0))
theorem V4_of_not_written (c : Dev nD) (r : Ref sig .tc) (h0 : r ∉ written0) (h1 : r ∉ written1) (h2 : r ∉ written2)
    (h3 : r ∉ written3) : V₄ m c (Proc.devRef .tc r) = m ((c : Thread nD τ).loc r) :=
  (V4_keep m c r h3).trans (V3_of_not_written m c r h0 h1 h2)

end Cert.KernelIdeal.Fr
-- ==== Proof.Frame.Run.lean ====
import proofs.«405878_j81363860455818_1_alg».proof.Proof.Frame.Segs
import proofs.«405878_j81363860455818_1_alg».proof.Proof.Frame.Args

noncomputable section

namespace Cert.KernelIdeal.Fr

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- A stretch of host operations as a segment over all the unscoped references, from the contents `W`.
abbrev hseg (ops : List (HloOp τ sig (Elt F))) (hsub : ops.Forall fun op => op.bufs ⊆ StableHlo.tcRefs τ sig)
    (W : Dev nD → Valuation τ sig (Elt F)) (hfresh : ops.Forall fun op => op.fresh = ∅ := by (repeat' apply And.intro) <;> rfl) :
    Pipeline.HostSeg (Name := ℕ) (U := UU) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

-- The contents after the closing slice of the last launch's result.
abbrev E8 (c : Dev nD) : Valuation τ sig (Elt F) := StableHlo.after hostOps7 (E7 m c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- @main's thirteen segments in order.
abbrev segs : List (Pipeline.Seg (pcfgs (F := F)) adm (pdats m) () defs₀ 𝒱₀ L lv) :=
  [ .host (hseg hostOps0 hostOps0_sub (V₀ m)),
    .host (hseg hostOps0_1 hostOps0_1_sub (V₁ m)),
    .host (hseg hostOps0_2 hostOps0_2_sub (V₂ m)),
    .host (hseg hostOps0_3 hostOps0_3_sub (V₃ m)),
    .host (hseg hostOps0_4 hostOps0_4_sub (V₄ m)),
    .region (reg0 m), .region (reg1 m), .region (reg2 m), .region (reg3 m), .region (reg4 m), .region (reg5 m), .region (reg6 m),
    .host (hseg hostOps7 hostOps7_sub (E7 m)) ]

theorem main_run (c : Dev nD) : main (F := F) c = Pipeline.Seg.run (segs m) := (main_chain c).trans (by chain_rfl)

abbrev Tₙ (c : Dev nD) : sProp 𝕄 := StableHlo.held (c : Thread nD τ) (Pipeline.ucRefs τ sig) (E8 m c)

-- Every weakly fair execution from zero counters ends without a fault, each unscoped buffer at the contents after the closing slice.
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = E8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = E8 m c b)
    (hfin := fun c s' => by
      iintro ⟨Hh, HSI⟩
      unfold Tₙ StableHlo.held
      imodintro
      iapply (pointsTo_read_all (Pipeline.ucRefs τ sig) (fun b => (((c : Thread nD τ)).1, b)) (E8 m c) s')
      isplitl [Hh] <;> iassumption)
    (hQ := fun s h c => h c)

end Cert.KernelIdeal.Fr

end
-- ==== Proof.Frame.Keep.lean ====
import proofs.«405878_j81363860455818_1_alg».proof.Proof.Frame.Vals
import Idealize.ShloMosaic.Lib.Pipeline.Cells

noncomputable section

namespace Cert.KernelIdeal.Fr

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

-- A launch writes its output window's array only: every buffer but that array ends as it was entered.
theorem keep_of {cfg : Pipeline.Cfg sig Λ₀} {c : Dev nD} (dat : Pipeline.Dat τ (Elt F) Unit ℕ UU ℕ cfg c)
    (hinj : Function.Injective (Pipeline.arrRef cfg.spec)) {V : Valuation τ sig (Elt F)}
    (hA : ∀ w, dat.A w = V (Proc.devRef .tc (Pipeline.arrRef cfg.spec w))) {b out : Ref sig .tc} (hb : b ≠ out)
    (hin : ∀ w, Pipeline.arrRef cfg.spec w ≠ out → (cfg.win w).isOut = false) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [Pipeline.withArrays_arr _ hinj, dat.arrAt_in w (hin w hb), hA]
  · exact Pipeline.withArrays_of_ne _ c V _ b fun w e => h ⟨w, e⟩

theorem E1_keep (c : Dev nD) (b : Ref sig .tc) (hb : b ≠ main_v86) :
    E1 m c (Proc.devRef .tc b) = E0 m c (Proc.devRef .tc b) :=
  keep_of (dat0 m c) launch0.win.arr_inj (A0_eq m c) hb (by decide)
theorem E2_keep (c : Dev nD) (b : Ref sig .tc) (hb : b ≠ main_v87) :
    E2 m c (Proc.devRef .tc b) = E1 m c (Proc.devRef .tc b) :=
  keep_of (dat1 (X1 m) c) launch1.win.arr_inj (A1_eq (X1 m) c) hb (by decide)
theorem E3_keep (c : Dev nD) (b : Ref sig .tc) (hb : b ≠ main_v88) :
    E3 m c (Proc.devRef .tc b) = E2 m c (Proc.devRef .tc b) :=
  keep_of (dat2 (X2 m) c) launch2.win.arr_inj (A2_eq (X2 m) c) hb (by decide)
theorem E4_keep (c : Dev nD) (b : Ref sig .tc) (hb : b ≠ main_v89) :
    E4 m c (Proc.devRef .tc b) = E3 m c (Proc.devRef .tc b) :=
  keep_of (dat3 (X3 m) c) launch3.win.arr_inj (A3_eq (X3 m) c) hb (by decide)
theorem E5_keep (c : Dev nD) (b : Ref sig .tc) (hb : b ≠ main_v90) :
    E5 m c (Proc.devRef .tc b) = E4 m c (Proc.devRef .tc b) :=
  keep_of (dat4 (X4 m) c) launch4.win.arr_inj (A4_eq (X4 m) c) hb (by decide)
theorem E6_keep (c : Dev nD) (b : Ref sig .tc) (hb : b ≠ main_v91) :
    E6 m c (Proc.devRef .tc b) = E5 m c (Proc.devRef .tc b) :=
  keep_of (dat5 (X5 m) c) launch5.win.arr_inj (A5_eq (X5 m) c) hb (by decide)
theorem E7_keep (c : Dev nD) (b : Ref sig .tc) (hb : b ≠ main_v92) :
    E7 m c (Proc.devRef .tc b) = E6 m c (Proc.devRef .tc b) :=
  keep_of (dat6 (X6 m) c) launch6.win.arr_inj (A6_eq (X6 m) c) hb (by decide)

end Cert.KernelIdeal.Fr

end
-- ==== Proof.Frame.Frame.lean ====
import proofs.«405878_j81363860455818_1_alg».proof.Proof.Frame.Run
import proofs.«405878_j81363860455818_1_alg».proof.Proof.Frame.Keep

noncomputable section

namespace Cert.KernelIdeal.Fr

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

-- The closing slice writes the result only.
theorem slice_keep (c : Dev nD) (b : Ref sig .tc) (hb : b ≠ main_v93) :
    E8 m c (Proc.devRef .tc b) = E7 m c (Proc.devRef .tc b) :=
  StableHlo.after_of_writes_sub (W := [main_v93]) hostOps7 (E7 m c) (single_sub (by decide)) fun h => hb (List.mem_singleton.mp h)

-- An unscoped reference on no stretch's list, no launch's output array and not the result, ends as launched.
theorem arg_end (c : Dev nD) {M : (ℓ : Loc nD τ sig) → Buf (Elt F) ℓ}
    (hM : ∀ b ∈ Pipeline.ucRefs τ sig, M (((c : Thread nD τ)).1, b) = E8 m c b) (b : Ref sig .tc)
    (h : ¬ (Proc.devRef .tc b : DevRef τ sig).isScoped ∧ b ∉ written0 ∧ b ∉ written1 ∧ b ∉ written2 ∧ b ∉ written3 ∧ b ∉ written4
      ∧ b ≠ main_v86 ∧ b ≠ main_v87 ∧ b ≠ main_v88 ∧ b ≠ main_v89 ∧ b ≠ main_v90 ∧ b ≠ main_v91 ∧ b ≠ main_v92 ∧ b ≠ main_v93) :
    M ((c : Thread nD τ).loc b) = m ((c : Thread nD τ).loc b) := by
  obtain ⟨hu, h0, h1, h2, h3, h4, o0, o1, o2, o3, o4, o5, o6, o7⟩ := h
  refine (hM _ (mem_uc b hu)).trans ?_
  rw [slice_keep m c b o7, E7_keep m c b o6, E6_keep m c b o5, E5_keep m c b o4, E4_keep m c b o3, E3_keep m c b o2,
    E2_keep m c b o1, E1_keep m c b o0]
  exact (V5_keep m c b h4).trans (V4_of_not_written m c b h0 h1 h2 h3)

-- The run, read at the result and at the thirteen arguments.
theorem run_result : θ_run defs (onTc (τ := τ) (main (F := F))) ⟨m, fun _ => 0, ρ⟩ (fun r => ∀ c : Dev nD,
      r.2.mem ((c.tc : Thread nD τ).loc main_v93) = E8 m c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have A := arg_end m c (h c)
    ⟨h c _ (mem_uc main_v93 (by decide)),
     A main_arg0 (by decide), A main_arg1 (by decide), A main_arg2 (by decide), A main_arg3 (by decide), A main_arg4 (by decide),
     A main_arg5 (by decide), A main_arg6 (by decide), A main_arg7 (by decide), A main_arg8 (by decide), A main_arg9 (by decide),
     A main_arg10 (by decide), A main_arg11 (by decide), A main_arg12 (by decide)⟩) (run_all m ρ)

-- The frame: the run terminates without a fault and the thirteen arguments end as launched.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2) (run_result m ρ)

end Cert.KernelIdeal.Fr

end
-- ==== Proof.FrameBits.Base.lean ====
import proofs.«405878_j81363860455818_1_alg».proof.Proof.Gen.Kernel.Launch
import Idealize.ShloMosaic.Lib.Pipeline.Regions

noncomputable section

namespace Cert.Kernel.Fr

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ

local notation "𝕄" => MT nD τ sig Unit (Elt F) ℕ UU ℕ

variable (m : (ℓ : Loc nD τ sig) → Buf (Elt F) ℓ)

abbrev L : GSem nD τ sig → Finset Unit := fun _ => ∅
abbrev lv : GSem nD τ sig → Unit → ℕ := fun _ _ => 0

abbrev 𝒱₀ : Variants := Variants.none

-- core c's buffers at launch, and after each stretch of host operations before the first kernel launch
abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := StableHlo.after hostOps0_1 (V₁ m c)
abbrev V₃ (c : Dev nD) : Valuation τ sig (Elt F) := StableHlo.after hostOps0_2 (V₂ m c)
abbrev V₄ (c : Dev nD) : Valuation τ sig (Elt F) := StableHlo.after hostOps0_3 (V₃ m c)
abbrev V₅ (c : Dev nD) : Valuation τ sig (Elt F) := StableHlo.after hostOps0_4 (V₄ m c)

abbrev R (c : Dev nD) : sProp 𝕄 := iprop(∃ W, owes (c : Thread nD τ) (0 : CellTallies nD τ sig Unit) W)

end Cert.Kernel.Fr

end
-- ==== Proof.FrameBits.RegLib.lean ====
import proofs.«405878_j81363860455818_1_alg».proof.Proof.FrameBits.Base
import Idealize.ShloMosaic.Lib.Pipeline.FrameBody
import Idealize.ShloMosaic.Lib.Pipeline.Value

noncomputable section

namespace Cert.Kernel.Fr

open Cert.Kernel Cert.Kernel.Gen

open Idealize.ShloMosaic

variable {F : FTy → Type} [FloatOps F]

-- The whole rectangle of each block shape.
abbrev rBlk : Rect S2048x256 := Rect.unit (s := S2048x256) ![0, 0] S2048x256.size inb_S2048x256_S2048x256_0_0
abbrev rWts : Rect S256x256 := Rect.unit (s := S256x256) ![0, 0] S256x256.size inb_S256x256_S256x256_0_0
abbrev rRow : Rect S1x256 := Rect.unit (s := S1x256) ![0, 0] S1x256.size inb_S1x256_S1x256_0_0

-- A single write through the whole rectangle reads back as its payload, over any contents.
theorem read_store_blk {κ : Kind} {sp : Space} {e : EltTy} (v : View sig κ sp S2048x256 e) (f : v.ty.Contents (Elt F))
    (p : Vec F S2048x256 e) : v.read (Elt F) (v.writes (Elt F) f [⟨rBlk, p⟩]) = View.canon [⟨rBlk, p⟩] :=
  View.read_writes_eq_canon v f _ fun y => ⟨_, List.mem_singleton_self _, View.mem_set_unit_zero (by decide) inb_S2048x256_S2048x256_0_0 y⟩

end Cert.Kernel.Fr

end
-- ==== Proof.FrameBits.Reg0.lean ====
import proofs.«405878_j81363860455818_1_alg».proof.Proof.FrameBits.RegLib
import proofs.«405878_j81363860455818_1_alg».proof.Proof.Gen.Kernel.Skeleton
import proofs.«405878_j81363860455818_1_alg».proof.Proof.Gen.Kernel.Points
import Idealize.ShloMosaic.Lib.Tactic

noncomputable section

namespace Cert.Kernel.Fr

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

abbrev W0 (c : Dev nD) (b : Ref sig .tc) : Buf (Elt F) ((c : Thread nD τ).loc b) := V₅ m c b

def iblk0 (c : Dev nD) (w : Fin cfg0.W) (t : Fin cfg0.N) : ((cfg0.win w).xblock (cfg0.grid.coords t)).Idx → Elt F (cfg0.win w).elt :=
  ((cfg0.win w).blk t).view.read (Elt F) (W0 m c (Pipeline.arrRef spec0 w))

abbrev r0_x : Rect S2048x128 := Rect.unit (s := S2048x128) ![0, 0] S2048x128.size inb_S2048x128_S2048x128_0_0
abbrev r0_w : Rect S128x256 := Rect.unit (s := S128x256) ![0, 0] S128x256.size inb_S128x256_S128x256_0_0

-- A block of rows of the features times the first weight matrix, plus the bias row, rounded to bf16.
def out0_3 (x0 : Vec F S2048x128 .bf16) (x1 : Vec F S128x256 .bf16) (x2 : Vec F S1x256 .f32) : Vec F S2048x256 .bf16 :=
  View.canon [⟨rBlk, k0_pay1 (View.ld x0 r0_x) (View.ld x1 r0_w) (View.ld x2 rRow)⟩]

theorem sound_kernel0 (c : Dev nD) (E : Set ℕ) (i : grid0.Coords)
    (arg1 : Memref sig .tc .vmem S2048x128 .bf16) (harg1 : arg1.IsWhole) (arg2 : Memref sig .tc .vmem S128x256 .bf16) (harg2 : arg2.IsWhole)
    (arg3 : Memref sig .tc .vmem S1x256 .f32) (harg3 : arg3.IsWhole) (arg4 : Memref sig .tc .vmem S2048x256 .bf16) (harg4 : arg4.IsWhole)
    (x0 : Vec F S2048x128 .bf16) (x1 : Vec F S128x256 .bf16) (x2 : Vec F S1x256 .f32) (K : PUnit → sProp 𝕄) :
    iprop(owns c.tc arg1 fullShare x0 ∗ owns c.tc arg2 fullShare x1 ∗ owns c.tc arg3 fullShare x2
        ∗ (∃ d, owns c.tc arg4 fullShare d)
        ∗ (iprop(owns c.tc arg1 fullShare x0 ∗ owns c.tc arg2 fullShare x1 ∗ owns c.tc arg3 fullShare x2
            ∗ owns c.tc arg4 fullShare (out0_3 x0 x1 x2)) -∗ K ⟨⟩))
      ⊢ wp frame (wpE (defs₀ (F := F)) Variants.none c none) E (cc0__single_matmul_kernel i arg1 harg1 arg2 harg2 arg3 harg3 arg4 harg4) K := by
  simp only [cc0__single_matmul_kernel_eq_skeleton]; unfold cc0__single_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact read_store_blk _ _ _

def dat0 (c : Dev nD) : Dat τ (Elt F) Unit ℕ UU ℕ cfg0 c where
  A w := W0 m c (Pipeline.arrRef spec0 w)
  after w t := match w with
    | ⟨0, _⟩ => iblk0 m c 0 t
    | ⟨1, _⟩ => iblk0 m c 1 t
    | ⟨2, _⟩ => iblk0 m c 2 t
    | ⟨3, _⟩ => out0_3 (iblk0 m c 0 t) (iblk0 m c 1 t) (iblk0 m c 2 t)
  Φ _ := Pipeline.scopedRest spec0 c
  q _ := fullShare
  owed _ := 0

theorem A0_eq (c : Dev nD) (w : Fin cfg0.W) : (dat0 m c).A w = W0 m c (Pipeline.arrRef spec0 w) := by dsimp only [dat0]
theorem after0_3 (c : Dev nD) (t : Fin cfg0.N) :
    (dat0 m c).after 3 t = out0_3 (iblk0 m c 0 t) (iblk0 m c 1 t) (iblk0 m c 2 t) := by dsimp only [dat0]

theorem before0_0 (c : Dev nD) (t : Fin cfg0.N) (d) : (dat0 m c).before 0 t d = iblk0 m c 0 t :=
  (dat0 m c).before_in_eq_fetched 0 rfl (fun _ => rfl) (fun _ _ _ => rfl) (fun _ => rfl) t d
theorem before0_1 (c : Dev nD) (t : Fin cfg0.N) (d) : (dat0 m c).before 1 t d = iblk0 m c 1 t :=
  (dat0 m c).before_in_eq_fetched 1 rfl (fun _ => rfl) (fun _ _ _ => rfl) (fun _ => rfl) t d
theorem before0_2 (c : Dev nD) (t : Fin cfg0.N) (d) : (dat0 m c).before 2 t d = iblk0 m c 2 t :=
  (dat0 m c).before_in_eq_fetched 2 rfl (fun _ => rfl) (fun _ _ _ => rfl) (fun _ => rfl) t d

theorem body_obligation0 (c : Dev nD) : BodyObligation (dat0 (F := F) m c) (defs₀ (F := F)) Variants.none () Set.univ := fun t => by
  rw [bigSep_W0, bigSep_W0]
  simp only [before0_0, before0_1, before0_2]
  dsimp only [dat0, Dat.owesAt, Dat.bound]
  change _ ⊢ wp _ _ _ (bodyAt0 t) _
  iintro ⟨HΦ, Ho, ⟨%d0, H0⟩, ⟨%d1, H1⟩, ⟨%d2, H2⟩, ⟨%d3, H3⟩⟩
  iapply sound_kernel0
  iframe H0 H1 H2
  isplitl [H3]; · iexists _; iexact H3
  iintro ⟨H0, H1, H2, H3⟩
  iframe

end Cert.Kernel.Fr

end
-- ==== Proof.FrameBits.RegAcc.lean ====
import proofs.«405878_j81363860455818_1_alg».proof.Proof.FrameBits.Base
import Idealize.ShloMosaic.Lib.Pipeline.FrameBody
import Idealize.ShloMosaic.Lib.Pipeline.Value

noncomputable section

namespace Cert.Kernel.Fr

open Cert.Kernel Cert.Kernel.Gen

open Idealize.ShloMosaic

variable {F : FTy → Type} [FloatOps F]

theorem offs0 : (![0, 0] : Fin 2 → ℕ) = fun _ => 0 := funext fun a => by fin_cases a <;> rfl

-- The whole-shape rectangle holds every index, so the last piece written through it is what is read.
theorem read_store_last {S : Shape} {e : EltTy} {κ : Kind} {sp : Space} (v : View sig κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

end Cert.Kernel.Fr

end
-- ==== Proof.FrameBits.Reg1.lean ====
import proofs.«405878_j81363860455818_1_alg».proof.Proof.FrameBits.RegAcc
import proofs.«405878_j81363860455818_1_alg».proof.Proof.Gen.Kernel.Skeleton
import proofs.«405878_j81363860455818_1_alg».proof.Proof.Gen.Kernel.Points
import Idealize.ShloMosaic.Lib.Tactic

noncomputable section

namespace Cert.Kernel.Fr

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W1 : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (W1 c (Pipeline.arrRef spec1 w))

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 := by decide +kernel
abbrev cond1_1 (i : grid1.Coords) : Prop := k1_cond2 i = 1#1
theorem hcond1_1 : ∀ t : Fin cfg1.N, cond1_1 (grid1.coords t) ↔ t.val % 5 = 4 := by decide +kernel

theorem idleAt1_3 : ∀ t : Fin cfg1.N, ¬cond1_1 (grid1.coords t) → idle1 3 (grid1.coords t) = true ∧ (win1 3).flush t = false := by decide +kernel
theorem liveAt1_3 : ∀ t : Fin cfg1.N, cond1_1 (grid1.coords t) → idle1 3 (grid1.coords t) = false := by decide +kernel

-- One point's update of the running sum: restarted from zeros where k = 0, then the point's product added.
def step1 (i : grid1.Coords) (d : Vec F S2048x256 .f32) (x0 : Vec F S2048x2048 .bf16) (x1 : Vec F S2048x256 .bf16) : Vec F S2048x256 .f32 :=
  k1_pay2 (if cond1_0 i then k1_pay1 else d) x0 x1

def acc1 (c : Dev nD) : ℕ → Vec F S2048x256 .f32
  | 0 => k1_pay1
  | n + 1 =>
    if h : n < cfg1.N then
      if n % 5 = 0 then k1_pay2 (k1_pay1 (F := F)) (iblk1 W1 c 0 ⟨n, h⟩) (iblk1 W1 c 1 ⟨n, h⟩)
      else k1_pay2 (acc1 c n) (iblk1 W1 c 0 ⟨n, h⟩) (iblk1 W1 c 1 ⟨n, h⟩)
    else acc1 c n

theorem acc1_first (c : Dev nD) (t : Fin cfg1.N) (h0 : t.val % 5 = 0) :
    acc1 W1 c (t.val + 1) = k1_pay2 (k1_pay1 (F := F)) (iblk1 W1 c 0 t) (iblk1 W1 c 1 t) := by
  obtain ⟨n, hn⟩ := t
  exact (dif_pos hn).trans (if_pos h0)

theorem acc1_next (c : Dev nD) (t : Fin cfg1.N) (h0 : ¬t.val % 5 = 0) :
    acc1 W1 c (t.val + 1) = k1_pay2 (acc1 W1 c t.val) (iblk1 W1 c 0 t) (iblk1 W1 c 1 t) := by
  obtain ⟨n, hn⟩ := t
  exact (dif_pos hn).trans (if_neg h0)

-- The recursion of acc1 is one such update, whatever the sum was before a row's first point.
theorem acc1_succ (c : Dev nD) (t : Fin cfg1.N) (d : Vec F S2048x256 .f32) (hd : ¬t.val % 5 = 0 → d = acc1 W1 c t.val) :
    acc1 W1 c (t.val + 1) = step1 (grid1.coords t) d (iblk1 W1 c 0 t) (iblk1 W1 c 1 t) := by
  unfold step1
  by_cases h0 : t.val % 5 = 0
  · rw [acc1_first W1 c t h0, if_pos ((hcond1_0 t).mpr h0)]
  · rw [acc1_next W1 c t h0, if_neg fun h => h0 ((hcond1_0 t).mp h), hd h0]

-- The control cases k = 0, 0 < k < 4 and k = 4 in one triple: the case split lives in step1 and in the conditional output.
theorem sound_kernel1 {c : Dev nD} {E} {i : grid1.Coords} (hx : cond1_0 i → ¬cond1_1 i)
    {arg2 harg2 arg3 harg3 arg4 harg4 arg5 harg5 arg6 harg6 x0 x1 x2 d5 d6} {K : PUnit → sProp 𝕄} :
    iprop(owns c arg2 fullShare x0 ∗ owns c arg3 fullShare x1 ∗ owns c arg4 fullShare x2
        ∗ owns c arg5 fullShare d5 ∗ owns c arg6 fullShare d6
        ∗ (iprop(owns c arg2 fullShare x0 ∗ owns c arg3 fullShare x1 ∗ owns c arg4 fullShare x2
            ∗ owns c arg5 fullShare (if cond1_1 i then k1_pay3 (step1 i d6 x0 x1) x2 else d5)
            ∗ owns c arg6 fullShare (step1 i d6 x0 x1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel owns step1
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  by_cases hc0 : cond1_0 i <;> by_cases hc1 : cond1_1 i
  · exact absurd hc1 (hx hc0)
  all_goals
    first | rw [if_pos hc0] | rw [if_neg hc0]
    first | rw [if_pos hc1] | rw [if_neg hc1]
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H5] <;> (iexists _; isplitr)
    on_goal 2 => iexact H5
    on_goal 3 => iexact H6
    all_goals
      ipureintro
      first
      | (sl_unfold_run_names
         simp only [read_store_last (S := S2048x256) _ _ offs0, View.readCov_cons_toLoadRect, View.readAt_eq_ld,
           View.ld_unit_zero (S := S2048x2048) offs0, View.ld_unit_zero (S := S2048x256) offs0, View.ld_unit_zero (S := S1x256) offs0])
      | rfl

-- The invariant carries the running sum: within a row of the grid it is acc1 at the position, at a row's start it is not constrained.
def Phi1 (c : Dev nD) (n : ℕ) : sProp 𝕄 :=
  iprop((∃ d, ⌜¬n % 5 = 0 → d = acc1 W1 c n⌝ ∗ owns c (Memref.whole cc1_scratch0) fullShare d)
    ∗ Pipeline.scopedRestBut spec1 c [cc1_scratch0])

def dat1 (c : Dev nD) : Dat τ (Elt F) Unit ℕ UU ℕ cfg1 c where
  A w := W1 c (Pipeline.arrRef spec1 w)
  after w t := match w with
    | ⟨0, _⟩ => iblk1 W1 c 0 t
    | ⟨1, _⟩ => iblk1 W1 c 1 t
    | ⟨2, _⟩ => iblk1 W1 c 2 t
    | ⟨3, _⟩ => k1_pay3 (acc1 W1 c (t.val + 1)) (iblk1 W1 c 2 t)
  Φ t := Phi1 W1 c t.val
  q _ := fullShare
  owed _ := 0

theorem A1_eq (c : Dev nD) (w : Fin cfg1.W) : (dat1 W1 c).A w = W1 c (Pipeline.arrRef spec1 w) := by dsimp only [dat1]
theorem after1_3 (c : Dev nD) (t : Fin cfg1.N) :
    (dat1 W1 c).after 3 t = k1_pay3 (acc1 W1 c (t.val + 1)) (iblk1 W1 c 2 t) := by dsimp only [dat1]

theorem before1 (c : Dev nD) (t : Fin cfg1.N) : (∀ d, (dat1 W1 c).before 0 t d = iblk1 W1 c 0 t) ∧ (∀ d, (dat1 W1 c).before 1 t d = iblk1 W1 c 1 t)
    ∧ ∀ d, (dat1 W1 c).before 2 t d = iblk1 W1 c 2 t := by
  refine ⟨?_, ?_, ?_⟩ <;> exact fun d =>
    Eq.trans (Dat.before_in_eq_fetched _ _ rfl (fun _ => rfl) (fun _ _ _ => rfl) (fun t => by unfold Dat.blockOf; dsimp only [dat1, iblk1]; try rfl) t d)
      (by unfold Dat.fetched Dat.blockOf iblk1; rw [A1_eq]; try rfl)

-- At a generic point, from the function's triple: acc1_succ names the updated sum, and the output is as found unless k = 4.
theorem body_obligation1 (c : Dev nD) : BodyObligation (dat1 (F := F) W1 c) (defs₀ (F := F)) Variants.none () Set.univ := fun t => by
  rw [bigSep_W1, bigSep_W1]
  dsimp only
  show _ ⊢ wp _ _ _ (bodyAt1 t) _
  unfold bodyAt1
  simp only [(before1 W1 c t).1, (before1 W1 c t).2.1, (before1 W1 c t).2.2]
  dsimp only [dat1, Dat.owesAt, Dat.bound, Fin.coe_castSucc, Fin.val_succ]
  unfold Phi1
  iintro ⟨⟨⟨%d6, %hd6, HS⟩, Hr⟩, Ho, ⟨%d0, H0⟩, ⟨%d1, H1⟩, ⟨%d2, H2⟩, ⟨%d3, H3⟩⟩
  have hs := acc1_succ W1 c t d6 hd6
  iapply (sound_kernel1 (i := grid1.coords t) fun a b => by have := (hcond1_0 t).mp a; have := (hcond1_1 t).mp b; omega)
  iframe
  iintro ⟨H0, H1, H2, H3, HS⟩
  iframe
  isplitl [HS]
  · iexists _; isplitr
    · ipureintro; exact fun _ => hs.symm
    iexact HS
  by_cases h1 : cond1_1 (grid1.coords t)
  · rw [if_pos h1, ← hs, liveAt1_3 t h1]; iexact H3
  · rw [if_neg h1, (idleAt1_3 t h1).1, (idleAt1_3 t h1).2]; iexists d3; iexact H3

-- Position 0 starts a row, so the invariant asks nothing of the running sum there.
theorem Φ1_in (c : Dev nD) :
    (Pipeline.scopedRest spec1 c : sProp 𝕄) ⊢ (dat1 W1 c).Φ 0 := by
  rw [show (dat1 W1 c).Φ 0 = Phi1 W1 c 0 from rfl, scopedRest1_split]
  unfold Phi1
  iintro ⟨⟨%f, HS⟩, Hr⟩
  iframe Hr
  iexists f; isplitr
  · ipureintro; exact fun h => absurd (Nat.zero_mod 5) h
  rw [owns_whole]; iexact HS

-- At the end the invariant's claim on the running sum is dropped.
theorem Φ1_out (c : Dev nD) :
    (dat1 W1 c).Φ (Fin.last cfg1.N) ⊢ (Pipeline.scopedRest spec1 c : sProp 𝕄) := by
  rw [show (dat1 W1 c).Φ (Fin.last cfg1.N) = Phi1 W1 c cfg1.N from rfl, scopedRest1_split]
  unfold Phi1
  simp only [owns_whole]
  iintro ⟨⟨%d, -, HS⟩, Hr⟩
  iframe Hr
  iexists d; iexact HS

end Cert.Kernel.Fr

end
-- ==== Proof.FrameBits.Reg2.lean ====
import proofs.«405878_j81363860455818_1_alg».proof.Proof.FrameBits.RegLib
import proofs.«405878_j81363860455818_1_alg».proof.Proof.Gen.Kernel.Skeleton
import proofs.«405878_j81363860455818_1_alg».proof.Proof.Gen.Kernel.Points
import Idealize.ShloMosaic.Lib.Tactic

noncomputable section

namespace Cert.Kernel.Fr

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W2 : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (W2 c (Pipeline.arrRef spec2 w))

-- A block of rows of the first layer's activations times the second weight matrix, plus the bias row, rounded to bf16.
def out2_3 (x0 : Vec F S2048x256 .bf16) (x1 : Vec F S256x256 .bf16) (x2 : Vec F S1x256 .f32) : Vec F S2048x256 .bf16 :=
  View.canon [⟨rBlk, k2_pay1 (View.ld x0 rBlk) (View.ld x1 rWts) (View.ld x2 rRow)⟩]

theorem sound_kernel2 (c : Dev nD) (E : Set ℕ) (i : grid2.Coords)
    (arg1 : Memref sig .tc .vmem S2048x256 .bf16) (harg1 : arg1.IsWhole) (arg2 : Memref sig .tc .vmem S256x256 .bf16) (harg2 : arg2.IsWhole)
    (arg3 : Memref sig .tc .vmem S1x256 .f32) (harg3 : arg3.IsWhole) (arg4 : Memref sig .tc .vmem S2048x256 .bf16) (harg4 : arg4.IsWhole)
    (x0 : Vec F S2048x256 .bf16) (x1 : Vec F S256x256 .bf16) (x2 : Vec F S1x256 .f32) (K : PUnit → sProp 𝕄) :
    iprop(owns c.tc arg1 fullShare x0 ∗ owns c.tc arg2 fullShare x1 ∗ owns c.tc arg3 fullShare x2
        ∗ (∃ d, owns c.tc arg4 fullShare d)
        ∗ (iprop(owns c.tc arg1 fullShare x0 ∗ owns c.tc arg2 fullShare x1 ∗ owns c.tc arg3 fullShare x2
            ∗ owns c.tc arg4 fullShare (out2_3 x0 x1 x2)) -∗ K ⟨⟩))
      ⊢ wp frame (wpE (defs₀ (F := F)) Variants.none c none) E (cc2__single_matmul_kernel i arg1 harg1 arg2 harg2 arg3 harg3 arg4 harg4) K := by
  simp only [cc2__single_matmul_kernel_eq_skeleton]; unfold cc2__single_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact read_store_blk _ _ _

def dat2 (c : Dev nD) : Dat τ (Elt F) Unit ℕ UU ℕ cfg2 c where
  A w := W2 c (Pipeline.arrRef spec2 w)
  after w t := match w with
    | ⟨0, _⟩ => iblk2 W2 c 0 t
    | ⟨1, _⟩ => iblk2 W2 c 1 t
    | ⟨2, _⟩ => iblk2 W2 c 2 t
    | ⟨3, _⟩ => out2_3 (iblk2 W2 c 0 t) (iblk2 W2 c 1 t) (iblk2 W2 c 2 t)
  Φ _ := Pipeline.scopedRest spec2 c
  q _ := fullShare
  owed _ := 0

theorem A2_eq (c : Dev nD) (w : Fin cfg2.W) : (dat2 W2 c).A w = W2 c (Pipeline.arrRef spec2 w) := by dsimp only [dat2]
theorem after2_3 (c : Dev nD) (t : Fin cfg2.N) :
    (dat2 W2 c).after 3 t = out2_3 (iblk2 W2 c 0 t) (iblk2 W2 c 1 t) (iblk2 W2 c 2 t) := by dsimp only [dat2]

theorem before2 (c : Dev nD) (t : Fin cfg2.N) :
    (∀ d, (dat2 W2 c).before 0 t d = iblk2 W2 c 0 t) ∧
    (∀ d, (dat2 W2 c).before 1 t d = iblk2 W2 c 1 t) ∧
    ∀ d, (dat2 W2 c).before 2 t d = iblk2 W2 c 2 t :=
  ⟨(dat2 W2 c).before_in_eq_fetched 0 rfl (fun _ => rfl) (fun _ _ _ => rfl) (fun _ => rfl) t,
    (dat2 W2 c).before_in_eq_fetched 1 rfl (fun _ => rfl) (fun _ _ _ => rfl) (fun _ => rfl) t,
    (dat2 W2 c).before_in_eq_fetched 2 rfl (fun _ => rfl) (fun _ _ _ => rfl) (fun _ => rfl) t⟩

theorem body_obligation2 (c : Dev nD) : BodyObligation (dat2 (F := F) W2 c) (defs₀ (F := F)) Variants.none () Set.univ := fun t => by
  rw [bigSep_W2, bigSep_W2]
  simp only [before2]
  dsimp only [dat2, Dat.owesAt, Dat.bound]
  change _ ⊢ wp _ _ _ (bodyAt2 t) _
  iintro ⟨HΦ, Ho, ⟨%d0, H0⟩, ⟨%d1, H1⟩, ⟨%d2, H2⟩, ⟨%d3, H3⟩⟩
  iapply sound_kernel2
  iframe H0 H1 H2
  isplitl [H3]; · iexists _; iexact H3
  iintro ⟨H0, H1, H2, H3⟩
  iframe

end Cert.Kernel.Fr

end
-- ==== Proof.FrameBits.Reg3.lean ====
import proofs.«405878_j81363860455818_1_alg».proof.Proof.FrameBits.RegAcc
import proofs.«405878_j81363860455818_1_alg».proof.Proof.Gen.Kernel.Skeleton
import proofs.«405878_j81363860455818_1_alg».proof.Proof.Gen.Kernel.Points
import Idealize.ShloMosaic.Lib.Tactic

noncomputable section

namespace Cert.Kernel.Fr

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W3 : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (W3 c (Pipeline.arrRef spec3 w))

abbrev cond3_0 (i : grid3.Coords) : Prop :=
  (Scalar.cmpi .ne (Scalar.extui (Scalar.cmpi .eq (BitVec.ofNat 32 (i 1).val) 0#32)) 0#32) = 1#1
theorem hcond3_0 : ∀ t : Fin cfg3.N, cond3_0 (grid3.coords t) ↔ t.val % 5 = 0 := by decide +kernel
abbrev cond3_1 (i : grid3.Coords) : Prop := k3_cond2 i = 1#1
theorem hcond3_1 : ∀ t : Fin cfg3.N, cond3_1 (grid3.coords t) ↔ t.val % 5 = 4 := by decide +kernel

theorem idleAt3_3 : ∀ t : Fin cfg3.N, ¬cond3_1 (grid3.coords t) → idle3 3 (grid3.coords t) = true ∧ (win3 3).flush t = false := by decide +kernel
theorem liveAt3_3 : ∀ t : Fin cfg3.N, cond3_1 (grid3.coords t) → idle3 3 (grid3.coords t) = false := by decide +kernel

-- One point's update of the running sum: restarted from zeros where k = 0, then the point's product added.
def step3 (i : grid3.Coords) (d : Vec F S2048x256 .f32) (x0 : Vec F S2048x2048 .bf16) (x1 : Vec F S2048x256 .bf16) : Vec F S2048x256 .f32 :=
  k3_pay2 (if cond3_0 i then k3_pay1 else d) x0 x1

def acc3 (c : Dev nD) : ℕ → Vec F S2048x256 .f32
  | 0 => k3_pay1
  | n + 1 =>
    if h : n < cfg3.N then
      if n % 5 = 0 then k3_pay2 (k3_pay1 (F := F)) (iblk3 W3 c 0 ⟨n, h⟩) (iblk3 W3 c 1 ⟨n, h⟩)
      else k3_pay2 (acc3 c n) (iblk3 W3 c 0 ⟨n, h⟩) (iblk3 W3 c 1 ⟨n, h⟩)
    else acc3 c n

theorem acc3_first (c : Dev nD) (t : Fin cfg3.N) (h0 : t.val % 5 = 0) :
    acc3 W3 c (t.val + 1) = k3_pay2 (k3_pay1 (F := F)) (iblk3 W3 c 0 t) (iblk3 W3 c 1 t) := by
  obtain ⟨n, hn⟩ := t
  exact (dif_pos hn).trans (if_pos h0)

theorem acc3_next (c : Dev nD) (t : Fin cfg3.N) (h0 : ¬t.val % 5 = 0) :
    acc3 W3 c (t.val + 1) = k3_pay2 (acc3 W3 c t.val) (iblk3 W3 c 0 t) (iblk3 W3 c 1 t) := by
  obtain ⟨n, hn⟩ := t
  exact (dif_pos hn).trans (if_neg h0)

-- The recursion of acc3 is one such update, whatever the sum was before a row's first point.
theorem acc3_succ (c : Dev nD) (t : Fin cfg3.N) (d : Vec F S2048x256 .f32) (hd : ¬t.val % 5 = 0 → d = acc3 W3 c t.val) :
    acc3 W3 c (t.val + 1) = step3 (grid3.coords t) d (iblk3 W3 c 0 t) (iblk3 W3 c 1 t) := by
  unfold step3
  by_cases h0 : t.val % 5 = 0
  · rw [acc3_first W3 c t h0, if_pos ((hcond3_0 t).mpr h0)]
  · rw [acc3_next W3 c t h0, if_neg fun h => h0 ((hcond3_0 t).mp h), hd h0]

-- The control cases k = 0, 0 < k < 4 and k = 4 in one triple: the case split lives in step3 and in the conditional output.
theorem sound_kernel3 {c : Dev nD} {E} {i : grid3.Coords} (hx : cond3_0 i → ¬cond3_1 i)
    {arg2 harg2 arg3 harg3 arg4 harg4 arg5 harg5 arg6 harg6 x0 x1 x2 d5 d6} {K : PUnit → sProp 𝕄} :
    iprop(owns c arg2 fullShare x0 ∗ owns c arg3 fullShare x1 ∗ owns c arg4 fullShare x2
        ∗ owns c arg5 fullShare d5 ∗ owns c arg6 fullShare d6
        ∗ (iprop(owns c arg2 fullShare x0 ∗ owns c arg3 fullShare x1 ∗ owns c arg4 fullShare x2
            ∗ owns c arg5 fullShare (if cond3_1 i then k3_pay3 (step3 i d6 x0 x1) x2 else d5)
            ∗ owns c arg6 fullShare (step3 i d6 x0 x1)) -∗ K ⟨⟩))
      ⊢ wp frame (wpE (defs₀ (F := F)) Variants.none c none) E (cc3__agg_kernel i arg2 harg2 arg3 harg3 arg4 harg4 arg5 harg5 arg6 harg6) K := by
  simp only [cc3__agg_kernel_eq_skeleton]; unfold cc3__agg_kernel_skel owns step3
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  by_cases hc0 : cond3_0 i <;> by_cases hc1 : cond3_1 i
  · exact absurd hc1 (hx hc0)
  all_goals
    first | rw [if_pos hc0] | rw [if_neg hc0]
    first | rw [if_pos hc1] | rw [if_neg hc1]
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H5] <;> (iexists _; isplitr)
    on_goal 2 => iexact H5
    on_goal 3 => iexact H6
    all_goals
      ipureintro
      first
      | (sl_unfold_run_names
         simp only [read_store_last (S := S2048x256) _ _ offs0, View.readCov_cons_toLoadRect, View.readAt_eq_ld,
           View.ld_unit_zero (S := S2048x2048) offs0, View.ld_unit_zero (S := S2048x256) offs0, View.ld_unit_zero (S := S1x256) offs0])
      | rfl

-- The invariant carries the running sum: within a row of the grid it is acc3 at the position, at a row's start it is not constrained.
def Phi3 (c : Dev nD) (n : ℕ) : sProp 𝕄 :=
  iprop((∃ d, ⌜¬n % 5 = 0 → d = acc3 W3 c n⌝ ∗ owns c (Memref.whole cc3_scratch0) fullShare d)
    ∗ Pipeline.scopedRestBut spec3 c [cc3_scratch0])

def dat3 (c : Dev nD) : Dat τ (Elt F) Unit ℕ UU ℕ cfg3 c where
  A w := W3 c (Pipeline.arrRef spec3 w)
  after w t := match w with
    | ⟨0, _⟩ => iblk3 W3 c 0 t
    | ⟨1, _⟩ => iblk3 W3 c 1 t
    | ⟨2, _⟩ => iblk3 W3 c 2 t
    | ⟨3, _⟩ => k3_pay3 (acc3 W3 c (t.val + 1)) (iblk3 W3 c 2 t)
  Φ t := Phi3 W3 c t.val
  q _ := fullShare
  owed _ := 0

theorem A3_eq (c : Dev nD) (w : Fin cfg3.W) : (dat3 W3 c).A w = W3 c (Pipeline.arrRef spec3 w) := by dsimp only [dat3]
theorem after3_3 (c : Dev nD) (t : Fin cfg3.N) :
    (dat3 W3 c).after 3 t = k3_pay3 (acc3 W3 c (t.val + 1)) (iblk3 W3 c 2 t) := by dsimp only [dat3]

theorem before3 (c : Dev nD) (t : Fin cfg3.N) : (∀ d, (dat3 W3 c).before 0 t d = iblk3 W3 c 0 t) ∧ (∀ d, (dat3 W3 c).before 1 t d = iblk3 W3 c 1 t)
    ∧ ∀ d, (dat3 W3 c).before 2 t d = iblk3 W3 c 2 t := by
  refine ⟨?_, ?_, ?_⟩ <;> exact fun d =>
    Eq.trans (Dat.before_in_eq_fetched _ _ rfl (fun _ => rfl) (fun _ _ _ => rfl) (fun t => by unfold Dat.blockOf; dsimp only [dat3, iblk3]; try rfl) t d)
      (by unfold Dat.fetched Dat.blockOf iblk3; rw [A3_eq]; try rfl)

-- At a generic point, from the function's triple: acc3_succ names the updated sum, and the output is as found unless k = 4.
theorem body_obligation3 (c : Dev nD) : BodyObligation (dat3 (F := F) W3 c) (defs₀ (F := F)) Variants.none () Set.univ := fun t => by
  rw [bigSep_W3, bigSep_W3]
  dsimp only
  show _ ⊢ wp _ _ _ (bodyAt3 t) _
  unfold bodyAt3
  simp only [(before3 W3 c t).1, (before3 W3 c t).2.1, (before3 W3 c t).2.2]
  dsimp only [dat3, Dat.owesAt, Dat.bound, Fin.coe_castSucc, Fin.val_succ]
  unfold Phi3
  iintro ⟨⟨⟨%d6, %hd6, HS⟩, Hr⟩, Ho, ⟨%d0, H0⟩, ⟨%d1, H1⟩, ⟨%d2, H2⟩, ⟨%d3, H3⟩⟩
  have hs := acc3_succ W3 c t d6 hd6
  iapply (sound_kernel3 (i := grid3.coords t) fun a b => by have := (hcond3_0 t).mp a; have := (hcond3_1 t).mp b; omega)
  iframe
  iintro ⟨H0, H1, H2, H3, HS⟩
  iframe
  isplitl [HS]
  · iexists _; isplitr
    · ipureintro; exact fun _ => hs.symm
    iexact HS
  by_cases h1 : cond3_1 (grid3.coords t)
  · rw [if_pos h1, ← hs, liveAt3_3 t h1]; iexact H3
  · rw [if_neg h1, (idleAt3_3 t h1).1, (idleAt3_3 t h1).2]; iexists d3; iexact H3

-- Position 0 starts a row, so the invariant asks nothing of the running sum there.
theorem Φ3_in (c : Dev nD) :
    (Pipeline.scopedRest spec3 c : sProp 𝕄) ⊢ (dat3 W3 c).Φ 0 := by
  rw [show (dat3 W3 c).Φ 0 = Phi3 W3 c 0 from rfl, scopedRest3_split]
  unfold Phi3
  iintro ⟨⟨%f, HS⟩, Hr⟩
  iframe Hr
  iexists f; isplitr
  · ipureintro; exact fun h => absurd (Nat.zero_mod 5) h
  rw [owns_whole]; iexact HS

-- At the end the invariant's claim on the running sum is dropped.
theorem Φ3_out (c : Dev nD) :
    (dat3 W3 c).Φ (Fin.last cfg3.N) ⊢ (Pipeline.scopedRest spec3 c : sProp 𝕄) := by
  rw [show (dat3 W3 c).Φ (Fin.last cfg3.N) = Phi3 W3 c cfg3.N from rfl, scopedRest3_split]
  unfold Phi3
  simp only [owns_whole]
  iintro ⟨⟨%d, -, HS⟩, Hr⟩
  iframe Hr
  iexists d; iexact HS

end Cert.Kernel.Fr

end
-- ==== Proof.FrameBits.Reg4.lean ====
import proofs.«405878_j81363860455818_1_alg».proof.Proof.FrameBits.RegLib
import proofs.«405878_j81363860455818_1_alg».proof.Proof.Gen.Kernel.Skeleton
import proofs.«405878_j81363860455818_1_alg».proof.Proof.Gen.Kernel.Points
import Idealize.ShloMosaic.Lib.Tactic

noncomputable section

namespace Cert.Kernel.Fr

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W4 : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (W4 c (Pipeline.arrRef spec4 w))

-- A gate on a block of rows: sigmoid (z W_top + h W_bottom + b), h rounded to bf16 first.
def out4_5 (x0 : Vec F S2048x256 .bf16) (x1 : Vec F S256x256 .bf16) (x2 : Vec F S2048x256 .f32) (x3 : Vec F S256x256 .bf16) (x4 : Vec F S1x256 .f32) : Vec F S2048x256 .f32 :=
  View.canon [⟨rBlk, k4_pay1 (View.ld x0 rBlk) (View.ld x1 rWts) (View.ld x2 rBlk) (View.ld x3 rWts) (View.ld x4 rRow)⟩]

theorem sound_kernel4 (c : Dev nD) (E : Set ℕ) (i : grid4.Coords)
    (arg1 : Memref sig .tc .vmem S2048x256 .bf16) (harg1 : arg1.IsWhole) (arg2 : Memref sig .tc .vmem S256x256 .bf16) (harg2 : arg2.IsWhole)
    (arg3 : Memref sig .tc .vmem S2048x256 .f32) (harg3 : arg3.IsWhole) (arg4 : Memref sig .tc .vmem S256x256 .bf16) (harg4 : arg4.IsWhole)
    (arg5 : Memref sig .tc .vmem S1x256 .f32) (harg5 : arg5.IsWhole) (arg6 : Memref sig .tc .vmem S2048x256 .f32) (harg6 : arg6.IsWhole)
    (x0 : Vec F S2048x256 .bf16) (x1 : Vec F S256x256 .bf16) (x2 : Vec F S2048x256 .f32) (x3 : Vec F S256x256 .bf16) (x4 : Vec F S1x256 .f32) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4
        ∗ (∃ d, owns c.tc arg6 fullShare d)
        ∗ (iprop(owns c.tc arg1 fullShare x0 ∗ owns c.tc arg2 fullShare x1 ∗ owns c.tc arg3 fullShare x2
            ∗ owns c.tc arg4 fullShare x3 ∗ owns c.tc arg5 fullShare x4
            ∗ owns c.tc arg6 fullShare (out4_5 x0 x1 x2 x3 x4)) -∗ K ⟨⟩))
      ⊢ wp frame (wpE (defs₀ (F := F)) Variants.none c none) E (cc4__gate_kernel i arg1 harg1 arg2 harg2 arg3 harg3 arg4 harg4 arg5 harg5 arg6 harg6) K := by
  simp only [cc4__gate_kernel_eq_skeleton]; unfold cc4__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact read_store_blk _ _ _

def dat4 (c : Dev nD) : Dat τ (Elt F) Unit ℕ UU ℕ cfg4 c where
  A w := W4 c (Pipeline.arrRef spec4 w)
  after w t := match w with
    | ⟨0, _⟩ => iblk4 W4 c 0 t
    | ⟨1, _⟩ => iblk4 W4 c 1 t
    | ⟨2, _⟩ => iblk4 W4 c 2 t
    | ⟨3, _⟩ => iblk4 W4 c 3 t
    | ⟨4, _⟩ => iblk4 W4 c 4 t
    | ⟨5, _⟩ => out4_5 (iblk4 W4 c 0 t) (iblk4 W4 c 1 t) (iblk4 W4 c 2 t) (iblk4 W4 c 3 t) (iblk4 W4 c 4 t)
  Φ _ := Pipeline.scopedRest spec4 c
  q _ := fullShare
  owed _ := 0

theorem A4_eq (c : Dev nD) (w : Fin cfg4.W) : (dat4 W4 c).A w = W4 c (Pipeline.arrRef spec4 w) := by dsimp only [dat4]
theorem after4_5 (c : Dev nD) (t : Fin cfg4.N) :
    (dat4 W4 c).after 5 t = out4_5 (iblk4 W4 c 0 t) (iblk4 W4 c 1 t) (iblk4 W4 c 2 t) (iblk4 W4 c 3 t) (iblk4 W4 c 4 t) := by dsimp only [dat4]

theorem before4 (c : Dev nD) (t : Fin cfg4.N) :
    (∀ d, (dat4 W4 c).before 0 t d = iblk4 W4 c 0 t) ∧
    (∀ d, (dat4 W4 c).before 1 t d = iblk4 W4 c 1 t) ∧
    (∀ d, (dat4 W4 c).before 2 t d = iblk4 W4 c 2 t) ∧
    (∀ d, (dat4 W4 c).before 3 t d = iblk4 W4 c 3 t) ∧
    ∀ d, (dat4 W4 c).before 4 t d = iblk4 W4 c 4 t :=
  ⟨(dat4 W4 c).before_in_eq_fetched 0 rfl (fun _ => rfl) (fun _ _ _ => rfl) (fun _ => rfl) t,
    (dat4 W4 c).before_in_eq_fetched 1 rfl (fun _ => rfl) (fun _ _ _ => rfl) (fun _ => rfl) t,
    (dat4 W4 c).before_in_eq_fetched 2 rfl (fun _ => rfl) (fun _ _ _ => rfl) (fun _ => rfl) t,
    (dat4 W4 c).before_in_eq_fetched 3 rfl (fun _ => rfl) (fun _ _ _ => rfl) (fun _ => rfl) t,
    (dat4 W4 c).before_in_eq_fetched 4 rfl (fun _ => rfl) (fun _ _ _ => rfl) (fun _ => rfl) t⟩

theorem body_obligation4 (c : Dev nD) : BodyObligation (dat4 (F := F) W4 c) (defs₀ (F := F)) Variants.none () Set.univ := fun t => by
  rw [bigSep_W4, bigSep_W4]
  simp only [before4]
  dsimp only [dat4, Dat.owesAt, Dat.bound]
  change _ ⊢ wp _ _ _ (bodyAt4 t) _
  iintro ⟨HΦ, Ho, ⟨%d0, H0⟩, ⟨%d1, H1⟩, ⟨%d2, H2⟩, ⟨%d3, H3⟩, ⟨%d4, H4⟩, ⟨%d5, H5⟩⟩
  iapply sound_kernel4
  iframe H0 H1 H2 H3 H4
  isplitl [H5]; · iexists _; iexact H5
  iintro ⟨H0, H1, H2, H3, H4, H5⟩
  iframe

end Cert.Kernel.Fr

end
-- ==== Proof.FrameBits.Reg5.lean ====
import proofs.«405878_j81363860455818_1_alg».proof.Proof.FrameBits.Reg4

noncomputable section

namespace Cert.Kernel.Fr

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W5 : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (W5 c (Pipeline.arrRef spec5 w))

-- A gate on a block of rows: sigmoid (z W_top + h W_bottom + b), h rounded to bf16 first.
def out5_5 (x0 : Vec F S2048x256 .bf16) (x1 : Vec F S256x256 .bf16) (x2 : Vec F S2048x256 .f32) (x3 : Vec F S256x256 .bf16) (x4 : Vec F S1x256 .f32) : Vec F S2048x256 .f32 :=
  View.canon [⟨rBlk, k5_pay1 (View.ld x0 rBlk) (View.ld x1 rWts) (View.ld x2 rBlk) (View.ld x3 rWts) (View.ld x4 rRow)⟩]

def dat5 (c : Dev nD) : Dat τ (Elt F) Unit ℕ UU ℕ cfg5 c where
  A w := W5 c (Pipeline.arrRef spec5 w)
  after w t := match w with
    | ⟨0, _⟩ => iblk5 W5 c 0 t
    | ⟨1, _⟩ => iblk5 W5 c 1 t
    | ⟨2, _⟩ => iblk5 W5 c 2 t
    | ⟨3, _⟩ => iblk5 W5 c 3 t
    | ⟨4, _⟩ => iblk5 W5 c 4 t
    | ⟨5, _⟩ => out5_5 (iblk5 W5 c 0 t) (iblk5 W5 c 1 t) (iblk5 W5 c 2 t) (iblk5 W5 c 3 t) (iblk5 W5 c 4 t)
  Φ _ := Pipeline.scopedRest spec5 c
  q _ := fullShare
  owed _ := 0

theorem A5_eq (c : Dev nD) (w : Fin cfg5.W) : (dat5 W5 c).A w = W5 c (Pipeline.arrRef spec5 w) := by dsimp only [dat5]
theorem after5_5 (c : Dev nD) (t : Fin cfg5.N) :
    (dat5 W5 c).after 5 t = out5_5 (iblk5 W5 c 0 t) (iblk5 W5 c 1 t) (iblk5 W5 c 2 t) (iblk5 W5 c 3 t) (iblk5 W5 c 4 t) := by dsimp only [dat5]

theorem before5 (c : Dev nD) (t : Fin cfg5.N) :
    (∀ d, (dat5 W5 c).before 0 t d = iblk5 W5 c 0 t) ∧
    (∀ d, (dat5 W5 c).before 1 t d = iblk5 W5 c 1 t) ∧
    (∀ d, (dat5 W5 c).before 2 t d = iblk5 W5 c 2 t) ∧
    (∀ d, (dat5 W5 c).before 3 t d = iblk5 W5 c 3 t) ∧
    ∀ d, (dat5 W5 c).before 4 t d = iblk5 W5 c 4 t :=
  ⟨(dat5 W5 c).before_in_eq_fetched 0 rfl (fun _ => rfl) (fun _ _ _ => rfl) (fun _ => rfl) t,
    (dat5 W5 c).before_in_eq_fetched 1 rfl (fun _ => rfl) (fun _ _ _ => rfl) (fun _ => rfl) t,
    (dat5 W5 c).before_in_eq_fetched 2 rfl (fun _ => rfl) (fun _ _ _ => rfl) (fun _ => rfl) t,
    (dat5 W5 c).before_in_eq_fetched 3 rfl (fun _ => rfl) (fun _ _ _ => rfl) (fun _ => rfl) t,
    (dat5 W5 c).before_in_eq_fetched 4 rfl (fun _ => rfl) (fun _ _ _ => rfl) (fun _ => rfl) t⟩

-- This launch's body is, by unfolding, the body of the other gate launch, whose triple serves here.
theorem body_obligation5 (c : Dev nD) : BodyObligation (dat5 (F := F) W5 c) (defs₀ (F := F)) Variants.none () Set.univ := fun t => by
  rw [bigSep_W5, bigSep_W5]
  simp only [before5]
  dsimp only [dat5, Dat.owesAt, Dat.bound]
  change _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid5.coords t) (st5_0 t) (hstage5_0 _) (st5_1 t) (hstage5_1 _) (st5_2 t) (hstage5_2 _) (st5_3 t) (hstage5_3 _) (st5_4 t) (hstage5_4 _) (st5_5 t) (hstage5_5 _))
  iframe H0 H1 H2 H3 H4
  isplitl [H5]; · iexists _; iexact H5
  iintro ⟨H0, H1, H2, H3, H4, H5⟩
  iframe HΦ Ho H0 H1 H2 H3 H4
  iexact H5

end Cert.Kernel.Fr

end
-- ==== Proof.FrameBits.Reg6.lean ====
import proofs.«405878_j81363860455818_1_alg».proof.Proof.FrameBits.RegLib
import proofs.«405878_j81363860455818_1_alg».proof.Proof.Gen.Kernel.Skeleton
import proofs.«405878_j81363860455818_1_alg».proof.Proof.Gen.Kernel.Points
import Idealize.ShloMosaic.Lib.Tactic

noncomputable section

namespace Cert.Kernel.Fr

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UU ℕ

variable (W6 : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (W6 c (Pipeline.arrRef spec6 w))

-- The new hidden state on a block of rows: u * h + (1 - u) * tanh (z W_top + (r * h) W_bottom + b).
def out6_7 (x0 : Vec F S2048x256 .bf16) (x1 : Vec F S256x256 .bf16) (x2 : Vec F S2048x256 .f32) (x3 : Vec F S2048x256 .f32) (x4 : Vec F S256x256 .bf16) (x5 : Vec F S1x256 .f32) (x6 : Vec F S2048x256 .f32) : Vec F S2048x256 .f32 :=
  View.canon [⟨rBlk, k6_pay1 (View.ld x0 rBlk) (View.ld x1 rWts) (View.ld x2 rBlk) (View.ld x3 rBlk) (View.ld x4 rWts) (View.ld x5 rRow) (View.ld x6 rBlk) (View.ld x3 rBlk)⟩]

theorem sound_kernel6 (c : Dev nD) (E : Set ℕ) (i : grid6.Coords)
    (arg1 : Memref sig .tc .vmem S2048x256 .bf16) (harg1 : arg1.IsWhole) (arg2 : Memref sig .tc .vmem S256x256 .bf16) (harg2 : arg2.IsWhole)
    (arg3 : Memref sig .tc .vmem S2048x256 .f32) (harg3 : arg3.IsWhole) (arg4 : Memref sig .tc .vmem S2048x256 .f32) (harg4 : arg4.IsWhole)
    (arg5 : Memref sig .tc .vmem S256x256 .bf16) (harg5 : arg5.IsWhole) (arg6 : Memref sig .tc .vmem S1x256 .f32) (harg6 : arg6.IsWhole)
    (arg7 : Memref sig .tc .vmem S2048x256 .f32) (harg7 : arg7.IsWhole) (arg8 : Memref sig .tc .vmem S2048x256 .f32) (harg8 : arg8.IsWhole)
    (x0 : Vec F S2048x256 .bf16) (x1 : Vec F S256x256 .bf16) (x2 : Vec F S2048x256 .f32) (x3 : Vec F S2048x256 .f32) (x4 : Vec F S256x256 .bf16) (x5 : Vec F S1x256 .f32) (x6 : Vec F S2048x256 .f32) (K : PUnit → sProp 𝕄) :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare x6
        ∗ (∃ d, owns c.tc arg8 fullShare d)
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare x6
            ∗ owns c.tc arg8 fullShare (out6_7 x0 x1 x2 x3 x4 x5 x6)) -∗ K ⟨⟩))
      ⊢ wp frame (wpE (defs₀ (F := F)) Variants.none c none) E (cc6__final_kernel i arg1 harg1 arg2 harg2 arg3 harg3 arg4 harg4 arg5 harg5 arg6 harg6 arg7 harg7 arg8 harg8) K := by
  simp only [cc6__final_kernel_eq_skeleton]; unfold cc6__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact read_store_blk _ _ _

def dat6 (c : Dev nD) : Dat τ (Elt F) Unit ℕ UU ℕ cfg6 c where
  A w := W6 c (Pipeline.arrRef spec6 w)
  after w t := match w with
    | ⟨0, _⟩ => iblk6 W6 c 0 t
    | ⟨1, _⟩ => iblk6 W6 c 1 t
    | ⟨2, _⟩ => iblk6 W6 c 2 t
    | ⟨3, _⟩ => iblk6 W6 c 3 t
    | ⟨4, _⟩ => iblk6 W6 c 4 t
    | ⟨5, _⟩ => iblk6 W6 c 5 t
    | ⟨6, _⟩ => iblk6 W6 c 6 t
    | ⟨7, _⟩ => out6_7 (iblk6 W6 c 0 t) (iblk6 W6 c 1 t) (iblk6 W6 c 2 t) (iblk6 W6 c 3 t) (iblk6 W6 c 4 t) (iblk6 W6 c 5 t) (iblk6 W6 c 6 t)
  Φ _ := Pipeline.scopedRest spec6 c
  q _ := fullShare
  owed _ := 0

theorem A6_eq (c : Dev nD) (w : Fin cfg6.W) : (dat6 W6 c).A w = W6 c (Pipeline.arrRef spec6 w) := by dsimp only [dat6]
theorem after6_7 (c : Dev nD) (t : Fin cfg6.N) :
    (dat6 W6 c).after 7 t = out6_7 (iblk6 W6 c 0 t) (iblk6 W6 c 1 t) (iblk6 W6 c 2 t) (iblk6 W6 c 3 t) (iblk6 W6 c 4 t) (iblk6 W6 c 5 t) (iblk6 W6 c 6 t) := by dsimp only [dat6]

theorem before6 (c : Dev nD) (t : Fin cfg6.N) :
    (∀ d, (dat6 W6 c).before 0 t d = iblk6 W6 c 0 t) ∧
    (∀ d, (dat6 W6 c).before 1 t d = iblk6 W6 c 1 t) ∧
    (∀ d, (dat6 W6 c).before 2 t d = iblk6 W6 c 2 t) ∧
    (∀ d, (dat6 W6 c).before 3 t d = iblk6 W6 c 3 t) ∧
    (∀ d, (dat6 W6 c).before 4 t d = iblk6 W6 c 4 t) ∧
    (∀ d, (dat6 W6 c).before 5 t d = iblk6 W6 c 5 t) ∧
    ∀ d, (dat6 W6 c).before 6 t d = iblk6 W6 c 6 t :=
  ⟨(dat6 W6 c).before_in_eq_fetched 0 rfl (fun _ => rfl) (fun _ _ _ => rfl) (fun _ => rfl) t,
    (dat6 W6 c).before_in_eq_fetched 1 rfl (fun _ => rfl) (fun _ _ _ => rfl) (fun _ => rfl) t,
    (dat6 W6 c).before_in_eq_fetched 2 rfl (fun _ => rfl) (fun _ _ _ => rfl) (fun _ => rfl) t,
    (dat6 W6 c).before_in_eq_fetched 3 rfl (fun _ => rfl) (fun _ _ _ => rfl) (fun _ => rfl) t,
    (dat6 W6 c).before_in_eq_fetched 4 rfl (fun _ => rfl) (fun _ _ _ => rfl) (fun _ => rfl) t,
    (dat6 W6 c).before_in_eq_fetched 5 rfl (fun _ => rfl) (fun _ _ _ => rfl) (fun _ => rfl) t,
    (dat6 W6 c).before_in_eq_fetched 6 rfl (fun _ => rfl) (fun _ _ _ => rfl) (fun _ => rfl) t⟩

theorem body_obligation6 (c : Dev nD) : BodyObligation (dat6 (F := F) W6 c) (defs₀ (F := F)) Variants.none () Set.univ := fun t => by
  rw [bigSep_W6, bigSep_W6]
  simp only [before6]
  dsimp only [dat6, Dat.owesAt, Dat.bound]
  change _ ⊢ wp _ _ _ (bodyAt6 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel6
  iframe H0 H1 H2 H3 H4 H5 H6
  isplitl [H7]; · iexists _; iexact H7
  iintro ⟨H0, H1, H2, H3, H4, H5, H6, H7⟩
  iframe

end Cert.Kernel.Fr

end
-- ==== Proof.FrameBits.Vals.lean ====
import proofs.«405878_j81363860455818_1_alg».proof.Proof.FrameBits.Reg0
import proofs.«405878_j81363860455818_1_alg».proof.Proof.FrameBits.Reg1
import proofs.«405878_j81363860455818_1_alg».proof.Proof.FrameBits.Reg2
import proofs.«405878_j81363860455818_1_alg».proof.Proof.FrameBits.Reg3
import proofs.«405878_j81363860455818_1_alg».proof.Proof.FrameBits.Reg4
import proofs.«405878_j81363860455818_1_alg».proof.Proof.FrameBits.Reg5
import proofs.«405878_j81363860455818_1_alg».proof.Proof.FrameBits.Reg6
import Idealize.ShloMosaic.Lib.Pipeline.RegionsLoop
import Idealize.ShloMosaic.Lib.Pipeline.FrameSuffix

noncomputable section

namespace Cert.Kernel.Fr

open Cert.Kernel Cert.Kernel.Gen
open Idealize.ShloMosaic Idealize.ShloMosaic.TcCoe
open Idealize.SL.Sem

variable {F : FTy → Type} [FloatOps F]

variable (m : (ℓ : Loc nD τ sig) → Buf (Elt F) ℓ)

-- The first launch is entered from the buffers as the five stretches of host operations leave them.
abbrev E0 : Dev nD → Valuation τ sig (Elt F) := fun c => V₅ m c
abbrev X0 : (c : Dev nD) → (b : Ref sig .tc) → Buf (Elt F) ((c : Thread nD τ).loc b) := fun c b => E0 m c b

-- After a launch: its windows' arrays at their final contents, every other buffer as before.
def E1 (c : Dev nD) : Valuation τ sig (Elt F) :=
  Pipeline.withArrays spec0 c (E0 m c) fun w => (dat0 m c).arrAt w cfg0.N
theorem E1_arr (c : Dev nD) (w : Fin cfg0.W) :
    E1 m c (Proc.devRef .tc (Pipeline.arrRef spec0 w)) = (dat0 m c).arrAt w cfg0.N :=
  Pipeline.withArrays_arr spec0 launch0.win.arr_inj c _ _ w
abbrev X1 : (c : Dev nD) → (b : Ref sig .tc) → Buf (Elt F) ((c : Thread nD τ).loc b) := fun c b => E1 m c b

def E2 (c : Dev nD) : Valuation τ sig (Elt F) :=
  Pipeline.withArrays spec1 c (E1 m c) fun w => (dat1 (X1 m) c).arrAt w cfg1.N
theorem E2_arr (c : Dev nD) (w : Fin cfg1.W) :
    E2 m c (Proc.devRef .tc (Pipeline.arrRef spec1 w)) = (dat1 (X1 m) c).arrAt w cfg1.N :=
  Pipeline.withArrays_arr spec1 launch1.win.arr_inj c _ _ w
abbrev X2 : (c : Dev nD) → (b : Ref sig .tc) → Buf (Elt F) ((c : Thread nD τ).loc b) := fun c b => E2 m c b

def E3 (c : Dev nD) : Valuation τ sig (Elt F) :=
  Pipeline.withArrays spec2 c (E2 m c) fun w => (dat2 (X2 m) c).arrAt w cfg2.N
theorem E3_arr (c : Dev nD) (w : Fin cfg2.W) :
    E3 m c (Proc.devRef .tc (Pipeline.arrRef spec2 w)) = (dat2 (X2 m) c).arrAt w cfg2.N :=
  Pipeline.withArrays_arr spec2 launch2.win.arr_inj c _ _ w
abbrev X3 : (c : Dev nD) → (b : Ref sig .tc) → Buf (Elt F) ((c : Thread nD τ).loc b) := fun c b => E3 m c b

def E4 (c : Dev nD) : Valuation τ sig (Elt F) :=
  Pipeline.withArrays spec3 c (E3 m c) fun w => (dat3 (X3 m) c).arrAt w cfg3.N
theorem E4_arr (c : Dev nD) (w : Fin cfg3.W) :
    E4 m c (Proc.devRef .tc (Pipeline.arrRef spec3 w)) = (dat3 (X3 m) c).arrAt w cfg3.N :=
  Pipeline.withArrays_arr spec3 launch3.win.arr_inj c _ _ w
abbrev X4 : (c : Dev nD) → (b : Ref sig .tc) → Buf (Elt F) ((c : Thread nD τ).loc b) := fun c b => E4 m c b

def E5 (c : Dev nD) : Valuation τ sig (Elt F) :=
  Pipeline.withArrays spec4 c (E4 m c) fun w => (dat4 (X4 m) c).arrAt w cfg4.N
theorem E5_arr (c : Dev nD) (w : Fin cfg4.W) :
    E5 m c (Proc.devRef .tc (Pipeline.arrRef spec4 w)) = (dat4 (X4 m) c).arrAt w cfg4.N :=
  Pipeline.withArrays_arr spec4 launch4.win.arr_inj c _ _ w
abbrev X5 : (c : Dev nD) → (b : Ref sig .tc) → Buf (Elt F) ((c : Thread nD τ).loc b) := fun c b => E5 m c b

def E6 (c : Dev nD) : Valuation τ sig (Elt F) :=
  Pipeline.withArrays spec5 c (E5 m c) fun w => (dat5 (X5 m) c).arrAt w cfg5.N
theorem E6_arr (c : Dev nD) (w : Fin cfg5.W) :
    E6 m c (Proc.devRef .tc (Pipeline.arrRef spec5 w)) = (dat5 (X5 m) c).arrAt w cfg5.N :=
  Pipeline.withArrays_arr spec5 launch5.win.arr_inj c _ _ w
abbrev X6 : (c : Dev nD) → (b : Ref sig .tc) → Buf (Elt F) ((c : Thread nD τ).loc b) := fun c b => E6 m c b

def E7 (c : Dev nD) : Valuation τ sig (Elt F) :=
  Pipeline.withArrays spec6 c (E6 m c) fun w => (dat6 (X6 m) c).arrAt w cfg6.N
theorem E7_arr (c : Dev nD) (w : Fin cfg6.W) :
    E7 m c (Proc.devRef .tc (Pipeline.arrRef spec6 w)) = (dat6 (X6 m) c).arrAt w cfg6.N :=
  Pipeline.withArrays_arr spec6 launch6.win.arr_inj c _ _ w
abbrev X7 : (c : Dev nD) → (b : Ref sig .tc) → Buf (Elt F) ((c : Thread nD τ).loc b) := fun c b => E7 m c b

end Cert.Kernel.Fr

end
-- ==== Proof.FrameBits.Segs.lean ====
import proofs.«405878_j81363860455818_1_alg».proof.Proof.FrameBits.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev adm : (p : Fin 7) → (pcfgs (F := F) p).Adm := fun p => (cfgs p).toPCfg_adm

def pdats : (p : Fin 7) → (c : Dev nD) → Dat τ (Elt F) Unit ℕ UU ℕ (Pipeline.pin (pcfgs (F := F)) adm p) c
  | ⟨0, _⟩ => fun c => dat0 m c
  | ⟨1, _⟩ => fun c => dat1 (X1 m) c
  | ⟨2, _⟩ => fun c => dat2 (X2 m) c
  | ⟨3, _⟩ => fun c => dat3 (X3 m) c
  | ⟨4, _⟩ => fun c => dat4 (X4 m) c
  | ⟨5, _⟩ => fun c => dat5 (X5 m) c
  | ⟨6, _⟩ => fun c => dat6 (X6 m) c

set_option backward.isDefEq.respectTransparency.types false

-- One launch as a segment of the run: from all the unscoped buffers at `E` to the same with its windows' arrays at their final contents.
def regOf (p : Fin 7) (l : Pipeline.LaunchFacts (nD := nD) (τ := τ) cfgs p)
    (hbody : ∀ c, Pipeline.BodyObligationLoose (pdats m p c) defs₀ 𝒱₀ () Set.univ) (E : Dev nD → Valuation τ sig (Elt F))
    (hin : ∀ c, Pipeline.scopedRest (Ix := Unit) (Name := ℕ) (U := UU) (Lvl := ℕ) (Val := Elt F) (cfgs p).spec c ⊢ (pdats m p c).Φ 0
      := by exact fun _ => .rfl)
    (hout : ∀ c, (pdats m p c).Φ (Fin.last _) ⊢ Pipeline.scopedRest (Ix := Unit) (Name := ℕ) (U := UU) (Lvl := ℕ) (Val := Elt F) (cfgs p).spec c
      := by exact fun _ => .rfl)
    (howed : ∀ c t, (pdats m p c).owed t = 0 := by exact fun _ _ => rfl)
    (hrec : ∀ c x, x ∈ (pdats m p c).recorded 0 := by exact fun _ _ => trivial)
    (hq : ∀ c w, (pdats m p c).q w = fullShare := by exact fun _ _ => rfl)
    (hA : ∀ c w, (pdats m p c).A w = E c (Proc.devRef .tc (Pipeline.arrRef (cfgs p).spec w)) := by exact fun _ _ => rfl) :
    Pipeline.RegionSeg (pcfgs (F := F)) adm (pdats m) () defs₀ 𝒱₀ L lv p where
  win := l.win.to₀
  block_pos := l.block_pos
  stage_whole := l.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (E c) ∗ R c)
  post c := iprop(StableHlo.held (c : Thread nD τ) (Pipeline.ucRefs τ sig)
    (Pipeline.withArrays (cfgs p).spec c (E c) fun w => (pdats m p c).arrAt w (cfgs p).N) ∗ R c)
  X _ := iprop(emp)
  Y _ := iprop(emp)
  Z c := Pipeline.unscopedRest (Ix := Unit) (Name := ℕ) (U := UU) (Lvl := ℕ) (cfgs p).spec c fun b => E c b
  hentry c := by
    rw [Pipeline.ownSems0_none]
    have hsplit := Pipeline.arrays_of_unscopedBufs (p := p) (pcfgs (F := F)) adm (pdats m) l.win l.arr_whole c
      ((pdats m p c).share_full (hq c)) (fun b => E c b) (hA c)
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitr; · iempintro
    iexact Hrest
  hin c := by iintro ⟨-, -, Hr⟩; iapply (hin c); iexact Hr
  hout c := by
    rw [Pipeline.ownSems0_none]
    iintro H
    isplitr; · iempintro
    isplitr; · iempintro
    iapply (hout c); iexact H
  hexit c := by
    have hjoin := Pipeline.unscopedBufs_of_arrays (p := p) (pcfgs (F := F)) adm (Ix := Unit) (Name := ℕ) (U := UU) (Lvl := ℕ)
      l.win l.arr_whole c (pdats m) ((pdats m p c).share_full (hq c)) (fun b => E c b)
      (fun b => Pipeline.withArrays (cfgs p).spec c (E c) (fun w => (pdats m p c).arrAt w (cfgs p).N) b) ((pdats m p c).arrAt · (cfgs p).N)
      (fun w => (Pipeline.withArrays_arr (cfgs p).spec l.win.arr_inj c (E c) (fun w => (pdats m p c).arrAt w (cfgs p).N) w).symm)
      fun b hb => Pipeline.withArrays_of_ne (cfgs p).spec c (E c) _ b fun w e => hb (Finset.mem_image.mpr ⟨w, Finset.mem_univ _, e⟩)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    rw [howed c]
    icases HO with ⟨%W, -, HO⟩; iexists W; iexact HO

def reg0 := regOf m 0 launch0 (fun c => (body_obligation0 m c).loose) (E0 m)
def reg1 := regOf m 1 launch1 (fun c => (body_obligation1 (X1 m) c).loose) (E1 m) (Φ1_in (X1 m)) (Φ1_out (X1 m))
def reg2 := regOf m 2 launch2 (fun c => (body_obligation2 (X2 m) c).loose) (E2 m)
def reg3 := regOf m 3 launch3 (fun c => (body_obligation3 (X3 m) c).loose) (E3 m) (Φ3_in (X3 m)) (Φ3_out (X3 m))
def reg4 := regOf m 4 launch4 (fun c => (body_obligation4 (X4 m) c).loose) (E4 m)
def reg5 := regOf m 5 launch5 (fun c => (body_obligation5 (X5 m) c).loose) (E5 m)
def reg6 := regOf m 6 launch6 (fun c => (body_obligation6 (X6 m) c).loose) (E6 m)

end Cert.Kernel.Fr

end
-- ==== Proof.FrameBits.Args.lean ====
import proofs.«405878_j81363860455818_1_alg».proof.Proof.FrameBits.Base
import Idealize.ShloMosaic.Lib.StableHlo.Run

noncomputable section

namespace Cert.Kernel.Fr

open Cert.Kernel Cert.Kernel.Gen
open Idealize.ShloMosaic Idealize.ShloMosaic.TcCoe
open Idealize.SL.Sem

variable {F : FTy → Type} [FloatOps F]

-- The references each stretch of host operations writes, in the order of its operations.
def written0 : List (Ref sig .tc) :=
  [
    main_v0, main_v1, main_v2, main_v3, main_cst, main_v4, main_c, main_v5, main_v6, main_c_0,
    main_v7, main_v8, main_v9, main_v10, main_cst_1, main_v11, main_v12, main_cst_2, main_v13, main_v14,
    main_v15, main_c_3, main_v16, main_v17, main_c_4, main_v18, main_v19, main_v20, main_v21, main_v22,
    main_c_5, main_v23, main_v24, main_c_6, main_v25, main_v26, main_v27, main_v28, main_v29, main_v30,
    main_cst_7, main_v31, main_c_8, main_v32, main_v33, main_c_9, main_v34, main_v35, main_v36, main_c_10,
    main_v37, main_v38, main_c_11, main_v39, main_v40, main_v41, main_v42, main_v43, main_v44, main_v45,
    main_v46, main_v47, main_c_12, main_v48, main_v49, main_c_13, main_v50, main_v51, main_v52, main_c_14,
    main_v53, main_v54, main_c_15, main_v55, main_v56, main_v57, main_v58, main_v59, main_v60, main_v61,
    main_v62, main_c_16 ]

def written1 : List (Ref sig .tc) := [main_call0_v0, main_v63]
def written2 : List (Ref sig .tc) := [main_v64, main_c_17]
def written3 : List (Ref sig .tc) := [main_call1_v0, main_v65]
def written4 : List (Ref sig .tc) :=
  [
    main_v66, main_v67, main_v68, main_v69, main_v70, main_v71, main_v72, main_v73, main_v74, main_v75,
    main_v76, main_v77, main_v78, main_v79, main_cst_18, main_v80, main_v81, main_v82, main_v83, main_v84,
    main_v85 ]

theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

variable (m : (ℓ : Loc nD τ sig) → Buf (Elt F) ℓ)

-- An operation writes its result only, so a reference off a stretch's list keeps its contents across the stretch.
theorem V1_keep (c : Dev nD) (r : Ref sig .tc) (h : r ∉ written0) : V₁ m c (Proc.devRef .tc r) = V₀ m c (Proc.devRef .tc r) :=
  StableHlo.after_of_writes_sub hostOps0 (V₀ m c) (by (repeat' apply And.intro) <;> exact single_sub (by decide)) h
theorem V2_keep (c : Dev nD) (r : Ref sig .tc) (h : r ∉ written1) : V₂ m c (Proc.devRef .tc r) = V₁ m c (Proc.devRef .tc r) :=
  StableHlo.after_of_writes_sub hostOps0_1 (V₁ m c) (by (repeat' apply And.intro) <;> exact single_sub (by decide)) h
theorem V3_keep (c : Dev nD) (r : Ref sig .tc) (h : r ∉ written2) : V₃ m c (Proc.devRef .tc r) = V₂ m c (Proc.devRef .tc r) :=
  StableHlo.after_of_writes_sub hostOps0_2 (V₂ m c) (by (repeat' apply And.intro) <;> exact single_sub (by decide)) h
theorem V4_keep (c : Dev nD) (r : Ref sig .tc) (h : r ∉ written3) : V₄ m c (Proc.devRef .tc r) = V₃ m c (Proc.devRef .tc r) :=
  StableHlo.after_of_writes_sub hostOps0_3 (V₃ m c) (by (repeat' apply And.intro) <;> exact single_sub (by decide)) h
theorem V5_keep (c : Dev nD) (r : Ref sig .tc) (h : r ∉ written4) : V₅ m c (Proc.devRef .tc r) = V₄ m c (Proc.devRef .tc r) :=
  StableHlo.after_of_writes_sub hostOps0_4 (V₄ m c) (by (repeat' apply And.intro) <;> exact single_sub (by decide)) h

theorem V1_of_not_written (c : Dev nD) (r : Ref sig .tc) (h0 : r ∉ written0) :
    V₁ m c (Proc.devRef .tc r) = m ((c : Thread nD τ).loc r) :=
  V1_keep m c r h0
theorem V3_of_not_written (c : Dev nD) (r : Ref sig .tc) (h0 : r ∉ written0) (h1 : r ∉ written1) (h2 : r ∉ written2) :
    V₃ m c (Proc.devRef .tc r) = m ((c : Thread nD τ).loc r) :=
  (V3_keep m c r h2).trans ((V2_keep m c r h1).trans (V1_keep m c r h0))
theorem V4_of_not_written (c : Dev nD) (r : Ref sig .tc) (h0 : r ∉ written0) (h1 : r ∉ written1) (h2 : r ∉ written2)
    (h3 : r ∉ written3) : V₄ m c (Proc.devRef .tc r) = m ((c : Thread nD τ).loc r) :=
  (V4_keep m c r h3).trans (V3_of_not_written m c r h0 h1 h2)

end Cert.Kernel.Fr
-- ==== Proof.FrameBits.Run.lean ====
import proofs.«405878_j81363860455818_1_alg».proof.Proof.FrameBits.Segs
import proofs.«405878_j81363860455818_1_alg».proof.Proof.FrameBits.Args

noncomputable section

namespace Cert.Kernel.Fr

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

-- A stretch of host operations as a segment over all the unscoped references, from the contents `W`.
abbrev hseg (ops : List (HloOp τ sig (Elt F))) (hsub : ops.Forall fun op => op.bufs ⊆ StableHlo.tcRefs τ sig)
    (W : Dev nD → Valuation τ sig (Elt F)) (hfresh : ops.Forall fun op => op.fresh = ∅ := by (repeat' apply And.intro) <;> rfl) :
    Pipeline.HostSeg (Name := ℕ) (U := UU) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

-- The contents after the closing slice of the last launch's result.
abbrev E8 (c : Dev nD) : Valuation τ sig (Elt F) := StableHlo.after hostOps7 (E7 m c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- @main's thirteen segments in order.
abbrev segs : List (Pipeline.Seg (pcfgs (F := F)) adm (pdats m) () defs₀ 𝒱₀ L lv) :=
  [ .host (hseg hostOps0 hostOps0_sub (V₀ m)),
    .host (hseg hostOps0_1 hostOps0_1_sub (V₁ m)),
    .host (hseg hostOps0_2 hostOps0_2_sub (V₂ m)),
    .host (hseg hostOps0_3 hostOps0_3_sub (V₃ m)),
    .host (hseg hostOps0_4 hostOps0_4_sub (V₄ m)),
    .region (reg0 m), .region (reg1 m), .region (reg2 m), .region (reg3 m), .region (reg4 m), .region (reg5 m), .region (reg6 m),
    .host (hseg hostOps7 hostOps7_sub (E7 m)) ]

theorem main_run (c : Dev nD) : main (F := F) c = Pipeline.Seg.run (segs m) := (main_chain c).trans (by chain_rfl)

abbrev Tₙ (c : Dev nD) : sProp 𝕄 := StableHlo.held (c : Thread nD τ) (Pipeline.ucRefs τ sig) (E8 m c)

-- Every weakly fair execution from zero counters ends without a fault, each unscoped buffer at the contents after the closing slice.
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = E8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = E8 m c b)
    (hfin := fun c s' => by
      iintro ⟨Hh, HSI⟩
      unfold Tₙ StableHlo.held
      imodintro
      iapply (pointsTo_read_all (Pipeline.ucRefs τ sig) (fun b => (((c : Thread nD τ)).1, b)) (E8 m c) s')
      isplitl [Hh] <;> iassumption)
    (hQ := fun s h c => h c)

end Cert.Kernel.Fr

end
-- ==== Proof.FrameBits.Keep.lean ====
import proofs.«405878_j81363860455818_1_alg».proof.Proof.FrameBits.Vals
import Idealize.ShloMosaic.Lib.Pipeline.Cells

noncomputable section

namespace Cert.Kernel.Fr

open Cert.Kernel Cert.Kernel.Gen
open Idealize.ShloMosaic Idealize.ShloMosaic.TcCoe
open Idealize.SL.Sem

variable {F : FTy → Type} [FloatOps F]

variable (m : (ℓ : Loc nD τ sig) → Buf (Elt F) ℓ)

-- A launch writes its output window's array only: every buffer but that array ends as it was entered.
theorem keep_of {cfg : Pipeline.Cfg sig Λ₀} {c : Dev nD} (dat : Pipeline.Dat τ (Elt F) Unit ℕ UU ℕ cfg c)
    (hinj : Function.Injective (Pipeline.arrRef cfg.spec)) {V : Valuation τ sig (Elt F)}
    (hA : ∀ w, dat.A w = V (Proc.devRef .tc (Pipeline.arrRef cfg.spec w))) {b out : Ref sig .tc} (hb : b ≠ out)
    (hin : ∀ w, Pipeline.arrRef cfg.spec w ≠ out → (cfg.win w).isOut = false) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [Pipeline.withArrays_arr _ hinj, dat.arrAt_in w (hin w hb), hA]
  · exact Pipeline.withArrays_of_ne _ c V _ b fun w e => h ⟨w, e⟩

theorem E1_keep (c : Dev nD) (b : Ref sig .tc) (hb : b ≠ main_v86) :
    E1 m c (Proc.devRef .tc b) = E0 m c (Proc.devRef .tc b) :=
  keep_of (dat0 m c) launch0.win.arr_inj (A0_eq m c) hb (by decide)
theorem E2_keep (c : Dev nD) (b : Ref sig .tc) (hb : b ≠ main_v87) :
    E2 m c (Proc.devRef .tc b) = E1 m c (Proc.devRef .tc b) :=
  keep_of (dat1 (X1 m) c) launch1.win.arr_inj (A1_eq (X1 m) c) hb (by decide)
theorem E3_keep (c : Dev nD) (b : Ref sig .tc) (hb : b ≠ main_v88) :
    E3 m c (Proc.devRef .tc b) = E2 m c (Proc.devRef .tc b) :=
  keep_of (dat2 (X2 m) c) launch2.win.arr_inj (A2_eq (X2 m) c) hb (by decide)
theorem E4_keep (c : Dev nD) (b : Ref sig .tc) (hb : b ≠ main_v89) :
    E4 m c (Proc.devRef .tc b) = E3 m c (Proc.devRef .tc b) :=
  keep_of (dat3 (X3 m) c) launch3.win.arr_inj (A3_eq (X3 m) c) hb (by decide)
theorem E5_keep (c : Dev nD) (b : Ref sig .tc) (hb : b ≠ main_v90) :
    E5 m c (Proc.devRef .tc b) = E4 m c (Proc.devRef .tc b) :=
  keep_of (dat4 (X4 m) c) launch4.win.arr_inj (A4_eq (X4 m) c) hb (by decide)
theorem E6_keep (c : Dev nD) (b : Ref sig .tc) (hb : b ≠ main_v91) :
    E6 m c (Proc.devRef .tc b) = E5 m c (Proc.devRef .tc b) :=
  keep_of (dat5 (X5 m) c) launch5.win.arr_inj (A5_eq (X5 m) c) hb (by decide)
theorem E7_keep (c : Dev nD) (b : Ref sig .tc) (hb : b ≠ main_v92) :
    E7 m c (Proc.devRef .tc b) = E6 m c (Proc.devRef .tc b) :=
  keep_of (dat6 (X6 m) c) launch6.win.arr_inj (A6_eq (X6 m) c) hb (by decide)

end Cert.Kernel.Fr

end
-- ==== Proof.FrameBits.Frame.lean ====
import proofs.«405878_j81363860455818_1_alg».proof.Proof.FrameBits.Run
import proofs.«405878_j81363860455818_1_alg».proof.Proof.FrameBits.Keep

noncomputable section

namespace Cert.Kernel.Fr

open Cert.Kernel Cert.Kernel.Gen
open Idealize.ShloMosaic Idealize.ShloMosaic.TcCoe
open Idealize.SL.Sem

variable {F : FTy → Type} [FloatOps F]

variable (m : (ℓ : Loc nD τ sig) → Buf (Elt F) ℓ) (ρ : Dev nD → PrngReg)

-- The closing slice writes the result only.
theorem slice_keep (c : Dev nD) (b : Ref sig .tc) (hb : b ≠ main_v93) :
    E8 m c (Proc.devRef .tc b) = E7 m c (Proc.devRef .tc b) :=
  StableHlo.after_of_writes_sub (W := [main_v93]) hostOps7 (E7 m c) (single_sub (by decide)) fun h => hb (List.mem_singleton.mp h)

-- An unscoped reference on no stretch's list, no launch's output array and not the result, ends as launched.
theorem arg_end (c : Dev nD) {M : (ℓ : Loc nD τ sig) → Buf (Elt F) ℓ}
    (hM : ∀ b ∈ Pipeline.ucRefs τ sig, M (((c : Thread nD τ)).1, b) = E8 m c b) (b : Ref sig .tc)
    (h : ¬ (Proc.devRef .tc b : DevRef τ sig).isScoped ∧ b ∉ written0 ∧ b ∉ written1 ∧ b ∉ written2 ∧ b ∉ written3 ∧ b ∉ written4
      ∧ b ≠ main_v86 ∧ b ≠ main_v87 ∧ b ≠ main_v88 ∧ b ≠ main_v89 ∧ b ≠ main_v90 ∧ b ≠ main_v91 ∧ b ≠ main_v92 ∧ b ≠ main_v93) :
    M ((c : Thread nD τ).loc b) = m ((c : Thread nD τ).loc b) := by
  obtain ⟨hu, h0, h1, h2, h3, h4, o0, o1, o2, o3, o4, o5, o6, o7⟩ := h
  refine (hM _ (mem_uc b hu)).trans ?_
  rw [slice_keep m c b o7, E7_keep m c b o6, E6_keep m c b o5, E5_keep m c b o4, E4_keep m c b o3, E3_keep m c b o2,
    E2_keep m c b o1, E1_keep m c b o0]
  exact (V5_keep m c b h4).trans (V4_of_not_written m c b h0 h1 h2 h3)

-- The run, read at the result and at the thirteen arguments.
theorem run_result : θ_run defs (onTc (τ := τ) (main (F := F))) ⟨m, fun _ => 0, ρ⟩ (fun r => ∀ c : Dev nD,
      r.2.mem ((c.tc : Thread nD τ).loc main_v93) = E8 m c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have A := arg_end m c (h c)
    ⟨h c _ (mem_uc main_v93 (by decide)),
     A main_arg0 (by decide), A main_arg1 (by decide), A main_arg2 (by decide), A main_arg3 (by decide), A main_arg4 (by decide),
     A main_arg5 (by decide), A main_arg6 (by decide), A main_arg7 (by decide), A main_arg8 (by decide), A main_arg9 (by decide),
     A main_arg10 (by decide), A main_arg11 (by decide), A main_arg12 (by decide)⟩) (run_all m ρ)

-- The frame: the run terminates without a fault and the thirteen arguments end as launched.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => (h c).2) (run_result m ρ)

end Cert.Kernel.Fr

end
-- ==== Proof.GateAlgebra.lean ====
import Mathlib.Data.EReal.Basic
import Mathlib.Algebra.BigOperators.Fin
import Mathlib.Algebra.BigOperators.Group.Finset.Basic
import Mathlib.Logic.Equiv.Fin.Basic
import Idealize.ShloMosaic.PureOps.Ideal
import Idealize.ShloMosaic.Lib.ValueIdx
import Idealize.ShloMosaic.Lib.ValueLayout
import Idealize.ShloMosaic.Lib.KernelVsHost

noncomputable section

open scoped BigOperators

namespace Cert.GateAlgebra

open Idealize.ShloMosaic Idealize.ShloMosaic.ValueIdx

theorem block_lt {b s : ℕ} (q : Fin b) (r : Fin s) : q.val * s + r.val < b * s :=
  calc q.val * s + r.val < q.val * s + s := Nat.add_lt_add_left r.isLt _
    _ = (q.val + 1) * s := (Nat.succ_mul _ _).symm
    _ ≤ b * s := Nat.mul_le_mul_right _ q.isLt

-- the indices below b * s are the pairs (block, entry in the block)
theorem sum_blocks (b s : ℕ) (f : Fin (b * s) → EReal) :
    ∑ j : Fin (b * s), f j = ∑ q : Fin b, ∑ r : Fin s, f ⟨q.val * s + r.val, by nlinarith [q.isLt, r.isLt]⟩ := by
  rw [← Equiv.sum_comp (finProdFinEquiv (m := b) (n := s)) f, Fintype.sum_prod_type]
  refine Finset.sum_congr rfl fun q _ => Finset.sum_congr rfl fun r _ => ?_
  exact congrArg f (Fin.ext (by
    show r.val + s * q.val = q.val * s + r.val
    rw [Nat.mul_comm, Nat.add_comm]))

variable {α : Type}

-- rows added below a matrix: a row of the matrix reads the matrix, an added row the padding value
theorem pad_10000_10240_apply {c : Nat} (x : (⟨2, ![10000, c]⟩ : Shape).Idx → α) {u : Shape} (v : u.Idx → α)
    (h : (⟨2, ![10000, c]⟩ : Shape).Pads (![0, 0] : Fin 2 → Nat) ![240, 0] ![0, 0] ⟨2, ![10240, c]⟩) (hu : 0 < u.numel)
    (i : Fin 10240) (j : Fin c) :
    pad ⟨2, ![10240, c]⟩ ![0, 0] ![240, 0] ![0, 0] x v h hu (ix2 i j)
      = if hi : i.val < 10000 then x (ix2 ⟨i.val, hi⟩ j) else v (Shape.Idx.first hu) := by
  split
  · rename_i hi
    exact pad_apply_of_inside _ _ _ x v h hu _ (ix2 ⟨i.val, hi⟩ j) fun a => by
      match a with
      | ⟨0, _⟩ => show i.val = 0 + i.val * (0 + 1); omega
      | ⟨1, _⟩ => show j.val = 0 + j.val * (0 + 1); omega
  · rename_i hi
    exact pad_apply_of_not_inside _ _ _ x v h hu _ (0 : Fin 2) fun hin => hi (by
      have h0 : (i.val - 0) / (0 + 1) < 10000 := hin.2.2
      simpa using h0)

theorem slice_10240_10000_apply (X : (⟨2, ![10240, 256]⟩ : Shape).Idx → α)
    (h : (⟨2, ![10240, 256]⟩ : Shape).Slices ![0, 0] ⟨2, ![10000, 256]⟩) (i : Fin 10000) (j : Fin 256) :
    extractStridedSlice ⟨2, ![10000, 256]⟩ ![0, 0] X h (ix2 i j) = X (ix2 ⟨i.val, by omega⟩ j) :=
  slice2_axis0_apply 0 X h i j _ (Nat.zero_add _).symm

theorem slice_512_top_apply (X : (⟨2, ![512, 256]⟩ : Shape).Idx → α)
    (h : (⟨2, ![512, 256]⟩ : Shape).Slices ![0, 0] ⟨2, ![256, 256]⟩) (k : Fin 256) (c : Fin 256) :
    extractStridedSlice ⟨2, ![256, 256]⟩ ![0, 0] X h (ix2 k c) = X (ix2 ⟨k.val, by omega⟩ c) :=
  slice2_axis0_apply 0 X h k c _ (Nat.zero_add _).symm

theorem slice_512_bottom_apply (X : (⟨2, ![512, 256]⟩ : Shape).Idx → α)
    (h : (⟨2, ![512, 256]⟩ : Shape).Slices ![256, 0] ⟨2, ![256, 256]⟩) (k : Fin 256) (c : Fin 256) :
    extractStridedSlice ⟨2, ![256, 256]⟩ ![256, 0] X h (ix2 k c) = X (ix2 ⟨k.val + 256, by omega⟩ c) :=
  slice2_axis0_apply 256 X h k c _ (Nat.add_comm _ _)

end Cert.GateAlgebra
-- ==== Proof.LibPlainMatmul.lean ====
import Idealize.ShloMosaic.Lib.StackMember

noncomputable section

open scoped BigOperators
open Idealize.ShloMosaic Idealize.ShloMosaic.ValueIdx

namespace Cert.LibPlainMatmul

-- With a zero accumulator the product's entry at (p, o) is the sum over the contracted coordinate.
theorem matmul_zero_apply {M K N : ℕ} {φ₁ φ₂ : FTy} (prec : Option ContractPrecision)
    (A : FVec Ideal ⟨2, ![M, K]⟩ φ₁) (B : FVec Ideal ⟨2, ![K, N]⟩ φ₂) (p : Fin M) (o : Fin N) :
    matmul (DotDims.plain M K N) prec A B (constant (F := Ideal) ⟨2, ![M, N]⟩ .f32 0x00000000#32) (ix2 p o)
      = ∑ k : Fin K, A (ix2 p k) * B (ix2 k o) := by
  rw [matmul_zero_eq_dotGeneral]
  exact StackMember.dotGeneral_plain_apply prec A B p o

end Cert.LibPlainMatmul

end
-- ==== Proof.Payloads.lean ====
import proofs.«405878_j81363860455818_1_alg».proof.Proof.Gen.KernelIdeal.Skeleton
import proofs.«405878_j81363860455818_1_alg».proof.Proof.LibPlainMatmul
import Idealize.ShloMosaic.PureOps.IdealRules
import Idealize.ShloMosaic.Lib.ValueLayout

noncomputable section

open scoped BigOperators
open Idealize.ShloMosaic Idealize.ShloMosaic.ValueIdx Idealize.SL.Sem

namespace Cert.KernelIdeal.Payloads

open Cert.KernelIdeal Cert.KernelIdeal.Gen

-- The three dimension records are the plain one at their extents.
theorem matmul128_apply {φ₁ φ₂ : FTy} (A : FVec Ideal S2048x128 φ₁) (B : FVec Ideal S128x256 φ₂) (p : Fin 2048) (o : Fin 256) :
    matmul dot_S2048x128_S128x256_S2048x256_1_0_0_1_n_n none A B (constant (F := Ideal) S2048x256 .f32 0x00000000#32) (ix2 p o)
      = ∑ k : Fin 128, A (ix2 p k) * B (ix2 k o) :=
  Cert.LibPlainMatmul.matmul_zero_apply none A B p o
theorem matmul2048_apply {φ₁ φ₂ : FTy} (A : FVec Ideal S2048x2048 φ₁) (B : FVec Ideal S2048x256 φ₂) (p : Fin 2048) (o : Fin 256) :
    matmul dot_S2048x2048_S2048x256_S2048x256_1_0_0_1_n_n none A B (constant (F := Ideal) S2048x256 .f32 0x00000000#32) (ix2 p o)
      = ∑ k : Fin 2048, A (ix2 p k) * B (ix2 k o) :=
  Cert.LibPlainMatmul.matmul_zero_apply none A B p o
theorem matmul256_apply {φ₁ φ₂ : FTy} (A : FVec Ideal S2048x256 φ₁) (B : FVec Ideal S256x256 φ₂) (p : Fin 2048) (o : Fin 256) :
    matmul dot_S2048x256_S256x256_S2048x256_1_0_0_1_n_n none A B (constant (F := Ideal) S2048x256 .f32 0x00000000#32) (ix2 p o)
      = ∑ k : Fin 256, A (ix2 p k) * B (ix2 k o) :=
  Cert.LibPlainMatmul.matmul_zero_apply none A B p o

theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl
theorem ofBits_one_f32 : Ideal.ofBits .f32 0x3F800000#32 = 1 := IdealRules.sign_bit.ideal_onePat .f32

-- A projection: x · w + b, the bias row read at every row.
theorem k0_pay1_apply (x : Vec Ideal S2048x128 .bf16) (w : Vec Ideal S128x256 .bf16) (b : Vec Ideal S1x256 .f32)
    (p : Fin 2048) (o : Fin 256) :
    Gen.k0_pay1 (F := Ideal) x w b (ix2 p o)
      = (∑ k : Fin 128, x (ix2 p k) * w (ix2 k o)) + b (ix2 (0 : Fin 1) o) := by
  unfold Gen.k0_pay1
  simp only [shapeCast_self]
  rw [truncf_apply, addf_apply, matmul128_apply, broadcastTo_1b_ab_apply]

theorem k2_pay1_apply (x : Vec Ideal S2048x256 .bf16) (w : Vec Ideal S256x256 .bf16) (b : Vec Ideal S1x256 .f32)
    (p : Fin 2048) (o : Fin 256) :
    Gen.k2_pay1 (F := Ideal) x w b (ix2 p o)
      = (∑ k : Fin 256, x (ix2 p k) * w (ix2 k o)) + b (ix2 (0 : Fin 1) o) := by
  unfold Gen.k2_pay1
  simp only [shapeCast_self]
  rw [truncf_apply, addf_apply, matmul256_apply, broadcastTo_1b_ab_apply]

-- An aggregation's accumulator starts at zero,
theorem k1_pay1_apply (p : Fin 2048) (o : Fin 256) :
    Gen.k1_pay1 (F := Ideal) (ix2 p o) = 0 := by
  unfold Gen.k1_pay1
  simp only [shapeCast_self]
  exact Ideal.ofBits_zero_f32

-- each step adds the block's product A · P,
theorem k1_pay2_apply (acc : Vec Ideal S2048x256 .f32) (A : Vec Ideal S2048x2048 .bf16) (P : Vec Ideal S2048x256 .bf16)
    (p : Fin 2048) (o : Fin 256) :
    Gen.k1_pay2 (F := Ideal) acc A P (ix2 p o)
      = acc (ix2 p o) + ∑ k : Fin 2048, A (ix2 p k) * P (ix2 k o) := by
  unfold Gen.k1_pay2
  simp only [shapeCast_self]
  rw [addf_apply, matmul2048_apply]

-- and the result is the accumulator plus the bias row, cut off below at zero in the first layer
theorem k1_pay3_apply (acc : Vec Ideal S2048x256 .f32) (b : Vec Ideal S1x256 .f32) (p : Fin 2048) (o : Fin 256) :
    Gen.k1_pay3 (F := Ideal) acc b (ix2 p o) = max (acc (ix2 p o) + b (ix2 (0 : Fin 1) o)) 0 := by
  unfold Gen.k1_pay3
  simp only [shapeCast_self]
  rw [truncf_apply, maximumf_apply, addf_apply, broadcastTo_1b_ab_apply, broadcast_apply]
  exact congrArg (max _) Ideal.ofBits_zero_f32

theorem k3_pay1_apply (p : Fin 2048) (o : Fin 256) : Gen.k3_pay1 (F := Ideal) (ix2 p o) = 0 := k1_pay1_apply p o

theorem k3_pay2_apply (acc : Vec Ideal S2048x256 .f32) (A : Vec Ideal S2048x2048 .bf16) (P : Vec Ideal S2048x256 .bf16)
    (p : Fin 2048) (o : Fin 256) :
    Gen.k3_pay2 (F := Ideal) acc A P (ix2 p o)
      = acc (ix2 p o) + ∑ k : Fin 2048, A (ix2 p k) * P (ix2 k o) := k1_pay2_apply acc A P p o

-- and under the hyperbolic tangent in the second.
theorem k3_pay3_apply (acc : Vec Ideal S2048x256 .f32) (b : Vec Ideal S1x256 .f32) (p : Fin 2048) (o : Fin 256) :
    Gen.k3_pay3 (F := Ideal) acc b (ix2 p o) = Ideal.tanh (acc (ix2 p o) + b (ix2 (0 : Fin 1) o)) := by
  unfold Gen.k3_pay3
  simp only [shapeCast_self]
  rw [truncf_apply, tanh_apply, addf_apply, broadcastTo_1b_ab_apply]

-- A gate: the logistic function of z · w1 + h · w2 + b.
theorem k4_pay1_apply (z : Vec Ideal S2048x256 .bf16) (w1 : Vec Ideal S256x256 .bf16) (h : Vec Ideal S2048x256 .f32)
    (w2 : Vec Ideal S256x256 .bf16) (b : Vec Ideal S1x256 .f32) (p : Fin 2048) (o : Fin 256) :
    Gen.k4_pay1 (F := Ideal) z w1 h w2 b (ix2 p o)
      = Ideal.logistic ((∑ k : Fin 256, z (ix2 p k) * w1 (ix2 k o)) + (∑ k : Fin 256, h (ix2 p k) * w2 (ix2 k o))
          + b (ix2 (0 : Fin 1) o)) := by
  unfold Gen.k4_pay1
  simp only [shapeCast_self]
  rw [logistic_apply, addf_apply, addf_apply, matmul256_apply, matmul256_apply, broadcastTo_1b_ab_apply]
  simp only [truncf_apply]

theorem k5_pay1_apply (z : Vec Ideal S2048x256 .bf16) (w1 : Vec Ideal S256x256 .bf16) (h : Vec Ideal S2048x256 .f32)
    (w2 : Vec Ideal S256x256 .bf16) (b : Vec Ideal S1x256 .f32) (p : Fin 2048) (o : Fin 256) :
    Gen.k5_pay1 (F := Ideal) z w1 h w2 b (ix2 p o)
      = Ideal.logistic ((∑ k : Fin 256, z (ix2 p k) * w1 (ix2 k o)) + (∑ k : Fin 256, h (ix2 p k) * w2 (ix2 k o))
          + b (ix2 (0 : Fin 1) o)) := k4_pay1_apply z w1 h w2 b p o

-- The update: u * h' + (1 - u) * tanh (z · wt + (r * h) · wb + b).
theorem k6_pay1_apply_one (z : Vec Ideal S2048x256 .bf16) (wt : Vec Ideal S256x256 .bf16) (r : Vec Ideal S2048x256 .f32)
    (h : Vec Ideal S2048x256 .f32) (wb : Vec Ideal S256x256 .bf16) (b : Vec Ideal S1x256 .f32)
    (u : Vec Ideal S2048x256 .f32) (h' : Vec Ideal S2048x256 .f32) (p : Fin 2048) (o : Fin 256) :
    Gen.k6_pay1 (F := Ideal) z wt r h wb b u h' (ix2 p o)
      = u (ix2 p o) * h' (ix2 p o)
        + (1 - u (ix2 p o))
          * Ideal.tanh ((∑ k : Fin 256, z (ix2 p k) * wt (ix2 k o))
              + (∑ k : Fin 256, (r (ix2 p k) * h (ix2 p k)) * wb (ix2 k o)) + b (ix2 (0 : Fin 1) o)) := by
  unfold Gen.k6_pay1
  simp only [shapeCast_self]
  rw [addf_apply, mulf_apply, mulf_apply, subf_apply, broadcast_apply, tanh_apply, addf_apply, addf_apply,
    matmul256_apply, matmul256_apply, broadcastTo_1b_ab_apply]
  simp only [truncf_apply, mulf_apply]
  rw [← ofBits_one_f32]
  rfl

end Cert.KernelIdeal.Payloads

namespace Cert.KernelIdeal.Val

theorem zero2 : (![0, 0] : Fin 2 → Nat) = fun _ => 0 := funext fun a => by fin_cases a <;> rfl

-- A block element's offset on an axis: equal block indices give equal offsets, a zero block index gives the coordinate.
theorem off_eq {a b q p : ℕ} (h : a = b) : a * q + 1 * p = b * q + 1 * p := h ▸ rfl
theorem off_zero {a q p : ℕ} (h : a = 0) : a * q + 1 * p = p := by rw [h, Nat.zero_mul, Nat.zero_add, Nat.one_mul]

end Cert.KernelIdeal.Val

end
-- ==== Proof.KStages.lean ====
import Idealize.ShloMosaic.PureOps.Ideal
import Idealize.ShloMosaic.Lib.ValueIdx

noncomputable section

open scoped BigOperators
open Idealize.ShloMosaic Idealize.ShloMosaic.ValueIdx

namespace Cert.KStages

abbrev Mat (r c : ℕ) : Type := (⟨2, ![r, c]⟩ : Shape).Idx → EReal

def proj {K : ℕ} (X : Mat 10240 K) (W : Mat K 256) (b : Mat 1 256) : Mat 10240 256 :=
  fun x => (∑ k : Fin K, X (ix2 (x 0 : Fin 10240) k) * W (ix2 k (x 1 : Fin 256))) + b (ix2 (0 : Fin 1) (x 1 : Fin 256))

def aggr (A : Mat 10240 10240) (P : Mat 10240 256) (b : Mat 1 256) : Mat 10240 256 :=
  fun x => (∑ j : Fin 10240, A (ix2 (x 0 : Fin 10240) j) * P (ix2 j (x 1 : Fin 256))) + b (ix2 (0 : Fin 1) (x 1 : Fin 256))

def hid (A : Mat 10240 10240) (P : Mat 10240 256) (b : Mat 1 256) : Mat 10240 256 := fun x => max (aggr A P b x) 0

def emb (A : Mat 10240 10240) (P : Mat 10240 256) (b : Mat 1 256) : Mat 10240 256 := fun x => Ideal.tanh (aggr A P b x)

def gatePre (Z : Mat 10240 256) (Wt : Mat 256 256) (H : Mat 10240 256) (Wb : Mat 256 256) (b : Mat 1 256) : Mat 10240 256 :=
  fun x => (∑ k : Fin 256, Z (ix2 (x 0 : Fin 10240) k) * Wt (ix2 k (x 1 : Fin 256)))
    + (∑ k : Fin 256, H (ix2 (x 0 : Fin 10240) k) * Wb (ix2 k (x 1 : Fin 256))) + b (ix2 (0 : Fin 1) (x 1 : Fin 256))

def gate (Z : Mat 10240 256) (Wt : Mat 256 256) (H : Mat 10240 256) (Wb : Mat 256 256) (b : Mat 1 256) : Mat 10240 256 :=
  fun x => Ideal.logistic (gatePre Z Wt H Wb b x)

def out (Z : Mat 10240 256) (Wt : Mat 256 256) (R H : Mat 10240 256) (Wb : Mat 256 256) (b : Mat 1 256) (U : Mat 10240 256) : Mat 10240 256 :=
  fun x => U x * H x + (1 - U x) * Ideal.tanh ((∑ k : Fin 256, Z (ix2 (x 0 : Fin 10240) k) * Wt (ix2 k (x 1 : Fin 256)))
    + (∑ k : Fin 256, (R (ix2 (x 0 : Fin 10240) k) * H (ix2 (x 0 : Fin 10240) k)) * Wb (ix2 k (x 1 : Fin 256))) + b (ix2 (0 : Fin 1) (x 1 : Fin 256)))

def kernel (A : Mat 10240 10240) (X : Mat 10240 128) (H : Mat 10240 256) (W1 : Mat 128 256) (W2 : Mat 256 256)
    (Wut Wub Wrt Wrb Wct Wcb : Mat 256 256) (z0 b1 b2 bu br bc : Mat 1 256) : Mat 10240 256 :=
  let P1 := proj X W1 z0
  let H1 := hid A P1 b1
  let P2 := proj H1 W2 z0
  let Z := emb A P2 b2
  let U := gate Z Wut H Wub bu
  let R := gate Z Wrt H Wrb br
  out Z Wct R H Wcb bc U

end Cert.KStages

end
-- ==== Proof.ValAcc.lean ====
import proofs.«405878_j81363860455818_1_alg».proof.Proof.Frame.Reg1
import proofs.«405878_j81363860455818_1_alg».proof.Proof.Frame.Reg3
import proofs.«405878_j81363860455818_1_alg».proof.Proof.GateAlgebra
import proofs.«405878_j81363860455818_1_alg».proof.Proof.Payloads
import proofs.«405878_j81363860455818_1_alg».proof.Proof.KStages

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

-- Block kb of the 10240 neighbours' share of a product's entry at row i and column o.
def blockDot (A : KStages.Mat 10240 10240) (P : KStages.Mat 10240 256)
    (i : Fin 10240) (o : Fin 256) (kb : Fin 5) : EReal :=
  ∑ r : Fin 2048, A (ix2 i (⟨kb.val * 2048 + r.val, Cert.GateAlgebra.block_lt kb r⟩ : Fin 10240))
    * P (ix2 (⟨kb.val * 2048 + r.val, Cert.GateAlgebra.block_lt kb r⟩ : Fin 10240) o)

-- The five shares, added in turn, make the sum over all neighbours.
theorem sum_blockDot (A : KStages.Mat 10240 10240) (P : KStages.Mat 10240 256)
    (i : Fin 10240) (o : Fin 256) :
    blockDot A P i o 0 + blockDot A P i o 1 + blockDot A P i o 2 + blockDot A P i o 3 + blockDot A P i o 4
      = ∑ j : Fin 10240, A (ix2 i j) * P (ix2 j o) := by
  refine Eq.trans ?_ (Cert.GateAlgebra.sum_blocks 5 2048 fun j : Fin 10240 => A (ix2 i j) * P (ix2 j o)).symm
  rw [Fin.sum_univ_five]
  rfl

-- A row of five points: the first sets the accumulator to its share, each later one adds its own, so the last leaves the sum of the five.
theorem row5 (f : ℕ → EReal) (d : Fin 5 → EReal) (n : ℕ) (h4 : n % 5 = 4)
    (h : ∀ (m : ℕ) (kb : Fin 5), kb.val = m % 5 → n - 4 ≤ m → m ≤ n → f (m + 1) = (if m % 5 = 0 then 0 else f m) + d kb) :
    f (n + 1) = d 0 + d 1 + d 2 + d 3 + d 4 := by
  have e4 := h n 4 (by show 4 = n % 5; omega) (by omega) (by omega)
  have e3 := h (n - 1) 3 (by show 3 = (n - 1) % 5; omega) (by omega) (by omega)
  have e2 := h (n - 2) 2 (by show 2 = (n - 2) % 5; omega) (by omega) (by omega)
  have e1 := h (n - 3) 1 (by show 1 = (n - 3) % 5; omega) (by omega) (by omega)
  have e0 := h (n - 4) 0 (by show 0 = (n - 4) % 5; omega) (by omega) (by omega)
  rw [if_neg (show ¬n % 5 = 0 by omega)] at e4
  rw [if_neg (show ¬(n - 1) % 5 = 0 by omega), show n - 1 + 1 = n by omega] at e3
  rw [if_neg (show ¬(n - 2) % 5 = 0 by omega), show n - 2 + 1 = n - 1 by omega] at e2
  rw [if_neg (show ¬(n - 3) % 5 = 0 by omega), show n - 3 + 1 = n - 2 by omega] at e1
  rw [if_pos (show (n - 4) % 5 = 0 by omega), zero_add, show n - 4 + 1 = n - 3 by omega] at e0
  rw [e4, e3, e2, e1, e0]

section Launch1

variable (W1 : (c : Dev nD) → (b : Ref sig .tc) → Buf (Elt Ideal) ((c : Thread nD τ).loc b))

abbrev adj1 (c : Dev nD) : KStages.Mat 10240 10240 := W1 c main_v62
abbrev feat1 (c : Dev nD) : KStages.Mat 10240 256 := W1 c main_v86
abbrev bias1 (c : Dev nD) : KStages.Mat 1 256 := W1 c main_v81

-- The block indices over the 5 × 5 grid: the matrix's block at point t is (t / 5, t % 5), the features' (t % 5, 0), the output's (t / 5, 0).
theorem idx1 : ∀ t : Fin cfg1.N,
    win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = 0 ∧ win1_2.index t (1 : Fin 2) = 0
    ∧ win1_3.index t (0 : Fin 2) = t.val / 5 ∧ win1_3.index t (1 : Fin 2) = 0 :=
  (by decide +kernel : ∀ t : Fin grid1.N, _)

-- The bias row's block is the bias row.
theorem iblk1_2_apply (c : Dev nD) (t : Fin cfg1.N) (o : Fin 256) :
    iblk1 (F := Ideal) W1 c 2 t (ix2 (0 : Fin 1) o) = bias1 W1 c (ix2 (0 : Fin 1) o) := by
  obtain ⟨-, -, -, -, e4, e5, -⟩ := idx1 t
  show W1 c main_v81 (((cfg1.win 2).blk t).view.emb (ix2 (0 : Fin 1) o)) = W1 c main_v81 (ix2 (0 : Fin 1) o)
  exact congrArg _ (Shape.idx_ext₂ (off_zero e4) (off_zero e5))

-- The product of point t's two blocks at (p, o) is block t % 5's share of row i = 2048 (t / 5) + p.
theorem dot1 (c : Dev nD) (t : Fin cfg1.N) (kb : Fin 5) (hk : kb.val = t.val % 5)
    (p : Fin 2048) (o : Fin 256) (i : Fin 10240) (hi : i.val = 2048 * (t.val / 5) + p.val)
    (Ab : Vec Ideal S2048x2048 .bf16) (Pb : Vec Ideal S2048x256 .bf16)
    (hA : Ab = iblk1 (F := Ideal) W1 c 0 t) (hP : Pb = iblk1 (F := Ideal) W1 c 1 t) :
    (∑ k : Fin 2048, Ab (ix2 p k) * Pb (ix2 k o)) = blockDot (adj1 W1 c) (feat1 W1 c) i o kb := by
  subst hA hP
  obtain ⟨e0, e1, e2, e3, -⟩ := idx1 t
  unfold blockDot
  refine Finset.sum_congr rfl fun k _ => congrArg₂ (· * ·) ?_ ?_
  · show W1 c main_v62 (((cfg1.win 0).blk t).view.emb (ix2 p k)) = W1 c main_v62 _
    exact congrArg _ (Shape.idx_ext₂ (by show win1_0.index t (0 : Fin 2) * 2048 + 1 * p.val = i.val; omega)
      (by show win1_0.index t (1 : Fin 2) * 2048 + 1 * k.val = kb.val * 2048 + k.val; omega))
  · show W1 c main_v86 (((cfg1.win 1).blk t).view.emb (ix2 k o)) = W1 c main_v86 _
    exact congrArg _ (Shape.idx_ext₂ (by show win1_1.index t (0 : Fin 2) * 2048 + 1 * k.val = kb.val * 2048 + k.val; omega)
      (off_zero e3))

-- A point adds its share to what the accumulator held, or to zero at a row's first point;
theorem acc1_pt (c : Dev nD) (n : ℕ) (hn : n < cfg1.N) (kb : Fin 5) (hk : kb.val = n % 5)
    (p : Fin 2048) (o : Fin 256) (i : Fin 10240) (hi : i.val = 2048 * (n / 5) + p.val) :
    acc1 (F := Ideal) W1 c (n + 1) (ix2 p o)
      = (if n % 5 = 0 then 0 else acc1 (F := Ideal) W1 c n (ix2 p o)) + blockDot (adj1 W1 c) (feat1 W1 c) i o kb := by
  have hd := dot1 W1 c ⟨n, hn⟩ kb hk p o i hi _ _ rfl rfl
  by_cases h0 : n % 5 = 0
  · rw [if_pos h0, zero_add]
    refine (congrFun (acc1_first (F := Ideal) W1 c ⟨n, hn⟩ h0) (ix2 p o)).trans ?_
    refine (Payloads.k1_pay2_apply _ _ _ p o).trans ?_
    rw [Payloads.k1_pay1_apply, zero_add]
    exact hd
  · rw [if_neg h0]
    refine (congrFun (acc1_next (F := Ideal) W1 c ⟨n, hn⟩ h0) (ix2 p o)).trans ?_
    refine (Payloads.k1_pay2_apply _ _ _ p o).trans ?_
    exact congrArg (acc1 (F := Ideal) W1 c n (ix2 p o) + ·) hd

-- so after the row's last point the accumulator holds the whole sum over the 10240 neighbours.
theorem acc1_row (c : Dev nD) (n : ℕ) (hn : n < cfg1.N) (h4 : n % 5 = 4)
    (p : Fin 2048) (o : Fin 256) (i : Fin 10240) (hi : i.val = 2048 * (n / 5) + p.val) :
    acc1 (F := Ideal) W1 c (n + 1) (ix2 p o) = ∑ j : Fin 10240, adj1 W1 c (ix2 i j) * feat1 W1 c (ix2 j o) :=
  (row5 (fun m => acc1 (F := Ideal) W1 c m (ix2 p o)) (blockDot (adj1 W1 c) (feat1 W1 c) i o) n h4 fun m kb hk h1 h2 =>
    acc1_pt W1 c m (by omega) kb hk p o i (by omega)).trans (sum_blockDot _ _ i o)

-- At a row's last point the body's value is that point's block of the layer's output.
theorem flushed1_eq (c : Dev nD) (t : Fin cfg1.N) (hf : (cfg1.win 3).flush t = true) :
    (dat1 (F := Ideal) W1 c).flushed 3 t = ((cfg1.win 3).blk t).view.read (Elt Ideal) (KStages.hid (adj1 W1 c) (feat1 W1 c) (bias1 W1 c)) := by
  have h4 : t.val % 5 = 4 := (flush1_3 t).mp hf
  have hN : t.val < 25 := lt_of_lt_of_eq t.isLt (show cfg1.N = 25 from N_1)
  obtain ⟨-, -, -, -, -, -, e6, e7⟩ := idx1 t
  unfold Dat.flushed
  rw [after1_3]
  funext y
  obtain ⟨p, o, rfl⟩ : ∃ (p : Fin 2048) (o : Fin 256), y = ix2 p o := ⟨y 0, y 1, eq_ix2 y⟩
  have he : ((cfg1.win 3).blk t).view.emb (ix2 p o) = ix2 (⟨2048 * (t.val / 5) + p.val, by omega⟩ : Fin 10240) o :=
    Shape.idx_ext₂ (by show win1_3.index t (0 : Fin 2) * 2048 + 1 * p.val = 2048 * (t.val / 5) + p.val; omega) (off_zero e7)
  show k1_pay3 (F := Ideal) (acc1 (F := Ideal) W1 c (t.val + 1)) (iblk1 (F := Ideal) W1 c 2 t) (ix2 p o)
    = KStages.hid (adj1 W1 c) (feat1 W1 c) (bias1 W1 c) (((cfg1.win 3).blk t).view.emb (ix2 p o))
  rw [he]
  refine (Payloads.k1_pay3_apply _ _ p o).trans ?_
  rw [acc1_row W1 c t.val t.isLt h4 p o ⟨2048 * (t.val / 5) + p.val, by omega⟩ rfl, iblk1_2_apply]
  rfl

-- Row r of the output lies in the block of the last point of grid row r / 2048.
theorem cover1 (x : S10240x256.Idx) :
    ∃ t : Fin cfg1.N, (cfg1.win 3).flush t = true ∧ x ∈ ((cfg1.win 3).blk t).view.set := by
  have hx0 : (x 0).val < 10240 := (x 0).isLt
  have ht : 5 * ((x 0).val / 2048) + 4 < cfg1.N := lt_of_lt_of_eq (show 5 * ((x 0).val / 2048) + 4 < 25 by omega) N_1.symm
  obtain ⟨-, -, -, -, -, -, e6, e7⟩ := idx1 ⟨5 * ((x 0).val / 2048) + 4, ht⟩
  have e6' : win1_3.index ⟨5 * ((x 0).val / 2048) + 4, ht⟩ (0 : Fin 2) = (5 * ((x 0).val / 2048) + 4) / 5 := e6
  obtain ⟨y, e⟩ : ∃ y, ((cfg1.win 3).blk ⟨5 * ((x 0).val / 2048) + 4, ht⟩).view.emb y = x :=
    ⟨ix2 (⟨(x 0).val % 2048, Nat.mod_lt _ (by decide)⟩ : Fin 2048) (⟨(x 1).val, (x 1).isLt⟩ : Fin 256),
      Shape.idx_ext₂ (by show win1_3.index _ (0 : Fin 2) * 2048 + 1 * ((x 0).val % 2048) = (x 0).val; omega) (off_zero e7)⟩
  have h := ((cfg1.win 3).blk ⟨5 * ((x 0).val / 2048) + 4, ht⟩).view.emb_mem_set y
  rw [e] at h
  exact ⟨_, (flush1_3 _).mpr (by show (5 * ((x 0).val / 2048) + 4) % 5 = 4; omega), h⟩

-- So the output array after the launch is the layer's function of the arrays the launch reads.
theorem val1 (c : Dev nD) (i : Fin 10240) (o : Fin 256) :
    (dat1 (F := Ideal) W1 c).arrAt 3 cfg1.N (ix2 i o)
      = max ((∑ j : Fin 10240, adj1 W1 c (ix2 i j) * feat1 W1 c (ix2 j o)) + bias1 W1 c (ix2 (0 : Fin 1) o)) 0 :=
  congrFun ((dat1 (F := Ideal) W1 c).arrAt_eq_of_cover 3 (KStages.hid (adj1 W1 c) (feat1 W1 c) (bias1 W1 c)) (flushed1_eq W1 c) cover1) (ix2 i o)

end Launch1

section Launch3

variable (W3 : (c : Dev nD) → (b : Ref sig .tc) → Buf (Elt Ideal) ((c : Thread nD τ).loc b))

abbrev adj3 (c : Dev nD) : KStages.Mat 10240 10240 := W3 c main_v62
abbrev feat3 (c : Dev nD) : KStages.Mat 10240 256 := W3 c main_v88
abbrev bias3 (c : Dev nD) : KStages.Mat 1 256 := W3 c main_v82

theorem idx3 : ∀ t : Fin cfg3.N,
    win3_0.index t (0 : Fin 2) = t.val / 5 ∧ win3_0.index t (1 : Fin 2) = t.val % 5
    ∧ win3_1.index t (0 : Fin 2) = t.val % 5 ∧ win3_1.index t (1 : Fin 2) = 0
    ∧ win3_2.index t (0 : Fin 2) = 0 ∧ win3_2.index t (1 : Fin 2) = 0
    ∧ win3_3.index t (0 : Fin 2) = t.val / 5 ∧ win3_3.index t (1 : Fin 2) = 0 :=
  (by decide +kernel : ∀ t : Fin grid3.N, _)

theorem iblk3_2_apply (c : Dev nD) (t : Fin cfg3.N) (o : Fin 256) :
    iblk3 (F := Ideal) W3 c 2 t (ix2 (0 : Fin 1) o) = bias3 W3 c (ix2 (0 : Fin 1) o) := by
  obtain ⟨-, -, -, -, e4, e5, -⟩ := idx3 t
  show W3 c main_v82 (((cfg3.win 2).blk t).view.emb (ix2 (0 : Fin 1) o)) = W3 c main_v82 (ix2 (0 : Fin 1) o)
  exact congrArg _ (Shape.idx_ext₂ (off_zero e4) (off_zero e5))

theorem dot3 (c : Dev nD) (t : Fin cfg3.N) (kb : Fin 5) (hk : kb.val = t.val % 5)
    (p : Fin 2048) (o : Fin 256) (i : Fin 10240) (hi : i.val = 2048 * (t.val / 5) + p.val)
    (Ab : Vec Ideal S2048x2048 .bf16) (Pb : Vec Ideal S2048x256 .bf16)
    (hA : Ab = iblk3 (F := Ideal) W3 c 0 t) (hP : Pb = iblk3 (F := Ideal) W3 c 1 t) :
    (∑ k : Fin 2048, Ab (ix2 p k) * Pb (ix2 k o)) = blockDot (adj3 W3 c) (feat3 W3 c) i o kb := by
  subst hA hP
  obtain ⟨e0, e1, e2, e3, -⟩ := idx3 t
  unfold blockDot
  refine Finset.sum_congr rfl fun k _ => congrArg₂ (· * ·) ?_ ?_
  · show W3 c main_v62 (((cfg3.win 0).blk t).view.emb (ix2 p k)) = W3 c main_v62 _
    exact congrArg _ (Shape.idx_ext₂ (by show win3_0.index t (0 : Fin 2) * 2048 + 1 * p.val = i.val; omega)
      (by show win3_0.index t (1 : Fin 2) * 2048 + 1 * k.val = kb.val * 2048 + k.val; omega))
  · show W3 c main_v88 (((cfg3.win 1).blk t).view.emb (ix2 k o)) = W3 c main_v88 _
    exact congrArg _ (Shape.idx_ext₂ (by show win3_1.index t (0 : Fin 2) * 2048 + 1 * k.val = kb.val * 2048 + k.val; omega)
      (off_zero e3))

theorem acc3_pt (c : Dev nD) (n : ℕ) (hn : n < cfg3.N) (kb : Fin 5) (hk : kb.val = n % 5)
    (p : Fin 2048) (o : Fin 256) (i : Fin 10240) (hi : i.val = 2048 * (n / 5) + p.val) :
    acc3 (F := Ideal) W3 c (n + 1) (ix2 p o)
      = (if n % 5 = 0 then 0 else acc3 (F := Ideal) W3 c n (ix2 p o)) + blockDot (adj3 W3 c) (feat3 W3 c) i o kb := by
  have hd := dot3 W3 c ⟨n, hn⟩ kb hk p o i hi _ _ rfl rfl
  by_cases h0 : n % 5 = 0
  · rw [if_pos h0, zero_add]
    refine (congrFun (acc3_first (F := Ideal) W3 c ⟨n, hn⟩ h0) (ix2 p o)).trans ?_
    refine (Payloads.k3_pay2_apply _ _ _ p o).trans ?_
    rw [Payloads.k3_pay1_apply, zero_add]
    exact hd
  · rw [if_neg h0]
    refine (congrFun (acc3_next (F := Ideal) W3 c ⟨n, hn⟩ h0) (ix2 p o)).trans ?_
    refine (Payloads.k3_pay2_apply _ _ _ p o).trans ?_
    exact congrArg (acc3 (F := Ideal) W3 c n (ix2 p o) + ·) hd

theorem acc3_row (c : Dev nD) (n : ℕ) (hn : n < cfg3.N) (h4 : n % 5 = 4)
    (p : Fin 2048) (o : Fin 256) (i : Fin 10240) (hi : i.val = 2048 * (n / 5) + p.val) :
    acc3 (F := Ideal) W3 c (n + 1) (ix2 p o) = ∑ j : Fin 10240, adj3 W3 c (ix2 i j) * feat3 W3 c (ix2 j o) :=
  (row5 (fun m => acc3 (F := Ideal) W3 c m (ix2 p o)) (blockDot (adj3 W3 c) (feat3 W3 c) i o) n h4 fun m kb hk h1 h2 =>
    acc3_pt W3 c m (by omega) kb hk p o i (by omega)).trans (sum_blockDot _ _ i o)

theorem flushed3_eq (c : Dev nD) (t : Fin cfg3.N) (hf : (cfg3.win 3).flush t = true) :
    (dat3 (F := Ideal) W3 c).flushed 3 t = ((cfg3.win 3).blk t).view.read (Elt Ideal) (KStages.emb (adj3 W3 c) (feat3 W3 c) (bias3 W3 c)) := by
  have h4 : t.val % 5 = 4 := (flush3_3 t).mp hf
  have hN : t.val < 25 := lt_of_lt_of_eq t.isLt (show cfg3.N = 25 from N_3)
  obtain ⟨-, -, -, -, -, -, e6, e7⟩ := idx3 t
  unfold Dat.flushed
  rw [after3_3]
  funext y
  obtain ⟨p, o, rfl⟩ : ∃ (p : Fin 2048) (o : Fin 256), y = ix2 p o := ⟨y 0, y 1, eq_ix2 y⟩
  have he : ((cfg3.win 3).blk t).view.emb (ix2 p o) = ix2 (⟨2048 * (t.val / 5) + p.val, by omega⟩ : Fin 10240) o :=
    Shape.idx_ext₂ (by show win3_3.index t (0 : Fin 2) * 2048 + 1 * p.val = 2048 * (t.val / 5) + p.val; omega) (off_zero e7)
  show k3_pay3 (F := Ideal) (acc3 (F := Ideal) W3 c (t.val + 1)) (iblk3 (F := Ideal) W3 c 2 t) (ix2 p o)
    = KStages.emb (adj3 W3 c) (feat3 W3 c) (bias3 W3 c) (((cfg3.win 3).blk t).view.emb (ix2 p o))
  rw [he]
  refine (Payloads.k3_pay3_apply _ _ p o).trans ?_
  rw [acc3_row W3 c t.val t.isLt h4 p o ⟨2048 * (t.val / 5) + p.val, by omega⟩ rfl, iblk3_2_apply]
  rfl

theorem cover3 (x : S10240x256.Idx) :
    ∃ t : Fin cfg3.N, (cfg3.win 3).flush t = true ∧ x ∈ ((cfg3.win 3).blk t).view.set := by
  have hx0 : (x 0).val < 10240 := (x 0).isLt
  have ht : 5 * ((x 0).val / 2048) + 4 < cfg3.N := lt_of_lt_of_eq (show 5 * ((x 0).val / 2048) + 4 < 25 by omega) N_3.symm
  obtain ⟨-, -, -, -, -, -, e6, e7⟩ := idx3 ⟨5 * ((x 0).val / 2048) + 4, ht⟩
  have e6' : win3_3.index ⟨5 * ((x 0).val / 2048) + 4, ht⟩ (0 : Fin 2) = (5 * ((x 0).val / 2048) + 4) / 5 := e6
  obtain ⟨y, e⟩ : ∃ y, ((cfg3.win 3).blk ⟨5 * ((x 0).val / 2048) + 4, ht⟩).view.emb y = x :=
    ⟨ix2 (⟨(x 0).val % 2048, Nat.mod_lt _ (by decide)⟩ : Fin 2048) (⟨(x 1).val, (x 1).isLt⟩ : Fin 256),
      Shape.idx_ext₂ (by show win3_3.index _ (0 : Fin 2) * 2048 + 1 * ((x 0).val % 2048) = (x 0).val; omega) (off_zero e7)⟩
  have h := ((cfg3.win 3).blk ⟨5 * ((x 0).val / 2048) + 4, ht⟩).view.emb_mem_set y
  rw [e] at h
  exact ⟨_, (flush3_3 _).mpr (by show (5 * ((x 0).val / 2048) + 4) % 5 = 4; omega), h⟩

theorem val3 (c : Dev nD) (i : Fin 10240) (o : Fin 256) :
    (dat3 (F := Ideal) W3 c).arrAt 3 cfg3.N (ix2 i o)
      = Ideal.tanh ((∑ j : Fin 10240, adj3 W3 c (ix2 i j) * feat3 W3 c (ix2 j o)) + bias3 W3 c (ix2 (0 : Fin 1) o)) :=
  congrFun ((dat3 (F := Ideal) W3 c).arrAt_eq_of_cover 3 (KStages.emb (adj3 W3 c) (feat3 W3 c) (bias3 W3 c)) (flushed3_eq W3 c) cover3) (ix2 i o)

end Launch3

end Cert.KernelIdeal.Val

end
-- ==== Proof.ValA.L0.lean ====
import proofs.«405878_j81363860455818_1_alg».proof.Proof.Frame.Reg0
import proofs.«405878_j81363860455818_1_alg».proof.Proof.Payloads
import proofs.«405878_j81363860455818_1_alg».proof.Proof.KStages

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.KernelIdeal.Fr

-- Where each array's block sits at point t: a row-blocked array's at block row t, the others at the origin.
theorem place0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

-- Read through whole-block rectangles, what the body stores is its arithmetic applied to the blocks.
theorem out0_eq : out0_3 (F := Ideal) = Gen.k0_pay1 := by
  funext a b c
  unfold out0_3
  rw [View.canon_unit_zero zero2]
  simp only [View.ld_unit_zero (S := S2048x128) zero2, View.ld_unit_zero (S := S128x256) zero2, View.ld_unit_zero (S := S1x256) zero2]

-- On the blocks at point t, the value at an index of the block is the stage's function of the whole arrays at that index's place in the output.
theorem block0 (c : Dev nD) (t : Fin cfg0.N) (X) (Wt) (B) (y : S2048x256.Idx) :
    out0_3 (F := Ideal) (((cfg0.win 0).blk t).view.read (Elt Ideal) X) (((cfg0.win 1).blk t).view.read (Elt Ideal) Wt)
        (((cfg0.win 2).blk t).view.read (Elt Ideal) B) y
      = KStages.proj (K := 128) X Wt B (((cfg0.win 3).blk t).view.emb y) := by
  obtain ⟨p, o, rfl⟩ : ∃ (p : Fin 2048) (o : Fin 256), y = ix2 p o := ⟨y 0, y 1, eq_ix2 y⟩
  obtain ⟨e00, e01, e10, e11, e20, e21, e30, e31⟩ := place0 t
  rw [out0_eq, Payloads.k0_pay1_apply]
  unfold KStages.proj
  refine congrArg₂ (· + ·) (Finset.sum_congr rfl fun k _ => congrArg₂ (· * ·) ?_ ?_) ?_
  · show X _ = X _
    exact congrArg X (Shape.idx_ext₂ (off_eq (e00.trans e30.symm)) (off_zero e01))
  · show Wt _ = Wt _
    exact congrArg Wt (Shape.idx_ext₂ (off_zero e10) (off_eq (e11.trans e31.symm)))
  · show B _ = B _
    exact congrArg B (Shape.idx_ext₂ (off_zero e20) (off_eq (e21.trans e31.symm)))

variable (m : (ℓ : Loc nD τ sig) → Buf (Elt Ideal) ℓ)

abbrev feat0 (c : Dev nD) : S10240x128.Idx → Ideal .bf16 := W0 (F := Ideal) m c main_v64
abbrev wts0 (c : Dev nD) : S128x256.Idx → Ideal .bf16 := W0 (F := Ideal) m c main_v66
abbrev bias0 (c : Dev nD) : S1x256.Idx → Ideal .f32 := W0 (F := Ideal) m c main_v80

-- Row r of the output lies in the block of point r / 2048.
theorem cover0 (i : S10240x256.Idx) : ∃ t : Fin cfg0.N, (cfg0.win 3).flush t = true ∧ i ∈ ((cfg0.win 3).blk t).view.set := by
  have hi0 : (i 0).val < 10240 := (i 0).isLt
  let t : Fin cfg0.N := ⟨(i 0).val / 2048, by rw [show cfg0.N = 5 from N_0]; omega⟩
  obtain ⟨-, -, -, -, -, -, e0, e1⟩ := place0 t
  have ht : t.val = (i 0).val / 2048 := rfl
  have e : ((cfg0.win 3).blk t).view.emb (ix2 (⟨(i 0).val % 2048, Nat.mod_lt _ (by decide)⟩ : Fin 2048) (i 1)) = i :=
    Shape.idx_ext₂ (by show win0_3.index t (0 : Fin 2) * 2048 + 1 * ((i 0).val % 2048) = (i 0).val; omega) (off_zero e1)
  exact ⟨t, flush0_3 t, by rw [← e]; exact View.emb_mem_set _ _⟩

-- So the output array after the launch is that function of the arrays the launch reads.
theorem val0 (c : Dev nD) (i : Fin 10240) (o : Fin 256) :
    ((dat0 (F := Ideal) m c).arrAt 3 cfg0.N) (ix2 i o)
      = (∑ k : Fin 128, feat0 m c (ix2 i k) * wts0 m c (ix2 k o)) + bias0 m c (ix2 (0 : Fin 1) o) :=
  congrFun ((dat0 (F := Ideal) m c).arrAt_eq_of_cover 3 (KStages.proj (K := 128) (feat0 m c) (wts0 m c) (bias0 m c)) (fun t _ => by
    unfold Dat.flushed
    rw [after0_3]
    unfold iblk0
    exact funext fun y => block0 c t _ _ _ y) cover0) (ix2 i o)

end Cert.KernelIdeal.Val

end
-- ==== Proof.ValA.L2.lean ====
import proofs.«405878_j81363860455818_1_alg».proof.Proof.Frame.Reg2
import proofs.«405878_j81363860455818_1_alg».proof.Proof.Payloads
import proofs.«405878_j81363860455818_1_alg».proof.Proof.KStages

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.KernelIdeal.Fr

variable (W2 : (c : Dev nD) → (b : Ref sig .tc) → Buf (Elt Ideal) ((c : Thread nD τ).loc b))

-- Where each array's block sits at point t: a row-blocked array's at block row t, the others at the origin.
theorem place2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

-- Read through whole-block rectangles, what the body stores is its arithmetic applied to the blocks.
theorem out2_eq : out2_3 (F := Ideal) = Gen.k2_pay1 := by
  funext a b c
  unfold out2_3
  rw [View.canon_unit_zero zero2]
  simp only [View.ld_unit_zero (S := S2048x256) zero2, View.ld_unit_zero (S := S256x256) zero2, View.ld_unit_zero (S := S1x256) zero2]

-- On the blocks at point t, the value at an index of the block is the stage's function of the whole arrays at that index's place in the output.
theorem block2 (c : Dev nD) (t : Fin cfg2.N) (X) (Wt) (B) (y : S2048x256.Idx) :
    out2_3 (F := Ideal) (((cfg2.win 0).blk t).view.read (Elt Ideal) X) (((cfg2.win 1).blk t).view.read (Elt Ideal) Wt)
        (((cfg2.win 2).blk t).view.read (Elt Ideal) B) y
      = KStages.proj (K := 256) X Wt B (((cfg2.win 3).blk t).view.emb y) := by
  obtain ⟨p, o, rfl⟩ : ∃ (p : Fin 2048) (o : Fin 256), y = ix2 p o := ⟨y 0, y 1, eq_ix2 y⟩
  obtain ⟨e00, e01, e10, e11, e20, e21, e30, e31⟩ := place2 t
  rw [out2_eq, Payloads.k2_pay1_apply]
  unfold KStages.proj
  refine congrArg₂ (· + ·) (Finset.sum_congr rfl fun k _ => congrArg₂ (· * ·) ?_ ?_) ?_
  · show X _ = X _
    exact congrArg X (Shape.idx_ext₂ (off_eq (e00.trans e30.symm)) (off_zero e01))
  · show Wt _ = Wt _
    exact congrArg Wt (Shape.idx_ext₂ (off_zero e10) (off_eq (e11.trans e31.symm)))
  · show B _ = B _
    exact congrArg B (Shape.idx_ext₂ (off_zero e20) (off_eq (e21.trans e31.symm)))

abbrev act2 (c : Dev nD) : S10240x256.Idx → Ideal .bf16 := W2 c main_v87
abbrev wts2 (c : Dev nD) : S256x256.Idx → Ideal .bf16 := W2 c main_v67
abbrev bias2 (c : Dev nD) : S1x256.Idx → Ideal .f32 := W2 c main_v80

-- Row r of the output lies in the block of point r / 2048.
theorem cover2 (i : S10240x256.Idx) : ∃ t : Fin cfg2.N, (cfg2.win 3).flush t = true ∧ i ∈ ((cfg2.win 3).blk t).view.set := by
  have hi0 : (i 0).val < 10240 := (i 0).isLt
  let t : Fin cfg2.N := ⟨(i 0).val / 2048, by rw [show cfg2.N = 5 from N_2]; omega⟩
  obtain ⟨-, -, -, -, -, -, e0, e1⟩ := place2 t
  have ht : t.val = (i 0).val / 2048 := rfl
  have e : ((cfg2.win 3).blk t).view.emb (ix2 (⟨(i 0).val % 2048, Nat.mod_lt _ (by decide)⟩ : Fin 2048) (i 1)) = i :=
    Shape.idx_ext₂ (by show win2_3.index t (0 : Fin 2) * 2048 + 1 * ((i 0).val % 2048) = (i 0).val; omega) (off_zero e1)
  exact ⟨t, flush2_3 t, by rw [← e]; exact View.emb_mem_set _ _⟩

-- So the output array after the launch is that function of the arrays the launch reads.
theorem val2 (c : Dev nD) (i : Fin 10240) (o : Fin 256) :
    ((dat2 (F := Ideal) W2 c).arrAt 3 cfg2.N) (ix2 i o)
      = (∑ k : Fin 256, act2 W2 c (ix2 i k) * wts2 W2 c (ix2 k o)) + bias2 W2 c (ix2 (0 : Fin 1) o) :=
  congrFun ((dat2 (F := Ideal) W2 c).arrAt_eq_of_cover 3 (KStages.proj (K := 256) (act2 W2 c) (wts2 W2 c) (bias2 W2 c)) (fun t _ => by
    unfold Dat.flushed
    rw [after2_3]
    unfold iblk2
    exact funext fun y => block2 c t _ _ _ y) cover2) (ix2 i o)

end Cert.KernelIdeal.Val

end
-- ==== Proof.ValA.L4.lean ====
import proofs.«405878_j81363860455818_1_alg».proof.Proof.Frame.Reg4
import proofs.«405878_j81363860455818_1_alg».proof.Proof.Payloads
import proofs.«405878_j81363860455818_1_alg».proof.Proof.KStages

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.KernelIdeal.Fr

variable (W4 : (c : Dev nD) → (b : Ref sig .tc) → Buf (Elt Ideal) ((c : Thread nD τ).loc b))

-- Where each array's block sits at point t: a row-blocked array's at block row t, the others at the origin.
theorem place4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

-- Read through whole-block rectangles, what the body stores is its arithmetic applied to the blocks.
theorem out4_eq : out4_5 (F := Ideal) = Gen.k4_pay1 := by
  funext a b c d e
  unfold out4_5
  rw [View.canon_unit_zero zero2]
  simp only [View.ld_unit_zero (S := S2048x256) zero2, View.ld_unit_zero (S := S256x256) zero2, View.ld_unit_zero (S := S1x256) zero2]

-- On the blocks at point t, the value at an index of the block is the stage's function of the whole arrays at that index's place in the output.
theorem block4 (c : Dev nD) (t : Fin cfg4.N) (Z) (Wtop) (H) (Wbot) (B) (y : S2048x256.Idx) :
    out4_5 (F := Ideal) (((cfg4.win 0).blk t).view.read (Elt Ideal) Z) (((cfg4.win 1).blk t).view.read (Elt Ideal) Wtop)
        (((cfg4.win 2).blk t).view.read (Elt Ideal) H) (((cfg4.win 3).blk t).view.read (Elt Ideal) Wbot)
        (((cfg4.win 4).blk t).view.read (Elt Ideal) B) y
      = KStages.gate Z Wtop H Wbot B (((cfg4.win 5).blk t).view.emb y) := by
  obtain ⟨p, o, rfl⟩ : ∃ (p : Fin 2048) (o : Fin 256), y = ix2 p o := ⟨y 0, y 1, eq_ix2 y⟩
  obtain ⟨e00, e01, e10, e11, e20, e21, e30, e31, e40, e41, e50, e51⟩ := place4 t
  rw [out4_eq, Payloads.k4_pay1_apply]
  unfold KStages.gate KStages.gatePre
  refine congrArg Ideal.logistic (congrArg₂ (· + ·) (congrArg₂ (· + ·)
    (Finset.sum_congr rfl fun k _ => congrArg₂ (· * ·) ?_ ?_) (Finset.sum_congr rfl fun k _ => congrArg₂ (· * ·) ?_ ?_)) ?_)
  · show Z _ = Z _
    exact congrArg Z (Shape.idx_ext₂ (off_eq (e00.trans e50.symm)) (off_zero e01))
  · show Wtop _ = Wtop _
    exact congrArg Wtop (Shape.idx_ext₂ (off_zero e10) (off_eq (e11.trans e51.symm)))
  · show H _ = H _
    exact congrArg H (Shape.idx_ext₂ (off_eq (e20.trans e50.symm)) (off_zero e21))
  · show Wbot _ = Wbot _
    exact congrArg Wbot (Shape.idx_ext₂ (off_zero e30) (off_eq (e31.trans e51.symm)))
  · show B _ = B _
    exact congrArg B (Shape.idx_ext₂ (off_zero e40) (off_eq (e41.trans e51.symm)))

abbrev agg4 (c : Dev nD) : S10240x256.Idx → Ideal .bf16 := W4 c main_v89
abbrev wtop4 (c : Dev nD) : S256x256.Idx → Ideal .bf16 := W4 c main_v69
abbrev hid4 (c : Dev nD) : S10240x256.Idx → Ideal .f32 := W4 c main_v65
abbrev wbot4 (c : Dev nD) : S256x256.Idx → Ideal .bf16 := W4 c main_v71
abbrev bias4 (c : Dev nD) : S1x256.Idx → Ideal .f32 := W4 c main_v83

-- Row r of the output lies in the block of point r / 2048.
theorem cover4 (i : S10240x256.Idx) : ∃ t : Fin cfg4.N, (cfg4.win 5).flush t = true ∧ i ∈ ((cfg4.win 5).blk t).view.set := by
  have hi0 : (i 0).val < 10240 := (i 0).isLt
  let t : Fin cfg4.N := ⟨(i 0).val / 2048, by rw [show cfg4.N = 5 from N_4]; omega⟩
  obtain ⟨-, -, -, -, -, -, -, -, -, -, e0, e1⟩ := place4 t
  have ht : t.val = (i 0).val / 2048 := rfl
  have e : ((cfg4.win 5).blk t).view.emb (ix2 (⟨(i 0).val % 2048, Nat.mod_lt _ (by decide)⟩ : Fin 2048) (i 1)) = i :=
    Shape.idx_ext₂ (by show win4_5.index t (0 : Fin 2) * 2048 + 1 * ((i 0).val % 2048) = (i 0).val; omega) (off_zero e1)
  exact ⟨t, flush4_5 t, by rw [← e]; exact View.emb_mem_set _ _⟩

-- So the output array after the launch is that function of the arrays the launch reads.
theorem val4 (c : Dev nD) (i : Fin 10240) (o : Fin 256) :
    ((dat4 (F := Ideal) W4 c).arrAt 5 cfg4.N) (ix2 i o)
      = Ideal.logistic ((∑ k : Fin 256, agg4 W4 c (ix2 i k) * wtop4 W4 c (ix2 k o))
          + (∑ k : Fin 256, hid4 W4 c (ix2 i k) * wbot4 W4 c (ix2 k o)) + bias4 W4 c (ix2 (0 : Fin 1) o)) :=
  congrFun ((dat4 (F := Ideal) W4 c).arrAt_eq_of_cover 5 (KStages.gate (agg4 W4 c) (wtop4 W4 c) (hid4 W4 c) (wbot4 W4 c) (bias4 W4 c)) (fun t _ => by
    unfold Dat.flushed
    rw [after4_5]
    unfold iblk4
    exact funext fun y => block4 c t _ _ _ _ _ y) cover4) (ix2 i o)

end Cert.KernelIdeal.Val

end
-- ==== Proof.ValA.L5.lean ====
import proofs.«405878_j81363860455818_1_alg».proof.Proof.Frame.Reg5
import proofs.«405878_j81363860455818_1_alg».proof.Proof.Payloads
import proofs.«405878_j81363860455818_1_alg».proof.Proof.KStages

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.KernelIdeal.Fr

variable (W5 : (c : Dev nD) → (b : Ref sig .tc) → Buf (Elt Ideal) ((c : Thread nD τ).loc b))

-- Where each array's block sits at point t: a row-blocked array's at block row t, the others at the origin.
theorem place5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

-- Read through whole-block rectangles, what the body stores is its arithmetic applied to the blocks.
theorem out5_eq : out5_5 (F := Ideal) = Gen.k5_pay1 := by
  funext a b c d e
  unfold out5_5
  rw [View.canon_unit_zero zero2]
  simp only [View.ld_unit_zero (S := S2048x256) zero2, View.ld_unit_zero (S := S256x256) zero2, View.ld_unit_zero (S := S1x256) zero2]

-- On the blocks at point t, the value at an index of the block is the stage's function of the whole arrays at that index's place in the output.
theorem block5 (c : Dev nD) (t : Fin cfg5.N) (Z) (Wtop) (H) (Wbot) (B) (y : S2048x256.Idx) :
    out5_5 (F := Ideal) (((cfg5.win 0).blk t).view.read (Elt Ideal) Z) (((cfg5.win 1).blk t).view.read (Elt Ideal) Wtop)
        (((cfg5.win 2).blk t).view.read (Elt Ideal) H) (((cfg5.win 3).blk t).view.read (Elt Ideal) Wbot)
        (((cfg5.win 4).blk t).view.read (Elt Ideal) B) y
      = KStages.gate Z Wtop H Wbot B (((cfg5.win 5).blk t).view.emb y) := by
  obtain ⟨p, o, rfl⟩ : ∃ (p : Fin 2048) (o : Fin 256), y = ix2 p o := ⟨y 0, y 1, eq_ix2 y⟩
  obtain ⟨e00, e01, e10, e11, e20, e21, e30, e31, e40, e41, e50, e51⟩ := place5 t
  rw [out5_eq, Payloads.k5_pay1_apply]
  unfold KStages.gate KStages.gatePre
  refine congrArg Ideal.logistic (congrArg₂ (· + ·) (congrArg₂ (· + ·)
    (Finset.sum_congr rfl fun k _ => congrArg₂ (· * ·) ?_ ?_) (Finset.sum_congr rfl fun k _ => congrArg₂ (· * ·) ?_ ?_)) ?_)
  · show Z _ = Z _
    exact congrArg Z (Shape.idx_ext₂ (off_eq (e00.trans e50.symm)) (off_zero e01))
  · show Wtop _ = Wtop _
    exact congrArg Wtop (Shape.idx_ext₂ (off_zero e10) (off_eq (e11.trans e51.symm)))
  · show H _ = H _
    exact congrArg H (Shape.idx_ext₂ (off_eq (e20.trans e50.symm)) (off_zero e21))
  · show Wbot _ = Wbot _
    exact congrArg Wbot (Shape.idx_ext₂ (off_zero e30) (off_eq (e31.trans e51.symm)))
  · show B _ = B _
    exact congrArg B (Shape.idx_ext₂ (off_zero e40) (off_eq (e41.trans e51.symm)))

abbrev agg5 (c : Dev nD) : S10240x256.Idx → Ideal .bf16 := W5 c main_v89
abbrev wtop5 (c : Dev nD) : S256x256.Idx → Ideal .bf16 := W5 c main_v73
abbrev hid5 (c : Dev nD) : S10240x256.Idx → Ideal .f32 := W5 c main_v65
abbrev wbot5 (c : Dev nD) : S256x256.Idx → Ideal .bf16 := W5 c main_v75
abbrev bias5 (c : Dev nD) : S1x256.Idx → Ideal .f32 := W5 c main_v84

-- Row r of the output lies in the block of point r / 2048.
theorem cover5 (i : S10240x256.Idx) : ∃ t : Fin cfg5.N, (cfg5.win 5).flush t = true ∧ i ∈ ((cfg5.win 5).blk t).view.set := by
  have hi0 : (i 0).val < 10240 := (i 0).isLt
  let t : Fin cfg5.N := ⟨(i 0).val / 2048, by rw [show cfg5.N = 5 from N_5]; omega⟩
  obtain ⟨-, -, -, -, -, -, -, -, -, -, e0, e1⟩ := place5 t
  have ht : t.val = (i 0).val / 2048 := rfl
  have e : ((cfg5.win 5).blk t).view.emb (ix2 (⟨(i 0).val % 2048, Nat.mod_lt _ (by decide)⟩ : Fin 2048) (i 1)) = i :=
    Shape.idx_ext₂ (by show win5_5.index t (0 : Fin 2) * 2048 + 1 * ((i 0).val % 2048) = (i 0).val; omega) (off_zero e1)
  exact ⟨t, flush5_5 t, by rw [← e]; exact View.emb_mem_set _ _⟩

-- So the output array after the launch is that function of the arrays the launch reads.
theorem val5 (c : Dev nD) (i : Fin 10240) (o : Fin 256) :
    ((dat5 (F := Ideal) W5 c).arrAt 5 cfg5.N) (ix2 i o)
      = Ideal.logistic ((∑ k : Fin 256, agg5 W5 c (ix2 i k) * wtop5 W5 c (ix2 k o))
          + (∑ k : Fin 256, hid5 W5 c (ix2 i k) * wbot5 W5 c (ix2 k o)) + bias5 W5 c (ix2 (0 : Fin 1) o)) :=
  congrFun ((dat5 (F := Ideal) W5 c).arrAt_eq_of_cover 5 (KStages.gate (agg5 W5 c) (wtop5 W5 c) (hid5 W5 c) (wbot5 W5 c) (bias5 W5 c)) (fun t _ => by
    unfold Dat.flushed
    rw [after5_5]
    unfold iblk5
    exact funext fun y => block5 c t _ _ _ _ _ y) cover5) (ix2 i o)

end Cert.KernelIdeal.Val

end
-- ==== Proof.ValA.L6.lean ====
import proofs.«405878_j81363860455818_1_alg».proof.Proof.Frame.Reg6
import proofs.«405878_j81363860455818_1_alg».proof.Proof.Payloads
import proofs.«405878_j81363860455818_1_alg».proof.Proof.KStages

noncomputable section

open scoped BigOperators
open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen Cert.KernelIdeal.Fr

variable (W6 : (c : Dev nD) → (b : Ref sig .tc) → Buf (Elt Ideal) ((c : Thread nD τ).loc b))

-- Where each array's block sits at point t: a row-blocked array's at block row t, the others at the origin.
theorem place6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

-- Read through whole-block rectangles, what the body stores is its arithmetic applied to the blocks.
theorem out6_eq (z) (wt) (r) (h) (wb) (b) (u) : out6_7 (F := Ideal) z wt r h wb b u = Gen.k6_pay1 z wt r h wb b u h := by
  unfold out6_7
  rw [View.canon_unit_zero zero2]
  simp only [View.ld_unit_zero (S := S2048x256) zero2, View.ld_unit_zero (S := S256x256) zero2, View.ld_unit_zero (S := S1x256) zero2]

-- On the blocks at point t, the value at an index of the block is the stage's function of the whole arrays at that index's place in the output.
theorem block6 (c : Dev nD) (t : Fin cfg6.N) (Z) (Wtop) (R) (H) (Wbot) (B) (U) (y : S2048x256.Idx) :
    out6_7 (F := Ideal) (((cfg6.win 0).blk t).view.read (Elt Ideal) Z) (((cfg6.win 1).blk t).view.read (Elt Ideal) Wtop)
        (((cfg6.win 2).blk t).view.read (Elt Ideal) R) (((cfg6.win 3).blk t).view.read (Elt Ideal) H)
        (((cfg6.win 4).blk t).view.read (Elt Ideal) Wbot) (((cfg6.win 5).blk t).view.read (Elt Ideal) B)
        (((cfg6.win 6).blk t).view.read (Elt Ideal) U) y
      = KStages.out Z Wtop R H Wbot B U (((cfg6.win 7).blk t).view.emb y) := by
  obtain ⟨p, o, rfl⟩ : ∃ (p : Fin 2048) (o : Fin 256), y = ix2 p o := ⟨y 0, y 1, eq_ix2 y⟩
  obtain ⟨e00, e01, e10, e11, e20, e21, e30, e31, e40, e41, e50, e51, e60, e61, e70, e71⟩ := place6 t
  rw [out6_eq, Payloads.k6_pay1_apply_one]
  unfold KStages.out
  refine congrArg₂ (· + ·) (congrArg₂ (· * ·) ?_ ?_) (congrArg₂ (· * ·) (congrArg₂ (· - ·) rfl ?_)
    (congrArg Ideal.tanh (congrArg₂ (· + ·) (congrArg₂ (· + ·)
      (Finset.sum_congr rfl fun k _ => congrArg₂ (· * ·) ?_ ?_)
      (Finset.sum_congr rfl fun k _ => congrArg₂ (· * ·) (congrArg₂ (· * ·) ?_ ?_) ?_)) ?_)))
  · show U _ = U _
    exact congrArg U (Shape.idx_ext₂ (off_eq (e60.trans e70.symm)) (off_eq (e61.trans e71.symm)))
  · show H _ = H _
    exact congrArg H (Shape.idx_ext₂ (off_eq (e30.trans e70.symm)) (off_eq (e31.trans e71.symm)))
  · show U _ = U _
    exact congrArg U (Shape.idx_ext₂ (off_eq (e60.trans e70.symm)) (off_eq (e61.trans e71.symm)))
  · show Z _ = Z _
    exact congrArg Z (Shape.idx_ext₂ (off_eq (e00.trans e70.symm)) (off_zero e01))
  · show Wtop _ = Wtop _
    exact congrArg Wtop (Shape.idx_ext₂ (off_zero e10) (off_eq (e11.trans e71.symm)))
  · show R _ = R _
    exact congrArg R (Shape.idx_ext₂ (off_eq (e20.trans e70.symm)) (off_zero e21))
  · show H _ = H _
    exact congrArg H (Shape.idx_ext₂ (off_eq (e30.trans e70.symm)) (off_zero e31))
  · show Wbot _ = Wbot _
    exact congrArg Wbot (Shape.idx_ext₂ (off_zero e40) (off_eq (e41.trans e71.symm)))
  · show B _ = B _
    exact congrArg B (Shape.idx_ext₂ (off_zero e50) (off_eq (e51.trans e71.symm)))

abbrev agg6 (c : Dev nD) : S10240x256.Idx → Ideal .bf16 := W6 c main_v89
abbrev wtop6 (c : Dev nD) : S256x256.Idx → Ideal .bf16 := W6 c main_v77
abbrev reset6 (c : Dev nD) : S10240x256.Idx → Ideal .f32 := W6 c main_v91
abbrev hid6 (c : Dev nD) : S10240x256.Idx → Ideal .f32 := W6 c main_v65
abbrev wbot6 (c : Dev nD) : S256x256.Idx → Ideal .bf16 := W6 c main_v79
abbrev bias6 (c : Dev nD) : S1x256.Idx → Ideal .f32 := W6 c main_v85
abbrev upd6 (c : Dev nD) : S10240x256.Idx → Ideal .f32 := W6 c main_v90

-- Row r of the output lies in the block of point r / 2048.
theorem cover6 (i : S10240x256.Idx) : ∃ t : Fin cfg6.N, (cfg6.win 7).flush t = true ∧ i ∈ ((cfg6.win 7).blk t).view.set := by
  have hi0 : (i 0).val < 10240 := (i 0).isLt
  let t : Fin cfg6.N := ⟨(i 0).val / 2048, by rw [show cfg6.N = 5 from N_6]; omega⟩
  obtain ⟨-, -, -, -, -, -, -, -, -, -, -, -, -, -, e0, e1⟩ := place6 t
  have ht : t.val = (i 0).val / 2048 := rfl
  have e : ((cfg6.win 7).blk t).view.emb (ix2 (⟨(i 0).val % 2048, Nat.mod_lt _ (by decide)⟩ : Fin 2048) (i 1)) = i :=
    Shape.idx_ext₂ (by show win6_7.index t (0 : Fin 2) * 2048 + 1 * ((i 0).val % 2048) = (i 0).val; omega) (off_zero e1)
  exact ⟨t, flush6_7 t, by rw [← e]; exact View.emb_mem_set _ _⟩

-- So the output array after the launch is that function of the arrays the launch reads.
theorem val6 (c : Dev nD) (i : Fin 10240) (o : Fin 256) :
    ((dat6 (F := Ideal) W6 c).arrAt 7 cfg6.N) (ix2 i o)
      = upd6 W6 c (ix2 i o) * hid6 W6 c (ix2 i o)
        + (1 - upd6 W6 c (ix2 i o))
          * Ideal.tanh ((∑ k : Fin 256, agg6 W6 c (ix2 i k) * wtop6 W6 c (ix2 k o))
              + (∑ k : Fin 256, (reset6 W6 c (ix2 i k) * hid6 W6 c (ix2 i k)) * wbot6 W6 c (ix2 k o))
              + bias6 W6 c (ix2 (0 : Fin 1) o)) :=
  congrFun ((dat6 (F := Ideal) W6 c).arrAt_eq_of_cover 7 (KStages.out (agg6 W6 c) (wtop6 W6 c) (reset6 W6 c) (hid6 W6 c) (wbot6 W6 c) (bias6 W6 c) (upd6 W6 c)) (fun t _ => by
    unfold Dat.flushed
    rw [after6_7]
    unfold iblk6
    exact funext fun y => block6 c t _ _ _ _ _ _ _ y) cover6) (ix2 i o)

end Cert.KernelIdeal.Val

end
-- ==== Proof.ValA.lean ====
import proofs.«405878_j81363860455818_1_alg».proof.Proof.ValA.L0
import proofs.«405878_j81363860455818_1_alg».proof.Proof.ValA.L2
import proofs.«405878_j81363860455818_1_alg».proof.Proof.ValA.L4
import proofs.«405878_j81363860455818_1_alg».proof.Proof.ValA.L5
import proofs.«405878_j81363860455818_1_alg».proof.Proof.ValA.L6
-- ==== Proof.KVal.lean ====
import proofs.«405878_j81363860455818_1_alg».proof.Proof.ValAcc
import proofs.«405878_j81363860455818_1_alg».proof.Proof.ValA
import proofs.«405878_j81363860455818_1_alg».proof.Proof.KStages
import proofs.«405878_j81363860455818_1_alg».proof.Proof.Frame.Vals
import proofs.«405878_j81363860455818_1_alg».proof.Proof.Frame.Keep
import proofs.«405878_j81363860455818_1_alg».proof.Proof.Frame.Run

noncomputable section

open scoped BigOperators

namespace Cert.KernelIdeal.KVal

open Cert.KernelIdeal Cert.KernelIdeal.Gen Cert.KernelIdeal.Fr Cert.KernelIdeal.Val
open Idealize.ShloMosaic Idealize.ShloMosaic.TcCoe Idealize.ShloMosaic.ValueIdx Idealize.SL.Sem
open KStages (Mat)

variable (m : (ℓ : Loc nD τ sig) → Buf (Elt Ideal) ℓ)

-- The arrays the launches start from: adjacency, features, hidden state, weights, the zero row and the bias rows.
abbrev v62 (c : Dev nD) : Mat 10240 10240 := V₅ m c main_v62
abbrev v64 (c : Dev nD) : Mat 10240 128 := V₅ m c main_v64
abbrev v65 (c : Dev nD) : Mat 10240 256 := V₅ m c main_v65
abbrev v66 (c : Dev nD) : Mat 128 256 := V₅ m c main_v66
abbrev v67 (c : Dev nD) : Mat 256 256 := V₅ m c main_v67
abbrev v69 (c : Dev nD) : Mat 256 256 := V₅ m c main_v69
abbrev v71 (c : Dev nD) : Mat 256 256 := V₅ m c main_v71
abbrev v73 (c : Dev nD) : Mat 256 256 := V₅ m c main_v73
abbrev v75 (c : Dev nD) : Mat 256 256 := V₅ m c main_v75
abbrev v77 (c : Dev nD) : Mat 256 256 := V₅ m c main_v77
abbrev v79 (c : Dev nD) : Mat 256 256 := V₅ m c main_v79
abbrev v80 (c : Dev nD) : Mat 1 256 := V₅ m c main_v80
abbrev v81 (c : Dev nD) : Mat 1 256 := V₅ m c main_v81
abbrev v82 (c : Dev nD) : Mat 1 256 := V₅ m c main_v82
abbrev v83 (c : Dev nD) : Mat 1 256 := V₅ m c main_v83
abbrev v84 (c : Dev nD) : Mat 1 256 := V₅ m c main_v84
abbrev v85 (c : Dev nD) : Mat 1 256 := V₅ m c main_v85

-- The kernel's intermediate arrays over them: the two layers, then the two gates.
abbrev P1 (c : Dev nD) : Mat 10240 256 := KStages.proj (v64 m c) (v66 m c) (v80 m c)
abbrev H1 (c : Dev nD) : Mat 10240 256 := KStages.hid (v62 m c) (P1 m c) (v81 m c)
abbrev P2 (c : Dev nD) : Mat 10240 256 := KStages.proj (H1 m c) (v67 m c) (v80 m c)
abbrev Z (c : Dev nD) : Mat 10240 256 := KStages.emb (v62 m c) (P2 m c) (v82 m c)
abbrev U (c : Dev nD) : Mat 10240 256 := KStages.gate (Z m c) (v69 m c) (v65 m c) (v71 m c) (v83 m c)
abbrev R (c : Dev nD) : Mat 10240 256 := KStages.gate (Z m c) (v73 m c) (v65 m c) (v75 m c) (v84 m c)

-- An array no launch writes is, at every launch's entry, as it was at the first.
theorem host (c : Dev nD) (b : Ref sig .tc)
    (h : b ≠ main_v86 ∧ b ≠ main_v87 ∧ b ≠ main_v88 ∧ b ≠ main_v89 ∧ b ≠ main_v90 ∧ b ≠ main_v91) :
    X1 m c b = V₅ m c b ∧ X2 m c b = V₅ m c b ∧ X3 m c b = V₅ m c b ∧ X4 m c b = V₅ m c b ∧ X5 m c b = V₅ m c b
      ∧ X6 m c b = V₅ m c b := by
  obtain ⟨h0, h1, h2, h3, h4, h5⟩ := h
  have e1 := E1_keep m c b h0
  have e2 := (E2_keep m c b h1).trans e1
  have e3 := (E3_keep m c b h2).trans e2
  have e4 := (E4_keep m c b h3).trans e3
  have e5 := (E5_keep m c b h4).trans e4
  exact ⟨e1, e2, e3, e4, e5, (E6_keep m c b h5).trans e5⟩

-- Launch by launch: the output array is the stage's function of what the launch reads, and what it reads is known.
theorem stage0 (c : Dev nD) : (X1 m c main_v86 : Mat 10240 256) = P1 m c := funext fun x => by
  rw [eq_ix2 x]
  exact (congrFun (E1_arr m c 3) _).trans (val0 m c _ _)

theorem stage1 (c : Dev nD) : (X2 m c main_v87 : Mat 10240 256) = H1 m c := funext fun x => by
  rw [eq_ix2 x]
  refine (congrFun (E2_arr m c 3) _).trans ((val1 (X1 m) c _ _).trans ?_)
  rw [show adj1 (X1 m) c = v62 m c from (host m c main_v62 (by decide)).1, show feat1 (X1 m) c = P1 m c from stage0 m c,
    show bias1 (X1 m) c = v81 m c from (host m c main_v81 (by decide)).1]
  rfl

theorem stage2 (c : Dev nD) : (X3 m c main_v88 : Mat 10240 256) = P2 m c := funext fun x => by
  rw [eq_ix2 x]
  refine (congrFun (E3_arr m c 3) _).trans ((val2 (X2 m) c _ _).trans ?_)
  rw [show act2 (X2 m) c = H1 m c from stage1 m c, show wts2 (X2 m) c = v67 m c from (host m c main_v67 (by decide)).2.1,
    show bias2 (X2 m) c = v80 m c from (host m c main_v80 (by decide)).2.1]
  rfl

theorem stage3 (c : Dev nD) : (X4 m c main_v89 : Mat 10240 256) = Z m c := funext fun x => by
  rw [eq_ix2 x]
  refine (congrFun (E4_arr m c 3) _).trans ((val3 (X3 m) c _ _).trans ?_)
  rw [show adj3 (X3 m) c = v62 m c from (host m c main_v62 (by decide)).2.2.1, show feat3 (X3 m) c = P2 m c from stage2 m c,
    show bias3 (X3 m) c = v82 m c from (host m c main_v82 (by decide)).2.2.1]
  rfl

theorem stage4 (c : Dev nD) : (X5 m c main_v90 : Mat 10240 256) = U m c := funext fun x => by
  rw [eq_ix2 x]
  refine (congrFun (E5_arr m c 5) _).trans ((val4 (X4 m) c _ _).trans ?_)
  rw [show agg4 (X4 m) c = Z m c from stage3 m c, show wtop4 (X4 m) c = v69 m c from (host m c main_v69 (by decide)).2.2.2.1,
    show hid4 (X4 m) c = v65 m c from (host m c main_v65 (by decide)).2.2.2.1, show wbot4 (X4 m) c = v71 m c from (host m c main_v71 (by decide)).2.2.2.1,
    show bias4 (X4 m) c = v83 m c from (host m c main_v83 (by decide)).2.2.2.1]
  rfl

-- The second aggregation stays in place while the gates' launches run, and the update gate while the last does.
theorem X5_z (c : Dev nD) : (X5 m c main_v89 : Mat 10240 256) = Z m c := (E5_keep m c main_v89 (by decide)).trans (stage3 m c)

theorem stage5 (c : Dev nD) : (X6 m c main_v91 : Mat 10240 256) = R m c := funext fun x => by
  rw [eq_ix2 x]
  refine (congrFun (E6_arr m c 5) _).trans ((val5 (X5 m) c _ _).trans ?_)
  rw [show agg5 (X5 m) c = Z m c from X5_z m c, show wtop5 (X5 m) c = v73 m c from (host m c main_v73 (by decide)).2.2.2.2.1,
    show hid5 (X5 m) c = v65 m c from (host m c main_v65 (by decide)).2.2.2.2.1, show wbot5 (X5 m) c = v75 m c from (host m c main_v75 (by decide)).2.2.2.2.1,
    show bias5 (X5 m) c = v84 m c from (host m c main_v84 (by decide)).2.2.2.2.1]
  rfl

theorem stage6 (c : Dev nD) : (X7 m c main_v92 : Mat 10240 256)
    = KStages.out (Z m c) (v77 m c) (R m c) (v65 m c) (v79 m c) (v85 m c) (U m c) := funext fun x => by
  rw [eq_ix2 x]
  refine (congrFun (E7_arr m c 7) _).trans ((val6 (X6 m) c _ _).trans ?_)
  rw [show agg6 (X6 m) c = Z m c from (E6_keep m c main_v89 (by decide)).trans (X5_z m c),
    show wtop6 (X6 m) c = v77 m c from (host m c main_v77 (by decide)).2.2.2.2.2, show reset6 (X6 m) c = R m c from stage5 m c,
    show hid6 (X6 m) c = v65 m c from (host m c main_v65 (by decide)).2.2.2.2.2, show wbot6 (X6 m) c = v79 m c from (host m c main_v79 (by decide)).2.2.2.2.2,
    show bias6 (X6 m) c = v85 m c from (host m c main_v85 (by decide)).2.2.2.2.2,
    show upd6 (X6 m) c = U m c from (E6_keep m c main_v90 (by decide)).trans (stage4 m c)]
  rfl

-- The closing slice keeps the first 10000 rows of the last launch's output array.
theorem result_slice (c : Dev nD) :
    (E8 m c (Proc.devRef .tc main_v93) : S10000x256.Idx → EReal)
      = extractStridedSlice S10000x256 ![0, 0] (X7 m c main_v92 : S10240x256.Idx → EReal) slices_S10240x256_S10000x256_0_0 := by
  show StableHlo.after hostOps7 (E7 m c) (Proc.devRef .tc main_v93)
    = extractStridedSlice S10000x256 ![0, 0] (E7 m c (Proc.devRef .tc main_v92)) slices_S10240x256_S10000x256_0_0
  generalize E7 m c = W
  after_results

theorem kernel_result (c : Dev nD) (i : Fin 10000) (o : Fin 256) :
    (E8 m c (Proc.devRef .tc main_v93) : S10000x256.Idx → EReal) (ix2 i o)
      = KStages.kernel (v62 m c) (v64 m c) (v65 m c) (v66 m c) (v67 m c) (v69 m c) (v71 m c) (v73 m c) (v75 m c) (v77 m c) (v79 m c)
          (v80 m c) (v81 m c) (v82 m c) (v83 m c) (v84 m c) (v85 m c) (ix2 (⟨i.val, by omega⟩ : Fin 10240) o) := by
  rw [result_slice m c, stage6 m c]
  exact Cert.GateAlgebra.slice_10240_10000_apply _ slices_S10240x256_S10000x256_0_0 i o

end Cert.KernelIdeal.KVal

end
-- ==== Proof.RefValue.lean ====
import proofs.«405878_j81363860455818_1_alg».proof.Proof.Gen.ReferenceIdeal.Run
import proofs.«405878_j81363860455818_1_alg».proof.Proof.Gen.ReferenceIdeal.Read
import Idealize.ShloMosaic.Lib.ValueIdx
import Idealize.ShloMosaic.Lib.Pipeline.Value
import Idealize.ShloMosaic.PureOps.Ideal
import Idealize.ShloMosaic.PureOps.Ideal.Laws

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

def src (ei : IVec S2x320000 32) : IVec S320000 32 := fun e => ei (ix2 0 (e 0))

def dst (ei : IVec S2x320000 32) : IVec S320000 32 := fun e => ei (ix2 1 (e 0))

def wrap (v : IVec S320000 32) : IVec S320000 32 :=
  fun e => Scalar.select (IntOp.cmpi .slt (v e) 0#32) (IntOp.addi (v e) 10000#32) (v e)

def col {α : Type} (v : S320000.Idx → α) : S320000x1.Idx → α := fun j => v (ix1 (j 0))

theorem src_eq (ei : IVec S2x320000 32) : val_main_v1 (F := Ideal) ei = src ei := by
  funext e
  rw [val_main_v1_apply, val_main_v0_apply]
  exact congrArg ei (funext fun a => Fin.ext (by
    match a with
    | ⟨0, _⟩ => rfl
    | ⟨1, _⟩ => exact Nat.mod_eq_of_lt (e 0).isLt))

theorem dst_eq (ei : IVec S2x320000 32) : val_main_v3 (F := Ideal) ei = dst ei := by
  funext e
  rw [val_main_v3_apply, val_main_v2_apply]
  exact congrArg ei (funext fun a => Fin.ext (by
    match a with
    | ⟨0, _⟩ => rfl
    | ⟨1, _⟩ => exact Nat.mod_eq_of_lt (e 0).isLt))

theorem wrap_eq (v z t : IVec S320000 32) (hz : ∀ e, z e = 0#32) (ht : ∀ e, t e = 10000#32) :
    select (cmpi .slt v z) (addi v t) v = wrap v := by
  funext e
  show Scalar.select (IntOp.cmpi .slt (v e) (z e)) (IntOp.addi (v e) (t e)) (v e) = _
  rw [hz, ht]; rfl

theorem bcast_col {α : Type} (v : S320000.Idx → α) :
    broadcastInDim S320000x1 ![0] bcast_S320000_S320000x1_0 v = col v := by
  funext j
  exact broadcastInDim_apply _ bcast_S320000_S320000x1_0 v j (ix1 (j 0)) (fun a => match a with
    | ⟨0, _⟩ => by show (j 0).val = if (320000 : Nat) = 1 then 0 else (j 0).val; rw [if_neg (by decide)])

theorem splat_S10000 (b : BitVec 32) :
    broadcastInDim S10000 ![] bcast_S_S10000 (constant (F := Ideal) S_ .f32 b) = fun _ => Ideal.ofBits .f32 b := by
  funext j
  exact broadcastInDim_apply _ bcast_S_S10000 _ j ix0 (fun a => a.elim0)

theorem splat_S320000 (b : BitVec 32) :
    broadcastInDim S320000 ![] bcast_S_S320000 (constant (F := Ideal) S_ .f32 b) = fun _ => Ideal.ofBits .f32 b := by
  funext j
  exact broadcastInDim_apply _ bcast_S_S320000 _ j ix0 (fun a => a.elim0)

theorem splat_S10000x256 (b : BitVec 32) :
    broadcastInDim S10000x256 ![] bcast_S_S10000x256 (constant (F := Ideal) S_ .f32 b) = fun _ => Ideal.ofBits .f32 b := by
  funext j
  exact broadcastInDim_apply _ bcast_S_S10000x256 _ j ix0 (fun a => a.elim0)

-- Every index column of the program is the wrapped word of one row of the edge list.
theorem wrapcol_eq (v : IVec S320000 32) :
    broadcastInDim S320000x1 ![0] bcast_S320000_S320000x1_0
      (select (cmpi .slt v (val_main_v6 (F := Ideal))) (addi v (val_main_v8 (F := Ideal))) v) = col (wrap v) := by
  rw [wrap_eq _ _ _ (fun e => by rw [val_main_v6_apply]; rfl) (fun e => by rw [val_main_v8_apply]; rfl), bcast_col]

theorem v11_eq (ei : IVec S2x320000 32) : val_main_v11 (F := Ideal) ei = col (wrap (dst ei)) :=
  (wrapcol_eq (val_main_v3 ei)).trans (congrArg (fun v => col (wrap v)) (dst_eq ei))

theorem v22_eq (ei : IVec S2x320000 32) : val_main_v22 (F := Ideal) ei = col (wrap (src ei)) :=
  (wrapcol_eq (val_main_v1 ei)).trans (congrArg (fun v => col (wrap v)) (src_eq ei))

def deg (ei : IVec S2x320000 32) : FVec Ideal S10000 .f32 :=
  Ideal.hostScatterAdd scatter_S10000_S320000x1_S320000_n_0_0_1 (fun _ => Ideal.ofBits .f32 0x00000000#32)
    (col (wrap (dst ei))) (fun _ => Ideal.ofBits .f32 0x3F800000#32)

theorem v13_eq (ei : IVec S2x320000 32) : val_main_v13 (F := Ideal) ei = deg ei := by
  unfold val_main_v13 val_main_v5 val_main_v12 val_main_cst val_main_cst_1
  rw [v11_eq, splat_S10000, splat_S320000]
  rfl

def dinv (ei : IVec S2x320000 32) : FVec Ideal S10000 .f32 :=
  fun i => Ideal.rsqrt (deg ei i + Ideal.ofBits .f32 0x3F800000#32)

theorem v16_eq (ei : IVec S2x320000 32) : val_main_v16 (F := Ideal) ei = dinv ei := by
  funext i
  rw [val_main_v16_apply, val_main_v15_apply, v13_eq]
  unfold val_main_v14 val_main_cst_2
  rw [splat_S10000]
  simp only [Ideal.hostUnary_rsqrt_def, Ideal.addf_def, dinv]

def norm (ei : IVec S2x320000 32) : FVec Ideal S320000 .f32 := fun e =>
  Host.gather gather_S10000_S320000x1_S320000_n_0_n_n_0_1_1 (dinv ei) (col (wrap (src ei))) e
    * Host.gather gather_S10000_S320000x1_S320000_n_0_n_n_0_1_1 (dinv ei) (col (wrap (dst ei))) e

-- The second index column of the normalisation repeats the column of the degree count.
theorem v31_eq (ei : IVec S2x320000 32) : val_main_v31 (F := Ideal) ei = norm ei := by
  funext e
  rw [val_main_v31_apply]
  unfold val_main_v23 val_main_v30
  rw [v16_eq, v22_eq, show val_main_v29 (F := Ideal) ei = _ from v11_eq ei]
  simp only [Ideal.mulf_def, norm]

def mm {K : Nat} (x : (⟨2, ![10000, K]⟩ : Shape).Idx → EReal) (W : (⟨2, ![K, 256]⟩ : Shape).Idx → EReal) :
    FVec Ideal S10000x256 .f32 :=
  fun i => ∑ k : Fin K, x (ix2 (i 0) k) * W (ix2 k (i 1))

-- A contraction over one axis whose index maps are the row of the left and the column of the right operand.
theorem mm_of {K : Nat} (x : (⟨2, ![10000, K]⟩ : Shape).Idx → EReal) (W : (⟨2, ![K, 256]⟩ : Shape).Idx → EReal)
    (i : S10000x256.Idx) (l : Fin K → (⟨2, ![10000, K]⟩ : Shape).Idx) (r : Fin K → (⟨2, ![K, 256]⟩ : Shape).Idx)
    (hl : ∀ k, l k = ix2 (i 0) k) (hr : ∀ k, r k = ix2 k (i 1)) : ∑ k : Fin K, x (l k) * W (r k) = mm x W i :=
  Finset.sum_congr rfl fun k _ => by rw [hl, hr]; rfl

theorem v4_eq (x : FVec Ideal S10000x128 .f32) (W : FVec Ideal S128x256 .f32) :
    val_main_v4 (F := Ideal) x W = mm x W :=
  funext fun i => (val_main_v4_apply x W i).trans (mm_of x W i (lidx_main_v4 i) (ridx_main_v4 i) (fun _ => eq_ix2 _) (fun _ => eq_ix2 _))

def msg (y : FVec Ideal S10000x256 .f32) (ei : IVec S2x320000 32) : FVec Ideal S320000x256 .f32 := fun j =>
  Host.gather gather_S10000x256_S320000x1_S320000x256_1_0_n_n_0_1_1256 y (col (wrap (src ei))) j * norm ei (ix1 (j 0))

def agg (y : FVec Ideal S10000x256 .f32) (ei : IVec S2x320000 32) : FVec Ideal S10000x256 .f32 :=
  Ideal.hostScatterAdd scatter_S10000x256_S320000x1_S320000x256_1_0_0_1 (fun _ => Ideal.ofBits .f32 0x00000000#32)
    (col (dst ei)) (msg y ei)

def conv (y : FVec Ideal S10000x256 .f32) (b : FVec Ideal S256 .f32) (ei : IVec S2x320000 32) :
    FVec Ideal S10000x256 .f32 := fun i =>
  agg y ei i + y i * (dinv ei (ix1 (i 0)) * dinv ei (ix1 (i 0))) + b (ix1 (i 1))

def layer {K : Nat} (x : (⟨2, ![10000, K]⟩ : Shape).Idx → EReal) (W : (⟨2, ![K, 256]⟩ : Shape).Idx → EReal)
    (b : FVec Ideal S256 .f32) (ei : IVec S2x320000 32) : FVec Ideal S10000x256 .f32 :=
  conv (mm x W) b ei

-- The bias row read at every node row.
theorem v51_eq (b : FVec Ideal S256 .f32) : val_main_v51 (F := Ideal) b = fun i => b (ix1 (i 1)) :=
  funext fun i => by rw [val_main_v51_apply, val_main_v50_apply]; exact congrArg b (eq_ix1 _)

-- One graph convolution of node features `y`: both layers of the program run these operations.
theorem conv_eq (y : FVec Ideal S10000x256 .f32) (b : FVec Ideal S256 .f32) (ei : IVec S2x320000 32) :
    addf (F := Ideal) (φ := .f32)
      (addf (F := Ideal) (φ := .f32)
        (Host.scatterAdd scatter_S10000x256_S320000x1_S320000x256_1_0_0_1 (val_main_v42 (F := Ideal)) (val_main_v43 (F := Ideal) ei)
          (mulf (F := Ideal) (φ := .f32)
            (Host.gather gather_S10000x256_S320000x1_S320000x256_1_0_n_n_0_1_1256 y (val_main_v37 (F := Ideal) ei))
            (val_main_v40 (F := Ideal) ei)))
        (mulf (F := Ideal) (φ := .f32) y (val_main_v47 (F := Ideal) ei)))
      (val_main_v51 (F := Ideal) b) = conv y b ei := by
  have h40 : val_main_v40 (F := Ideal) ei = fun j => norm ei (ix1 (j 0)) := funext fun j => by
    rw [val_main_v40_apply, val_main_v39_apply, v31_eq]; exact congrArg (norm ei) (eq_ix1 _)
  have h47 : val_main_v47 (F := Ideal) ei = fun i => dinv ei (ix1 (i 0)) * dinv ei (ix1 (i 0)) := funext fun i => by
    rw [val_main_v47_apply, val_main_v46_apply, val_main_v45_apply, v16_eq]
    exact congrArg (fun k => dinv ei k * dinv ei k) (eq_ix1 _)
  unfold val_main_v43 val_main_v42 val_main_cst_9
  rw [v51_eq, h47, h40, splat_S10000x256, dst_eq, bcast_col, show val_main_v37 (F := Ideal) ei = _ from v22_eq ei]
  rfl

section Layers
variable (x : FVec Ideal S10000x128 .f32) (ei : IVec S2x320000 32) (W1 : FVec Ideal S128x256 .f32) (b1 : FVec Ideal S256 .f32)
  (W2 : FVec Ideal S256x256 .f32) (b2 : FVec Ideal S256 .f32)

theorem v52_eq : val_main_v52 (F := Ideal) x ei W1 b1 = layer x W1 b1 ei := by
  unfold val_main_v52 val_main_v49 val_main_v48 val_main_v44 val_main_v41 val_main_v38
  rw [conv_eq, v4_eq, layer]

def hidden (x : FVec Ideal S10000x128 .f32) (W1 : FVec Ideal S128x256 .f32) (b1 : FVec Ideal S256 .f32)
    (ei : IVec S2x320000 32) : FVec Ideal S10000x256 .f32 :=
  fun i => max (layer x W1 b1 ei i) (Ideal.ofBits .f32 0x00000000#32)

theorem v54_eq : val_main_v54 (F := Ideal) x ei W1 b1 = hidden x W1 b1 ei := by
  funext i
  rw [val_main_v54_apply, v52_eq]
  unfold val_main_v53 val_main_cst_10
  rw [splat_S10000x256]
  simp only [Ideal.maximumf_def, hidden]

theorem v55_eq :
    val_main_v55 (F := Ideal) x ei W1 b1 W2 = mm (hidden x W1 b1 ei) W2 := by
  funext i
  rw [val_main_v55_apply, v54_eq]
  exact mm_of _ W2 i (lidx_main_v55 i) (ridx_main_v55 i) (fun _ => eq_ix2 _) (fun _ => eq_ix2 _)

-- The second layer is the first layer's operations over the hidden features.
theorem v103_eq :
    val_main_v103 (F := Ideal) x ei W1 b1 W2 b2 = layer (hidden x W1 b1 ei) W2 b2 ei := by
  unfold val_main_v103 val_main_v100 val_main_v99 val_main_v95 val_main_v92 val_main_v89
  rw [show val_main_v93 (F := Ideal) = val_main_v42 from rfl, show val_main_v94 (F := Ideal) ei = val_main_v43 ei from rfl,
    show val_main_v88 (F := Ideal) ei = val_main_v37 ei from rfl, show val_main_v91 (F := Ideal) ei = val_main_v40 ei from rfl,
    show val_main_v98 (F := Ideal) ei = val_main_v47 ei from rfl, show val_main_v102 (F := Ideal) b2 = val_main_v51 b2 from rfl,
    conv_eq, v55_eq, layer]

def embed (x : FVec Ideal S10000x128 .f32) (ei : IVec S2x320000 32) (W1 : FVec Ideal S128x256 .f32)
    (b1 : FVec Ideal S256 .f32) (W2 : FVec Ideal S256x256 .f32) (b2 : FVec Ideal S256 .f32) :
    FVec Ideal S10000x256 .f32 :=
  fun i => Ideal.tanh (layer (hidden x W1 b1 ei) W2 b2 ei i)

theorem v104_eq :
    val_main_v104 (F := Ideal) x ei W1 b1 W2 b2 = embed x ei W1 b1 W2 b2 := by
  funext i
  rw [val_main_v104_apply, v103_eq]
  simp only [Ideal.hostUnary_tanh_def, embed]

end Layers

def cat (a b : FVec Ideal S10000x256 .f32) : FVec Ideal S10000x512 .f32 :=
  concatenate S10000x512 1 [⟨S10000x256, a⟩, ⟨S10000x256, b⟩] concatenates_S10000x256_S10000x256_S10000x512_d1

def gatePre (a b : FVec Ideal S10000x256 .f32) (W : FVec Ideal S512x256 .f32) (c : FVec Ideal S256 .f32) :
    FVec Ideal S10000x256 .f32 :=
  fun i => mm (cat a b) W i + c (ix1 (i 1))

def sigm (v : EReal) : EReal :=
  Ideal.div (Ideal.ofBits .f32 0x3F800000#32) (Ideal.ofBits .f32 0x3F800000#32 + Ideal.exp (-v))

def gate (a b : FVec Ideal S10000x256 .f32) (W : FVec Ideal S512x256 .f32) (c : FVec Ideal S256 .f32) :
    FVec Ideal S10000x256 .f32 :=
  fun i => sigm (gatePre a b W c i)

def candidate (z h : FVec Ideal S10000x256 .f32) (Wr : FVec Ideal S512x256 .f32) (br : FVec Ideal S256 .f32)
    (Wc : FVec Ideal S512x256 .f32) (bc : FVec Ideal S256 .f32) : FVec Ideal S10000x256 .f32 :=
  fun i => Ideal.tanh (gatePre z (fun j => gate z h Wr br j * h j) Wc bc i)

def blend (z h : FVec Ideal S10000x256 .f32) (Wu : FVec Ideal S512x256 .f32) (bu : FVec Ideal S256 .f32)
    (Wr : FVec Ideal S512x256 .f32) (br : FVec Ideal S256 .f32) (Wc : FVec Ideal S512x256 .f32)
    (bc : FVec Ideal S256 .f32) : FVec Ideal S10000x256 .f32 :=
  fun i => gate z h Wu bu i * h i
    + (Ideal.ofBits .f32 0x3F800000#32 - gate z h Wu bu i) * candidate z h Wr br Wc bc i

def result (x : FVec Ideal S10000x128 .f32) (h : FVec Ideal S10000x256 .f32) (ei : IVec S2x320000 32)
    (W1 : FVec Ideal S128x256 .f32) (b1 : FVec Ideal S256 .f32) (W2 : FVec Ideal S256x256 .f32)
    (b2 : FVec Ideal S256 .f32) (Wu : FVec Ideal S512x256 .f32) (bu : FVec Ideal S256 .f32)
    (Wr : FVec Ideal S512x256 .f32) (br : FVec Ideal S256 .f32) (Wc : FVec Ideal S512x256 .f32)
    (bc : FVec Ideal S256 .f32) : FVec Ideal S10000x256 .f32 :=
  blend (embed x ei W1 b1 W2 b2) h Wu bu Wr br Wc bc

section Gates
variable (x : FVec Ideal S10000x128 .f32) (h : FVec Ideal S10000x256 .f32) (ei : IVec S2x320000 32)
  (W1 : FVec Ideal S128x256 .f32) (b1 : FVec Ideal S256 .f32) (W2 : FVec Ideal S256x256 .f32) (b2 : FVec Ideal S256 .f32)
  (W : FVec Ideal S512x256 .f32) (c : FVec Ideal S256 .f32) (W' : FVec Ideal S512x256 .f32) (c' : FVec Ideal S256 .f32)

-- The pre-activation of a gate over the embedding joined to `h`; the three gates differ in `h`, `W` and `c` only.
theorem v109_eq : val_main_v109 (F := Ideal) x h ei W1 b1 W2 b2 W c = gatePre (embed x ei W1 b1 W2 b2) h W c := by
  funext i
  rw [val_main_v109_apply, val_main_v106_apply,
    show val_main_v105 (F := Ideal) x h ei W1 b1 W2 b2 = cat (embed x ei W1 b1 W2 b2) h from
      congrArg (cat · h) (v104_eq x ei W1 b1 W2 b2)]
  rw [show val_main_v108 (F := Ideal) c = _ from v51_eq c]
  exact congrArg (· + c (ix1 (i 1))) (mm_of _ W i (lidx_main_v106 i) (ridx_main_v106 i) (fun _ => eq_ix2 _) (fun _ => eq_ix2 _))

theorem v115_eq : val_main_v115 (F := Ideal) x h ei W1 b1 W2 b2 W c = gate (embed x ei W1 b1 W2 b2) h W c := by
  funext i
  rw [val_main_v115_apply, val_main_v113_apply, val_main_v111_apply, val_main_v110_apply, v109_eq]
  unfold val_main_v114 val_main_v112 val_main_cst_24 val_main_cst_23
  rw [splat_S10000x256]
  simp only [Ideal.hostDivf_def, Ideal.addf_def, Ideal.hostUnary_exp_def, Ideal.hostNegf_def, Ideal.negf_def, gate, sigm]

-- The candidate's pre-activation is a gate's, with the reset gate times `h` in the place of `h`.
theorem v132_eq : val_main_v132 (F := Ideal) x h ei W1 b1 W2 b2 W c W' c'
    = candidate (embed x ei W1 b1 W2 b2) h W c W' c' := by
  have e126 : val_main_v126 (F := Ideal) x h ei W1 b1 W2 b2 W c = fun j => gate (embed x ei W1 b1 W2 b2) h W c j * h j := by
    unfold val_main_v126
    rw [show val_main_v125 (F := Ideal) x h ei W1 b1 W2 b2 W c = _ from v115_eq x h ei W1 b1 W2 b2 W c]
    rfl
  have e : val_main_v131 (F := Ideal) x h ei W1 b1 W2 b2 W c W' c'
      = gatePre (embed x ei W1 b1 W2 b2) (fun j => gate (embed x ei W1 b1 W2 b2) h W c j * h j) W' c' := by
    have e := v109_eq x (val_main_v126 (F := Ideal) x h ei W1 b1 W2 b2 W c) ei W1 b1 W2 b2 W' c'
    unfold val_main_v109 val_main_v106 val_main_v105 at e
    unfold val_main_v131 val_main_v128 val_main_v127
    rw [show val_main_v130 (F := Ideal) c' = val_main_v108 c' from rfl, e, e126]
  funext i
  rw [val_main_v132_apply, e]
  simp only [Ideal.hostUnary_tanh_def, candidate]

theorem v137_eq (Wu : FVec Ideal S512x256 .f32) (bu : FVec Ideal S256 .f32) :
    val_main_v137 (F := Ideal) x h ei W1 b1 W2 b2 Wu bu W c W' c' = result x h ei W1 b1 W2 b2 Wu bu W c W' c' := by
  funext i
  rw [val_main_v137_apply, val_main_v133_apply, val_main_v136_apply, val_main_v135_apply, v115_eq, v132_eq]
  unfold val_main_v134 val_main_cst_27
  rw [splat_S10000x256]
  simp only [Ideal.addf_def, Ideal.mulf_def, Ideal.subf_def, result, blend]

end Gates

theorem ref_result (m : (ℓ : Loc nD τ sig) → Buf (Elt Ideal) ℓ) (c : Dev nD) :
    Cert.ReferenceIdeal.Value.res_out0 (F := Ideal) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) :=
  (val_main_v137_eq (F := Ideal) m c).trans (v137_eq _ _ _ _ _ _ _ _ _ _ _ _ _)

end Cert.RefValue

end
-- ==== Proof.RefCat.lean ====
import proofs.«405878_j81363860455818_1_alg».proof.Proof.RefValue
import Mathlib.Algebra.BigOperators.Fin

noncomputable section

namespace Cert.RefValue

open Cert.ReferenceIdeal Cert.ReferenceIdeal.Gen Idealize.ShloMosaic Idealize.ShloMosaic.ValueIdx

theorem cat_left (a b : FVec Ideal S10000x256 .f32) (i : Fin 10000) (k : Fin 256) :
    cat a b (ix2 i (⟨k.val, by omega⟩ : Fin 512)) = a (ix2 i k) := by
  unfold cat
  exact concatenate_pair_apply_left 1 a b concatenates_S10000x256_S10000x256_S10000x512_d1
    (ix2 i (⟨k.val, by omega⟩ : Fin 512)) rfl (ix2 i k) (fun c => by match c with | ⟨0, _⟩ => rfl | ⟨1, _⟩ => rfl)

theorem cat_right (a b : FVec Ideal S10000x256 .f32) (i : Fin 10000) (k : Fin 256) :
    cat a b (ix2 i (⟨k.val + 256, by omega⟩ : Fin 512)) = b (ix2 i k) := by
  unfold cat
  exact concatenate_pair_apply_right 1 a b concatenates_S10000x256_S10000x256_S10000x512_d1
    (ix2 i (⟨k.val + 256, by omega⟩ : Fin 512)) rfl rfl (ix2 i k)
    (fun c hc => by
      match c with
      | ⟨0, _⟩ => rfl
      | ⟨1, _⟩ => exact absurd (Fin.ext rfl) hc)
    rfl

-- A contraction against two blocks joined along the contracted axis splits into the two blocks' contractions.
theorem mm_cat (a b : FVec Ideal S10000x256 .f32) (W : FVec Ideal S512x256 .f32) (i : S10000x256.Idx) :
    mm (cat a b) W i
      = (∑ k : Fin 256, a (ix2 (i 0) k) * W (ix2 (⟨k.val, by omega⟩ : Fin 512) (i 1)))
        + ∑ k : Fin 256, b (ix2 (i 0) k) * W (ix2 (⟨k.val + 256, by omega⟩ : Fin 512) (i 1)) := by
  let F : Fin 512 → EReal := fun k => cat a b (ix2 (i 0) k) * W (ix2 k (i 1))
  have hsplit : ∑ k : Fin 512, F k
      = (∑ k : Fin 256, F (Fin.castAdd 256 k)) + ∑ k : Fin 256, F (Fin.natAdd 256 k) :=
    Fin.sum_univ_add (a := 256) (b := 256) F
  refine hsplit.trans (congrArg₂ (· + ·) ?_ ?_)
  · refine Finset.sum_congr rfl fun k _ => ?_
    exact congrArg (· * W (ix2 (⟨k.val, by omega⟩ : Fin 512) (i 1))) (cat_left a b (i 0) k)
  · refine Finset.sum_congr rfl fun k _ => ?_
    have e : (Fin.natAdd 256 k : Fin 512) = ⟨k.val + 256, by omega⟩ := Fin.ext (Nat.add_comm 256 k.val)
    exact (congrArg F e).trans
      (congrArg (· * W (ix2 (⟨k.val + 256, by omega⟩ : Fin 512) (i 1))) (cat_right a b (i 0) k))

end Cert.RefValue

end
-- ==== Proof.ScatterRead.lean ====
import proofs.«405878_j81363860455818_1_alg».proof.ReferenceIdeal
import proofs.«405878_j81363860455818_1_alg».proof.KernelIdeal
import Idealize.ShloMosaic.PureOps.Ideal
import Idealize.ShloMosaic.Lib.ValueIdx
import Mathlib.Algebra.BigOperators.Group.Finset.Basic

open scoped BigOperators
open Idealize.ShloMosaic Idealize.ShloMosaic.ValueIdx

namespace Cert.ScatterRead

theorem mem_sKept' {s si u : Shape} (d : ScatterDims s si u) (a : Fin s.rank) :
    a ∈ d.sKept ↔ a ∉ d.insertedWindowDims := by
  simp [ScatterDims.sKept, Shape.kept, List.mem_filter, List.mem_finRange]

-- An update lands on `i` exactly when its start plus its window coordinate is `i` on every axis.
theorem resultIdx?_eq_some_iff {s si u : Shape} (d : ScatterDims s si u) {w : Nat} (j : u.Idx) (idx : IVec si w)
    (i : s.Idx) : d.resultIdx? j idx = some i ↔ ∀ a, d.start j idx a + d.window j a = ((i a).val : Int) := by
  unfold ScatterDims.resultIdx?
  by_cases h : ∀ a, 0 ≤ d.start j idx a + d.window j a ∧ d.start j idx a + d.window j a < s.size a
  · rw [dif_pos h]
    refine ⟨fun e a => ?_, fun e => congrArg some (funext fun a => Fin.ext ?_)⟩
    · have h1 : (d.start j idx a + d.window j a).toNat = (i a).val := congrArg Fin.val (congrFun (Option.some.inj e) a)
      have := h a
      omega
    · show (d.start j idx a + d.window j a).toNat = (i a).val
      have := e a
      omega
  · rw [dif_neg h]
    refine ⟨fun e => (nomatch e), fun e => absurd (fun a => ?_) h⟩
    have := e a
    have := (i a).isLt
    omega

-- A non-negative start with no window coordinate lands on `n` exactly when its natural-number reading is `n`.
theorem start_eq_iff {z : Int} {n : Nat} (hz : 0 ≤ z) : z + ((0 : Nat) : Int) = (n : Int) ↔ z.toNat = n := by omega

theorem window_eq_iff {m n : Nat} : (0 : Int) + (m : Int) = (n : Int) ↔ m = n := by omega

section Generic
variable {N E C M0 M1 w : Nat} {α : Type}

section Vec
variable (wf : ScatterDims.WF ⟨1, ![N]⟩ ⟨2, ![E, 1]⟩ ⟨1, ![E]⟩ [] [0] [0] 1)

abbrev vecDims :
    ScatterDims ⟨1, ![N]⟩ ⟨2, ![E, 1]⟩ ⟨1, ![E]⟩ where
  updateWindowDims := []
  insertedWindowDims := [0]
  scatterDimsToOperandDims := [0]
  indexVectorDim := 1
  wf := wf

-- The flat scatter at `i`: the operand plus the updates whose word is `i`.
theorem scatterAdd_vecDims_apply
    (x : (⟨1, ![N]⟩ : Shape).Idx → EReal) (idx : IVec ⟨2, ![E, 1]⟩ w) (upd : (⟨1, ![E]⟩ : Shape).Idx → EReal)
    (i : (⟨1, ![N]⟩ : Shape).Idx) (h : ∀ e, 0 ≤ (idx e).toInt ∧ (idx e).toInt < N) :
    Ideal.hostScatterAdd (vecDims wf) x idx upd i
      = x i + ∑ e ∈ Finset.univ.filter (fun e : (⟨1, ![E]⟩ : Shape).Idx => (idx (ix2 (e 0) 0)).toInt.toNat = (i 0).val), upd e := by
  unfold Ideal.hostScatterAdd
  congr 1
  refine Finset.sum_congr (Finset.filter_congr fun j _ => ?_) fun _ _ => rfl
  have hs : (vecDims wf).start j idx (0 : Fin 1) = (idx (ix2 (j 0) 0)).toInt := by
    unfold ScatterDims.start
    rw [dif_pos (show (0 : Fin 1) ∈ (vecDims wf).scatterDimsToOperandDims from List.mem_singleton.mpr rfl)]
    exact congrArg (fun k => (idx k).toInt) (funext fun b => Fin.ext (by match b with | ⟨0, _⟩ => rfl | ⟨1, _⟩ => rfl))
  have hw : (vecDims wf).window j (0 : Fin 1) = 0 := by
    unfold ScatterDims.window
    rw [dif_neg (fun h => by simp [ScatterDims.sKept, Shape.kept] at h)]
  rw [resultIdx?_eq_some_iff, Fin.forall_fin_one, hs, hw]
  exact start_eq_iff (h _).1

end Vec

section Rows
variable (wf : ScatterDims.WF ⟨2, ![N, C]⟩ ⟨2, ![E, 1]⟩ ⟨2, ![E, C]⟩ [1] [0] [0] 1)

abbrev rowDims :
    ScatterDims ⟨2, ![N, C]⟩ ⟨2, ![E, 1]⟩ ⟨2, ![E, C]⟩ where
  updateWindowDims := [1]
  insertedWindowDims := [0]
  scatterDimsToOperandDims := [0]
  indexVectorDim := 1
  wf := wf

-- The row scatter at `(i, c)`: the operand plus the updates at `(e, c)` of the edges whose word is `i`.
theorem scatterAdd_rowDims_apply
    (x : (⟨2, ![N, C]⟩ : Shape).Idx → EReal) (idx : IVec ⟨2, ![E, 1]⟩ w) (upd : (⟨2, ![E, C]⟩ : Shape).Idx → EReal)
    (i : (⟨2, ![N, C]⟩ : Shape).Idx) (h : ∀ e, 0 ≤ (idx e).toInt ∧ (idx e).toInt < N) :
    Ideal.hostScatterAdd (rowDims wf) x idx upd i
      = x i + ∑ e ∈ Finset.univ.filter (fun e : (⟨1, ![E]⟩ : Shape).Idx => (idx (ix2 (e 0) 0)).toInt.toNat = (i 0).val),
          upd (ix2 (e 0) (i 1)) := by
  have key : ∀ j : (⟨2, ![E, C]⟩ : Shape).Idx, (rowDims wf).resultIdx? j idx = some i ↔
      (idx (ix2 (j 0) 0)).toInt.toNat = (i 0).val ∧ (j 1).val = (i 1).val := fun j => by
    have hs0 : (rowDims wf).start j idx (0 : Fin 2) = (idx (ix2 (j 0) 0)).toInt := by
      unfold ScatterDims.start
      rw [dif_pos (show (0 : Fin 2) ∈ (rowDims wf).scatterDimsToOperandDims from List.mem_singleton.mpr rfl)]
      exact congrArg (fun k => (idx k).toInt) (funext fun b => Fin.ext (by match b with | ⟨0, _⟩ => rfl | ⟨1, _⟩ => rfl))
    have hs1 : (rowDims wf).start j idx (1 : Fin 2) = 0 := by
      unfold ScatterDims.start
      rw [dif_neg (show (1 : Fin 2) ∉ ([0] : List (Fin 2)) by decide)]
    have hw0 : (rowDims wf).window j (0 : Fin 2) = 0 := by
      unfold ScatterDims.window
      rw [dif_neg (fun h => (mem_sKept' _ _).mp h (List.mem_singleton.mpr rfl))]
    have hw1 : (rowDims wf).window j (1 : Fin 2) = (j 1).val := by
      unfold ScatterDims.window
      rw [dif_pos ((mem_sKept' _ _).mpr (show (1 : Fin 2) ∉ ([0] : List (Fin 2)) by decide))]
      rfl
    rw [resultIdx?_eq_some_iff, Fin.forall_fin_two, hs0, hs1, hw0, hw1]
    exact and_congr (start_eq_iff (h _).1) window_eq_iff
  have back : ∀ j : (⟨2, ![E, C]⟩ : Shape).Idx, (j 1).val = (i 1).val → ix2 (j 0) (i 1) = j := fun j hj =>
    funext fun b => by
      match b with
      | ⟨0, _⟩ => rfl
      | ⟨1, _⟩ => exact (Fin.ext hj).symm
  unfold Ideal.hostScatterAdd
  congr 1
  rw [Finset.filter_congr fun j _ => key j]
  refine Finset.sum_nbij' (fun j => ix1 (j 0)) (fun e => ix2 (e 0) (i 1)) ?_ ?_ ?_ ?_ ?_
  · exact fun j hj => Finset.mem_filter.mpr ⟨Finset.mem_univ _, (Finset.mem_filter.mp hj).2.1⟩
  · exact fun e he => Finset.mem_filter.mpr ⟨Finset.mem_univ _, (Finset.mem_filter.mp he).2, rfl⟩
  · exact fun j hj => back j (Finset.mem_filter.mp hj).2.2
  · exact fun e _ => (eq_ix1 e).symm
  · exact fun j hj => congrArg upd (back j (Finset.mem_filter.mp hj).2.2).symm

end Rows

section Point
variable (wf : ScatterDims.WF ⟨2, ![M0, M1]⟩ ⟨2, ![E, 2]⟩ ⟨1, ![E]⟩ [] [0, 1] [0, 1] 1)

abbrev pointDims :
    ScatterDims ⟨2, ![M0, M1]⟩ ⟨2, ![E, 2]⟩ ⟨1, ![E]⟩ where
  updateWindowDims := []
  insertedWindowDims := [0, 1]
  scatterDimsToOperandDims := [0, 1]
  indexVectorDim := 1
  wf := wf

-- The point scatter at `(i, j)`: the operand plus the updates whose pair of words is `(i, j)`.
theorem scatterAdd_pointDims_apply {K : Nat}
    (x : (⟨2, ![M0, M1]⟩ : Shape).Idx → EReal) (idx : IVec ⟨2, ![E, 2]⟩ w) (upd : (⟨1, ![E]⟩ : Shape).Idx → EReal)
    (i : (⟨2, ![M0, M1]⟩ : Shape).Idx) (h : ∀ e, 0 ≤ (idx e).toInt ∧ (idx e).toInt < K) :
    Ideal.hostScatterAdd (pointDims wf) x idx upd i
      = x i + ∑ e ∈ Finset.univ.filter (fun e : (⟨1, ![E]⟩ : Shape).Idx =>
          (idx (ix2 (e 0) 0)).toInt.toNat = (i 0).val ∧ (idx (ix2 (e 0) 1)).toInt.toNat = (i 1).val), upd e := by
  unfold Ideal.hostScatterAdd
  congr 1
  refine Finset.sum_congr (Finset.filter_congr fun j _ => ?_) fun _ _ => rfl
  have hmem : ∀ b : Fin 2, b ∈ ([0, 1] : List (Fin 2)) := by decide
  have hs : ∀ c : Fin 2, (pointDims wf).start j idx c = (idx (ix2 (j 0) c)).toInt := fun c => by
    have hm : c ∈ (pointDims wf).scatterDimsToOperandDims := hmem c
    unfold ScatterDims.start
    rw [dif_pos hm]
    refine congrArg (fun k => (idx k).toInt) (funext fun b => Fin.ext ?_)
    match c, b with
    | ⟨0, _⟩, ⟨0, _⟩ => rfl
    | ⟨0, _⟩, ⟨1, _⟩ => rfl
    | ⟨1, _⟩, ⟨0, _⟩ => rfl
    | ⟨1, _⟩, ⟨1, _⟩ => rfl
  have hw : ∀ c : Fin 2, (pointDims wf).window j c = 0 := fun c => by
    unfold ScatterDims.window
    rw [dif_neg (fun h => (mem_sKept' _ _).mp h (hmem c))]
  rw [resultIdx?_eq_some_iff, Fin.forall_fin_two, hs, hs, hw, hw]
  exact and_congr (start_eq_iff (h _).1) (start_eq_iff (h _).1)

end Point

section GVec
variable (wf : GatherDims.WF ⟨1, ![N]⟩ ⟨2, ![E, 1]⟩ ⟨1, ![E]⟩ [] [0] [] [0] [] 1 ![1])

abbrev gvecDims :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

-- The flat gather at `e`: the operand at the word of `e`.
theorem gather_gvecDims_apply
    (x : (⟨1, ![N]⟩ : Shape).Idx → α) (idx : IVec ⟨2, ![E, 1]⟩ w) (e : (⟨1, ![E]⟩ : Shape).Idx)
    (h : 0 ≤ (idx (ix2 (e 0) 0)).toInt ∧ (idx (ix2 (e 0) 0)).toInt < N) :
    Host.gather (gvecDims wf) x idx e = x (ix1 ⟨(idx (ix2 (e 0) 0)).toInt.toNat, by omega⟩) := by
  unfold Host.gather
  congr 1
  funext a
  obtain rfl : a = 0 := Subsingleton.elim _ _
  refine Fin.ext ?_
  show (gvecDims wf).start e idx 0 + (gvecDims wf).batchCoord e 0 + (gvecDims wf).offCoord e 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gvecDims wf).startIndexMap from List.mem_singleton.mpr rfl)]
  have hsi : (gvecDims wf).siIdx e ⟨List.idxOf (0 : Fin 1) (gvecDims wf).startIndexMap,
      List.idxOf_lt_length_iff.2 (List.mem_singleton.mpr rfl)⟩ = ix2 (e 0) 0 :=
    funext fun b => Fin.ext (by match b with | ⟨0, _⟩ => rfl | ⟨1, _⟩ => rfl)
  rw [hsi]
  show min (idx (ix2 (e 0) 0)).toInt.toNat (N - 1) + 0 + 0 = (idx (ix2 (e 0) 0)).toInt.toNat
  omega

end GVec

section GRow
variable (wf : GatherDims.WF ⟨2, ![N, C]⟩ ⟨2, ![E, 1]⟩ ⟨2, ![E, C]⟩ [1] [0] [] [0] [] 1 ![1, C])

abbrev growDims :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

-- The row gather at `(e, c)`: the operand at `(word of e, c)`.
theorem gather_growDims_apply
    (x : (⟨2, ![N, C]⟩ : Shape).Idx → α) (idx : IVec ⟨2, ![E, 1]⟩ w) (j : (⟨2, ![E, C]⟩ : Shape).Idx)
    (h : 0 ≤ (idx (ix2 (j 0) 0)).toInt ∧ (idx (ix2 (j 0) 0)).toInt < N) :
    Host.gather (growDims wf) x idx j = x (ix2 ⟨(idx (ix2 (j 0) 0)).toInt.toNat, by omega⟩ (j 1)) := by
  unfold Host.gather
  congr 1
  funext a
  refine Fin.ext ?_
  show (growDims wf).start j idx a + (growDims wf).batchCoord j a + (growDims wf).offCoord j a = _
  rw [GatherDims.batchCoord_eq_zero _ _ _ List.not_mem_nil]
  match a with
  | ⟨0, _⟩ =>
    show (growDims wf).start j idx (0 : Fin 2) + 0 + (growDims wf).offCoord j (0 : Fin 2) = (idx (ix2 (j 0) 0)).toInt.toNat
    rw [GatherDims.offCoord_eq_zero _ _ _ (fun h => ((GatherDims.mem_sKept _ _).mp h).1 (List.mem_singleton.mpr rfl))]
    unfold GatherDims.start
    rw [dif_pos (show (0 : Fin 2) ∈ (growDims wf).startIndexMap from List.mem_singleton.mpr rfl)]
    have hsi : (growDims wf).siIdx j ⟨List.idxOf (0 : Fin 2) (growDims wf).startIndexMap,
        List.idxOf_lt_length_iff.2 (List.mem_singleton.mpr rfl)⟩ = ix2 (j 0) 0 :=
      funext fun b => Fin.ext (by match b with | ⟨0, _⟩ => rfl | ⟨1, _⟩ => rfl)
    rw [hsi]
    show min (idx (ix2 (j 0) 0)).toInt.toNat (N - 1) + 0 + 0 = (idx (ix2 (j 0) 0)).toInt.toNat
    omega
  | ⟨1, _⟩ =>
    have hs : (growDims wf).start j idx (1 : Fin 2) = 0 := by
      unfold GatherDims.start
      rw [dif_neg (show (1 : Fin 2) ∉ ([0] : List (Fin 2)) by decide)]
    have ho : (growDims wf).offCoord j (1 : Fin 2) = (j 1).val := by
      unfold GatherDims.offCoord
      rw [dif_pos ((GatherDims.mem_sKept _ _).mpr ⟨(show (1 : Fin 2) ∉ ([0] : List (Fin 2)) by decide), List.not_mem_nil⟩)]
      rfl
    show (growDims wf).start j idx (1 : Fin 2) + 0 + (growDims wf).offCoord j (1 : Fin 2) = (j 1).val
    rw [hs, ho]; omega

end GRow

end Generic

theorem scatterAdd_vec_apply [Cert.ReferenceIdeal.Facts₀]
    (x : Cert.ReferenceIdeal.S10000.Idx → EReal) (idx : IVec Cert.ReferenceIdeal.S320000x1 32)
    (upd : Cert.ReferenceIdeal.S320000.Idx → EReal) (i : Cert.ReferenceIdeal.S10000.Idx)
    (h : ∀ e, 0 ≤ (idx e).toInt ∧ (idx e).toInt < 10000) :
    Ideal.hostScatterAdd Cert.ReferenceIdeal.scatter_S10000_S320000x1_S320000_n_0_0_1 x idx upd i
      = x i + ∑ e ∈ Finset.univ.filter (fun e : Cert.ReferenceIdeal.S320000.Idx =>
          (idx (ValueIdx.ix2 (e 0) 0)).toInt.toNat = (i 0).val), upd e :=
  scatterAdd_vecDims_apply (N := 10000) (E := 320000) Cert.ReferenceIdeal.Facts₀.scatter_S10000_S320000x1_S320000_n_0_0_1_wf x idx upd i h

theorem scatterAdd_rows_apply [Cert.ReferenceIdeal.Facts₀]
    (x : Cert.ReferenceIdeal.S10000x256.Idx → EReal) (idx : IVec Cert.ReferenceIdeal.S320000x1 32)
    (upd : Cert.ReferenceIdeal.S320000x256.Idx → EReal) (i : Cert.ReferenceIdeal.S10000x256.Idx)
    (h : ∀ e, 0 ≤ (idx e).toInt ∧ (idx e).toInt < 10000) :
    Ideal.hostScatterAdd Cert.ReferenceIdeal.scatter_S10000x256_S320000x1_S320000x256_1_0_0_1 x idx upd i
      = x i + ∑ e ∈ Finset.univ.filter (fun e : Cert.ReferenceIdeal.S320000.Idx =>
          (idx (ValueIdx.ix2 (e 0) 0)).toInt.toNat = (i 0).val), upd (ValueIdx.ix2 (e 0) (i 1)) :=
  scatterAdd_rowDims_apply (N := 10000) (E := 320000) (C := 256)
    Cert.ReferenceIdeal.Facts₀.scatter_S10000x256_S320000x1_S320000x256_1_0_0_1_wf x idx upd i h

theorem gather_vec_apply [Cert.ReferenceIdeal.Facts₀] {α : Type}
    (x : Cert.ReferenceIdeal.S10000.Idx → α) (idx : IVec Cert.ReferenceIdeal.S320000x1 32)
    (e : Cert.ReferenceIdeal.S320000.Idx)
    (h : ∀ e, 0 ≤ (idx e).toInt ∧ (idx e).toInt < 10000) :
    Host.gather Cert.ReferenceIdeal.gather_S10000_S320000x1_S320000_n_0_n_n_0_1_1 x idx e
      = x (ValueIdx.ix1 ⟨(idx (ValueIdx.ix2 (e 0) 0)).toInt.toNat, by have := h (ValueIdx.ix2 (e 0) 0); omega⟩) :=
  gather_gvecDims_apply (N := 10000) (E := 320000)
    Cert.ReferenceIdeal.Facts₀.gather_S10000_S320000x1_S320000_n_0_n_n_0_1_1_wf x idx e (h _)

theorem gather_rows_apply [Cert.ReferenceIdeal.Facts₀] {α : Type}
    (x : Cert.ReferenceIdeal.S10000x256.Idx → α) (idx : IVec Cert.ReferenceIdeal.S320000x1 32)
    (j : Cert.ReferenceIdeal.S320000x256.Idx)
    (h : ∀ e, 0 ≤ (idx e).toInt ∧ (idx e).toInt < 10000) :
    Host.gather Cert.ReferenceIdeal.gather_S10000x256_S320000x1_S320000x256_1_0_n_n_0_1_1256 x idx j
      = x (ValueIdx.ix2 ⟨(idx (ValueIdx.ix2 (j 0) 0)).toInt.toNat, by have := h (ValueIdx.ix2 (j 0) 0); omega⟩ (j 1)) :=
  gather_growDims_apply (N := 10000) (E := 320000) (C := 256)
    Cert.ReferenceIdeal.Facts₀.gather_S10000x256_S320000x1_S320000x256_1_0_n_n_0_1_1256_wf x idx j (h _)

theorem scatterAdd_point_apply [Cert.KernelIdeal.Facts₀]
    (x : Cert.KernelIdeal.S10240x10240.Idx → EReal) (idx : IVec Cert.KernelIdeal.S320000x2 32)
    (upd : Cert.KernelIdeal.S320000.Idx → EReal) (i : Cert.KernelIdeal.S10240x10240.Idx)
    (h : ∀ e, 0 ≤ (idx e).toInt ∧ (idx e).toInt < 10000) :
    Ideal.hostScatterAdd Cert.KernelIdeal.scatter_S10240x10240_S320000x2_S320000_n_01_01_1 x idx upd i
      = x i + ∑ e ∈ Finset.univ.filter (fun e : Cert.KernelIdeal.S320000.Idx =>
          (idx (ValueIdx.ix2 (e 0) 0)).toInt.toNat = (i 0).val ∧ (idx (ValueIdx.ix2 (e 0) 1)).toInt.toNat = (i 1).val), upd e :=
  scatterAdd_pointDims_apply (M0 := 10240) (M1 := 10240) (E := 320000) (K := 10000)
    Cert.KernelIdeal.Facts₀.scatter_S10240x10240_S320000x2_S320000_n_01_01_1_wf x idx upd i h

theorem scatterAdd_diag_apply [Cert.KernelIdeal.Facts₀]
    (x : Cert.KernelIdeal.S10240x10240.Idx → EReal) (idx : IVec Cert.KernelIdeal.S10000x2 32)
    (upd : Cert.KernelIdeal.S10000.Idx → EReal) (i : Cert.KernelIdeal.S10240x10240.Idx)
    (h : ∀ e, 0 ≤ (idx e).toInt ∧ (idx e).toInt < 10000) :
    Ideal.hostScatterAdd Cert.KernelIdeal.scatter_S10240x10240_S10000x2_S10000_n_01_01_1 x idx upd i
      = x i + ∑ e ∈ Finset.univ.filter (fun e : Cert.KernelIdeal.S10000.Idx =>
          (idx (ValueIdx.ix2 (e 0) 0)).toInt.toNat = (i 0).val ∧ (idx (ValueIdx.ix2 (e 0) 1)).toInt.toNat = (i 1).val), upd e :=
  scatterAdd_pointDims_apply (M0 := 10240) (M1 := 10240) (E := 10000) (K := 10000)
    Cert.KernelIdeal.Facts₀.scatter_S10240x10240_S10000x2_S10000_n_01_01_1_wf x idx upd i h

end Cert.ScatterRead
-- ==== Proof.LibDenseAdjacency.lean ====
import Mathlib.Algebra.BigOperators.Fin
import Mathlib.Algebra.BigOperators.Ring.Finset
import Mathlib.Algebra.BigOperators.Group.Finset.Basic
import Mathlib.Algebra.BigOperators.Group.Finset.Piecewise
import Mathlib.Algebra.BigOperators.Group.Finset.Sigma
import Mathlib.Data.Real.Basic
import Mathlib.Data.EReal.Basic

namespace Cert.LibDenseAdjacency

open Finset

-- Exchange the two sums: an edge ending at `i` contributes to the one column `j = src e`.
theorem sum_adj_mul {N E : Type*} [Fintype N] [Fintype E] [DecidableEq N]
    (src dst : E → N) (w : E → ℝ) (p : N → ℝ) (i : N) :
    ∑ j, (∑ e ∈ Finset.univ.filter (fun e => dst e = i ∧ src e = j), w e) * p j
      = ∑ e ∈ Finset.univ.filter (fun e => dst e = i), w e * p (src e) := by
  simp only [Finset.sum_mul, Finset.sum_filter, ite_mul, zero_mul]
  rw [Finset.sum_comm]
  refine Finset.sum_congr rfl fun e _ => ?_
  by_cases h : dst e = i
  · simp only [h, true_and, if_true]
    rw [Finset.sum_ite_eq Finset.univ (src e) (fun j => w e * p j)]
    simp only [Finset.mem_univ, if_true]
  · simp only [h, false_and, if_false, Finset.sum_const_zero]

-- The diagonal term of row `i` multiplies `p i` only.
theorem dense_row_eq {N E : Type*} [Fintype N] [Fintype E] [DecidableEq N]
    (src dst : E → N) (w : E → ℝ) (d p : N → ℝ) (i : N) :
    ∑ j, ((∑ e ∈ Finset.univ.filter (fun e => dst e = i ∧ src e = j), w e)
            + (if i = j then d i else 0)) * p j
      = (∑ e ∈ Finset.univ.filter (fun e => dst e = i), w e * p (src e)) + d i * p i := by
  simp only [add_mul, Finset.sum_add_distrib]
  rw [sum_adj_mul src dst w p i]
  congr 1
  simp only [ite_mul, zero_mul]
  rw [Finset.sum_ite_eq Finset.univ i (fun j => d i * p j)]
  simp only [Finset.mem_univ, if_true]

-- Columns past `n` carry a zero matrix entry, so the padded row sum is the dense row sum.
theorem dense_row_padded {n k : ℕ} {E : Type*} [Fintype E]
    (src dst : E → Fin n) (w : E → ℝ) (d p : Fin n → ℝ) (P : Fin (n + k) → ℝ)
    (hP : ∀ j : Fin n, P (Fin.castAdd k j) = p j)
    (A : Fin (n + k) → Fin (n + k) → ℝ)
    (hA : ∀ i j : Fin n, A (Fin.castAdd k i) (Fin.castAdd k j)
        = (∑ e ∈ Finset.univ.filter (fun e => dst e = i ∧ src e = j), w e)
          + (if i = j then d i else 0))
    (hA0 : ∀ (i : Fin n) (j : Fin (n + k)), n ≤ j.val → A (Fin.castAdd k i) j = 0)
    (i : Fin n) :
    ∑ j, A (Fin.castAdd k i) j * P j
      = (∑ e ∈ Finset.univ.filter (fun e => dst e = i), w e * p (src e)) + d i * p i := by
  rw [Fin.sum_univ_add]
  have htail : ∑ j : Fin k, A (Fin.castAdd k i) (Fin.natAdd n j) * P (Fin.natAdd n j) = 0 := by
    refine Finset.sum_eq_zero fun j _ => ?_
    rw [hA0 i (Fin.natAdd n j) (by simp [Fin.natAdd]), zero_mul]
  rw [htail, add_zero]
  simp only [hA, hP]
  exact dense_row_eq src dst w d p i

-- The inclusion of the reals into the extended reals is additive.
theorem coe_sum {ι : Type*} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

end Cert.LibDenseAdjacency
-- ==== Proof.RefReal.lean ====
import proofs.«405878_j81363860455818_1_alg».proof.Proof.RefValue
import proofs.«405878_j81363860455818_1_alg».proof.Proof.RefCat
import proofs.«405878_j81363860455818_1_alg».proof.Proof.ScatterRead
import proofs.«405878_j81363860455818_1_alg».proof.Proof.LibDenseAdjacency
import Idealize.ShloMosaic.Lib.IdealHost
import Mathlib.Data.EReal.Operations

noncomputable section

namespace Cert.RefValue

open Cert.ReferenceIdeal Cert.ReferenceIdeal.Gen Idealize.ShloMosaic Idealize.ShloMosaic.ValueIdx

abbrev IsReal {S : Shape} (x : S.Idx → EReal) : Prop := ∃ f : S.Idx → ℝ, ∀ j, x j = (f j : EReal)

theorem isReal_of_forall {S : Shape} {x : S.Idx → EReal} (h : ∀ j, ∃ r : ℝ, x j = (r : EReal)) : IsReal x :=
  ⟨fun j => (h j).choose, fun j => (h j).choose_spec⟩

theorem one_eq : Ideal.ofBits .f32 0x3F800000#32 = ((1 : ℝ) : EReal) := by rw [Ideal.ofBits_one_f32]; rfl

theorem zero_eq : Ideal.ofBits .f32 0x00000000#32 = ((0 : ℝ) : EReal) := by rw [Ideal.ofBits_zero_f32]; rfl

theorem wrap_of_nonneg (v : IVec S320000 32) (hv : ∀ e, 0 ≤ (v e).toInt) : wrap v = v := by
  funext e
  have e0 : (0#32 : BitVec 32).toInt = 0 := by decide
  have hlt : (v e).slt 0#32 = false := by
    simp only [BitVec.slt, e0]
    exact decide_eq_false (not_lt.mpr (hv e))
  have hc : IntOp.cmpi .slt (v e) 0#32 = 0#1 := by
    show BitVec.ofBool ((v e).slt 0#32) = 0#1
    rw [hlt]; rfl
  show Scalar.select (IntOp.cmpi .slt (v e) 0#32) (IntOp.addi (v e) 10000#32) (v e) = v e
  rw [hc, select_zero]

section Range
variable {ei : IVec S2x320000 32} (hE : ∀ e, 0 ≤ (ei e).toInt ∧ (ei e).toInt < 10000)
include hE

theorem wrap_src : wrap (src ei) = src ei := wrap_of_nonneg _ fun e => (hE _).1
theorem wrap_dst : wrap (dst ei) = dst ei := wrap_of_nonneg _ fun e => (hE _).1

theorem col_dst_range : ∀ j, 0 ≤ (col (dst ei) j).toInt ∧ (col (dst ei) j).toInt < 10000 := fun j => hE _
theorem col_wrap_dst_range : ∀ j, 0 ≤ (col (wrap (dst ei)) j).toInt ∧ (col (wrap (dst ei)) j).toInt < 10000 := by
  rw [wrap_dst hE]; exact fun j => hE _
theorem col_wrap_src_range : ∀ j, 0 ≤ (col (wrap (src ei)) j).toInt ∧ (col (wrap (src ei)) j).toInt < 10000 := by
  rw [wrap_src hE]; exact fun j => hE _

def degR (ei : IVec S2x320000 32) (i : S10000.Idx) : ℝ :=
  ((Finset.univ.filter fun e : S320000.Idx => (col (wrap (dst ei)) (ix2 (e 0) 0)).toInt.toNat = (i 0).val).card : ℝ)

def dinvR (ei : IVec S2x320000 32) (i : S10000.Idx) : ℝ := (Real.sqrt (degR ei i + 1))⁻¹

theorem deg_eq (i : S10000.Idx) : deg ei i = (degR ei i : EReal) := by
  unfold deg degR
  rw [Cert.ScatterRead.scatterAdd_vec_apply _ _ _ i (col_wrap_dst_range hE)]
  simp only [zero_eq, one_eq]
  rw [← Cert.LibDenseAdjacency.coe_sum, ← EReal.coe_add, zero_add, Finset.sum_const, nsmul_eq_mul, mul_one]

theorem dinv_eq (i : S10000.Idx) : dinv ei i = (dinvR ei i : EReal) := by
  unfold dinv dinvR
  rw [deg_eq hE, one_eq, ← EReal.coe_add]
  have hpos : 0 < degR ei i + 1 := add_pos_of_nonneg_of_pos (Nat.cast_nonneg _) one_pos
  rw [Ideal.rsqrt_coe, if_neg (not_lt.mpr hpos.le), if_neg hpos.ne']

theorem dinv2_real : IsReal (fun j : S10000.Idx => dinv ei j * dinv ei j) :=
  ⟨fun j => dinvR ei j * dinvR ei j, fun j =>
    (congrArg₂ (· * ·) (dinv_eq hE j) (dinv_eq hE j)).trans (EReal.coe_mul _ _).symm⟩

theorem norm_real : IsReal (norm ei) := by
  refine isReal_of_forall fun e => ?_
  unfold norm
  rw [Cert.ScatterRead.gather_vec_apply _ _ e (col_wrap_src_range hE),
    Cert.ScatterRead.gather_vec_apply _ _ e (col_wrap_dst_range hE), dinv_eq hE, dinv_eq hE, ← EReal.coe_mul]
  exact ⟨_, rfl⟩

end Range

theorem mm_real {K : Nat} {x : (⟨2, ![10000, K]⟩ : Shape).Idx → EReal} {W : (⟨2, ![K, 256]⟩ : Shape).Idx → EReal}
    (hx : IsReal x) (hW : IsReal W) : IsReal (mm x W) := by
  obtain ⟨fx, hx⟩ := hx
  obtain ⟨fW, hW⟩ := hW
  refine ⟨fun i => ∑ k : Fin K, fx (ix2 (i 0) k) * fW (ix2 k (i 1)), fun i => ?_⟩
  unfold mm
  rw [Cert.LibDenseAdjacency.coe_sum]
  exact Finset.sum_congr rfl fun k _ => by rw [hx, hW, EReal.coe_mul]

section Layer
variable {ei : IVec S2x320000 32} (hE : ∀ e, 0 ≤ (ei e).toInt ∧ (ei e).toInt < 10000)
include hE

theorem msg_real {y : FVec Ideal S10000x256 .f32} (hy : IsReal y) : IsReal (msg y ei) := by
  obtain ⟨fy, hy⟩ := hy
  obtain ⟨fn, hn⟩ := norm_real hE
  refine isReal_of_forall fun j => ?_
  unfold msg
  rw [Cert.ScatterRead.gather_rows_apply _ _ j (col_wrap_src_range hE), hy, hn, ← EReal.coe_mul]
  exact ⟨_, rfl⟩

theorem agg_real {y : FVec Ideal S10000x256 .f32} (hy : IsReal y) : IsReal (agg y ei) := by
  obtain ⟨fm, hm⟩ := msg_real hE hy
  refine isReal_of_forall fun i => ?_
  unfold agg
  rw [Cert.ScatterRead.scatterAdd_rows_apply _ _ _ i (col_dst_range hE)]
  simp only [zero_eq, hm]
  rw [← Cert.LibDenseAdjacency.coe_sum, ← EReal.coe_add]
  exact ⟨_, rfl⟩

theorem conv_real {y : FVec Ideal S10000x256 .f32} {b : FVec Ideal S256 .f32} (hy : IsReal y) (hb : IsReal b) :
    IsReal (conv y b ei) := by
  obtain ⟨fa, ha⟩ := agg_real hE hy
  obtain ⟨fy, hy⟩ := hy
  obtain ⟨fb, hb⟩ := hb
  refine isReal_of_forall fun i => ?_
  unfold conv
  rw [ha, hy, dinv_eq hE, hb, ← EReal.coe_mul, ← EReal.coe_mul, ← EReal.coe_add, ← EReal.coe_add]
  exact ⟨_, rfl⟩

theorem layer_real {K : Nat} {x : (⟨2, ![10000, K]⟩ : Shape).Idx → EReal} {W : (⟨2, ![K, 256]⟩ : Shape).Idx → EReal}
    {b : FVec Ideal S256 .f32} (hx : IsReal x) (hW : IsReal W) (hb : IsReal b) : IsReal (layer x W b ei) :=
  conv_real hE (mm_real hx hW) hb

theorem hidden_real {x : FVec Ideal S10000x128 .f32} {W1 : FVec Ideal S128x256 .f32} {b1 : FVec Ideal S256 .f32}
    (hx : IsReal x) (hW1 : IsReal W1) (hb1 : IsReal b1) : IsReal (hidden x W1 b1 ei) := by
  obtain ⟨fl, hl⟩ := layer_real hE hx hW1 hb1
  refine ⟨fun i => max (fl i) 0, fun i => ?_⟩
  unfold hidden
  rw [hl, zero_eq]
  exact (EReal.coe_strictMono.monotone.map_max).symm

end Layer

end Cert.RefValue

end
-- ==== Proof.Bridge.lean ====
import proofs.«405878_j81363860455818_1_alg».proof.Proof.RefValue
import proofs.«405878_j81363860455818_1_alg».proof.Proof.RefCat
import proofs.«405878_j81363860455818_1_alg».proof.Proof.RefReal
import proofs.«405878_j81363860455818_1_alg».proof.Proof.KStages

noncomputable section

open scoped BigOperators
open Cert.ReferenceIdeal Cert.ReferenceIdeal.Gen Idealize.ShloMosaic Idealize.ShloMosaic.ValueIdx Cert.RefValue Cert.KStages

namespace Cert.Bridge

-- a node's row in the padded range
abbrev pad (i : Fin 10000) : Fin 10240 := ⟨i.val, by omega⟩

-- a padded array carries x on the rows of the nodes
abbrev Carries {K : ℕ} (X : Mat 10240 K) (x : (⟨2, ![10000, K]⟩ : Shape).Idx → EReal) : Prop :=
  ∀ (i : Fin 10000) (k : Fin K), X (ix2 (pad i) k) = x (ix2 i k)

-- a one-row matrix repeats a vector
abbrev RowOf (b : Mat 1 256) (b' : FVec Ideal S256 .f32) : Prop := ∀ (a : Fin 1) (o : Fin 256), b (ix2 a o) = b' (ix1 o)

-- a square matrix is the top, or the bottom, half of a gate's weights
abbrev Top (Wh : Mat 256 256) (W : FVec Ideal S512x256 .f32) : Prop :=
  ∀ (k o : Fin 256), Wh (ix2 k o) = W (ix2 (⟨k.val, by omega⟩ : Fin 512) o)

abbrev Bot (Wh : Mat 256 256) (W : FVec Ideal S512x256 .f32) : Prop :=
  ∀ (k o : Fin 256), Wh (ix2 k o) = W (ix2 (⟨k.val + 256, by omega⟩ : Fin 512) o)

-- a padded array is x on the rows of the nodes and zero below
abbrev Padded {K : ℕ} (X : Mat 10240 K) (x : (⟨2, ![10000, K]⟩ : Shape).Idx → EReal) : Prop :=
  ∀ (i : Fin 10240) (k : Fin K), X (ix2 i k) = if hi : i.val < 10000 then x (ix2 ⟨i.val, hi⟩ k) else 0

-- what is asked of the dense matrix: a row against a real padded array carrying y aggregates y and adds the self term
structure AdjFacts (ei : IVec S2x320000 32) (A : Mat 10240 10240) : Prop where
  row : ∀ (y : FVec Ideal S10000x256 .f32) (P : Mat 10240 256), IsReal y → IsReal P → Carries P y →
      ∀ (i : Fin 10000) (o : Fin 256),
        ∑ j : Fin 10240, A (ix2 (pad i) j) * P (ix2 j o)
          = agg y ei (ix2 i o) + y (ix2 i o) * (dinv ei (ix1 i) * dinv ei (ix1 i))
  real : IsReal A

-- a product of real matrices plus a real bias row is real, entry by entry
theorem proj_real {K : ℕ} {X : Mat 10240 K} {W : Mat K 256} {b : Mat 1 256}
    (hX : IsReal X) (hW : IsReal W) (hb : IsReal b) : IsReal (proj X W b) := by
  obtain ⟨fX, hX⟩ := hX
  obtain ⟨fW, hW⟩ := hW
  obtain ⟨fb, hb⟩ := hb
  refine isReal_of_forall fun x => ?_
  show ∃ r : ℝ, (∑ k : Fin K, X (ix2 (x 0) k) * W (ix2 k (x 1))) + b (ix2 0 (x 1)) = (r : EReal)
  simp only [hX, hW, hb, ← EReal.coe_mul]
  rw [← Cert.LibDenseAdjacency.coe_sum, ← EReal.coe_add]
  exact ⟨_, rfl⟩

section
variable {A : Mat 10240 10240} {P : Mat 10240 256} {b : Mat 1 256} (hA : IsReal A) (hP : IsReal P) (hb : IsReal b)
include hA hP hb

-- the aggregation is such a product
theorem aggr_real : IsReal (aggr A P b) := proj_real hA hP hb

theorem hid_real : IsReal (hid A P b) := by
  obtain ⟨fa, ha⟩ := aggr_real hA hP hb
  refine ⟨fun x => max (fa x) 0, fun x => ?_⟩
  show max (aggr A P b x) 0 = _
  rw [ha]
  exact (EReal.coe_strictMono.monotone.map_max).symm

end

theorem row_real {b : Mat 1 256} {b' : FVec Ideal S256 .f32} (hb : RowOf b b') (hb' : IsReal b') : IsReal b := by
  obtain ⟨f, hf⟩ := hb'
  refine ⟨fun x => f (ix1 (x 1)), fun x => ?_⟩
  obtain ⟨a, o, rfl⟩ : ∃ (a : Fin 1) (o : Fin 256), x = ix2 a o := ⟨x 0, x 1, eq_ix2 x⟩
  exact (hb a o).trans (hf (ix1 o))

theorem zrow_real {z0 : Mat 1 256} (hz0 : ∀ (a : Fin 1) (o : Fin 256), z0 (ix2 a o) = 0) : IsReal z0 :=
  ⟨fun _ => 0, fun x => by
    obtain ⟨a, o, rfl⟩ : ∃ (a : Fin 1) (o : Fin 256), x = ix2 a o := ⟨x 0, x 1, eq_ix2 x⟩
    exact hz0 a o⟩

section
variable {K : ℕ} {X : Mat 10240 K} {x : (⟨2, ![10000, K]⟩ : Shape).Idx → EReal} (hX : Padded X x)
include hX

theorem padded_real (hx : IsReal x) : IsReal X := by
  obtain ⟨f, hf⟩ := hx
  refine isReal_of_forall fun j => ?_
  obtain ⟨i, k, rfl⟩ : ∃ (i : Fin 10240) (k : Fin K), j = ix2 i k := ⟨j 0, j 1, eq_ix2 j⟩
  rw [hX]
  by_cases hi : i.val < 10000
  · rw [dif_pos hi, hf]; exact ⟨_, rfl⟩
  · rw [dif_neg hi]; exact ⟨0, rfl⟩

theorem padded_row : Carries X x := fun i k => by
  rw [hX, dif_pos (show (pad i).val < 10000 from i.isLt)]

end

-- the projection of a padded array carrying x is the matrix product with x on the rows of the nodes
theorem proj_row {K : ℕ} {X : Mat 10240 K} {x : (⟨2, ![10000, K]⟩ : Shape).Idx → EReal} {W : Mat K 256} {z0 : Mat 1 256}
    (hX : Carries X x) (hz0 : ∀ (a : Fin 1) (o : Fin 256), z0 (ix2 a o) = 0) : Carries (proj X W z0) (mm x W) :=
  fun i o => by
    show (∑ k : Fin K, X (ix2 (pad i) k) * W (ix2 k o)) + z0 (ix2 0 o) = ∑ k : Fin K, x (ix2 i k) * W (ix2 k o)
    rw [hz0, add_zero]
    exact Finset.sum_congr rfl fun k _ => by rw [hX]

-- the dense aggregation plus the bias row is the reference's propagation
theorem aggr_row {ei : IVec S2x320000 32} {A : Mat 10240 10240} (hadj : AdjFacts ei A)
    {y : FVec Ideal S10000x256 .f32} {P : Mat 10240 256} (hy : IsReal y) (hP : IsReal P) (hPy : Carries P y)
    {b : Mat 1 256} {b' : FVec Ideal S256 .f32} (hb : RowOf b b') : Carries (aggr A P b) (conv y b' ei) :=
  fun i o => by
    show (∑ j : Fin 10240, A (ix2 (pad i) j) * P (ix2 j o)) + b (ix2 0 o)
      = agg y ei (ix2 i o) + y (ix2 i o) * (dinv ei (ix1 i) * dinv ei (ix1 i)) + b' (ix1 o)
    rw [hadj.row y P hy hP hPy i o, hb]

section
variable {Z H : Mat 10240 256} {z h : FVec Ideal S10000x256 .f32} {Wt Wb : Mat 256 256}
  {W : FVec Ideal S512x256 .f32} {b : Mat 1 256} {b' : FVec Ideal S256 .f32}
  (hZ : Carries Z z) (hH : Carries H h)
  (hWt : Top Wt W) (hWb : Bot Wb W) (hb : RowOf b b')
include hZ hH hWt hWb hb

-- the two half products are the one product over the concatenation
theorem gatePre_row : Carries (Cert.KStages.gatePre Z Wt H Wb b) (Cert.RefValue.gatePre z h W b') := fun i o => by
  show (∑ k : Fin 256, Z (ix2 (pad i) k) * Wt (ix2 k o)) + (∑ k : Fin 256, H (ix2 (pad i) k) * Wb (ix2 k o)) + b (ix2 0 o)
    = mm (cat z h) W (ix2 i o) + b' (ix1 o)
  rw [mm_cat, hb]
  simp only [hZ i, hH i, hWt _, hWb _]

-- the logistic function is 1 / (1 + exp (-x)) on both sides
theorem gate_row : Carries (Cert.KStages.gate Z Wt H Wb b) (Cert.RefValue.gate z h W b') := fun i o => by
  show Ideal.logistic (Cert.KStages.gatePre Z Wt H Wb b (ix2 (pad i) o)) = sigm (Cert.RefValue.gatePre z h W b' (ix2 i o))
  rw [gatePre_row hZ hH hWt hWb hb i o]
  unfold sigm Ideal.logistic
  rw [Ideal.ofBits_one_f32]

-- the candidate and the blend are the reference's expressions of the same gates
theorem out_row {R U : Mat 10240 256} {Wu Wr : FVec Ideal S512x256 .f32} {bu br : FVec Ideal S256 .f32}
    (hR : Carries R (Cert.RefValue.gate z h Wr br)) (hU : Carries U (Cert.RefValue.gate z h Wu bu)) :
    Carries (out Z Wt R H Wb b U) (blend z h Wu bu Wr br W b') := fun i o => by
  have hRH : Carries (fun j => R j * H j) (fun j => Cert.RefValue.gate z h Wr br j * h j) := fun i k => by
    show R (ix2 (pad i) k) * H (ix2 (pad i) k) = Cert.RefValue.gate z h Wr br (ix2 i k) * h (ix2 i k)
    rw [hR, hH]
  show U (ix2 (pad i) o) * H (ix2 (pad i) o)
      + (1 - U (ix2 (pad i) o)) * Ideal.tanh (Cert.KStages.gatePre Z Wt (fun j => R j * H j) Wb b (ix2 (pad i) o))
    = Cert.RefValue.gate z h Wu bu (ix2 i o) * h (ix2 i o)
      + (Ideal.ofBits .f32 0x3F800000#32 - Cert.RefValue.gate z h Wu bu (ix2 i o))
        * Ideal.tanh (Cert.RefValue.gatePre z (fun j => Cert.RefValue.gate z h Wr br j * h j) W b' (ix2 i o))
  rw [hU, hH, gatePre_row hZ hRH hWt hWb hb i o, Ideal.ofBits_one_f32]

end

-- on every node the padded dense computation is the reference's result, stage by stage
theorem kernel_eq_result_of_adj
    {ei : IVec S2x320000 32} {A : Mat 10240 10240}
    {x : FVec Ideal S10000x128 .f32} {h : FVec Ideal S10000x256 .f32}
    {W1 : FVec Ideal S128x256 .f32} {b1 : FVec Ideal S256 .f32} {W2 : FVec Ideal S256x256 .f32} {b2 : FVec Ideal S256 .f32}
    {Wu : FVec Ideal S512x256 .f32} {bu : FVec Ideal S256 .f32} {Wr : FVec Ideal S512x256 .f32} {br : FVec Ideal S256 .f32}
    {Wc : FVec Ideal S512x256 .f32} {bc : FVec Ideal S256 .f32}
    {X : Mat 10240 128} {H : Mat 10240 256} {W1m : Mat 128 256} {W2m : Mat 256 256}
    {Wut Wub Wrt Wrb Wct Wcb : Mat 256 256} {z0 b1r b2r bur brr bcr : Mat 1 256}
    (hadj : AdjFacts ei A) (hE : ∀ e, 0 ≤ (ei e).toInt ∧ (ei e).toInt < 10000)
    (hx : IsReal x) (hh : IsReal h) (hW1r : IsReal W1) (hb1r : IsReal b1) (hW2r : IsReal W2) (hb2r : IsReal b2)
    (hX : Padded X x) (hH : Padded H h) (hW1 : W1m = W1) (hW2 : W2m = W2)
    (hWut : Top Wut Wu) (hWub : Bot Wub Wu) (hWrt : Top Wrt Wr) (hWrb : Bot Wrb Wr) (hWct : Top Wct Wc) (hWcb : Bot Wcb Wc)
    (hz0 : ∀ (a : Fin 1) (o : Fin 256), z0 (ix2 a o) = 0)
    (hb1 : RowOf b1r b1) (hb2 : RowOf b2r b2) (hbu : RowOf bur bu) (hbr : RowOf brr br) (hbc : RowOf bcr bc) :
    Carries (kernel A X H W1m W2m Wut Wub Wrt Wrb Wct Wcb z0 b1r b2r bur brr bcr)
      (result x h ei W1 b1 W2 b2 Wu bu Wr br Wc bc) := by
  subst hW1 hW2
  have hz0r : IsReal z0 := zrow_real hz0
  have hP1r : IsReal (proj X W1m z0) := proj_real (padded_real hX hx) hW1r hz0r
  have hP1 : Carries (proj X W1m z0) (mm x W1m) := proj_row (padded_row hX) hz0
  have hH1r : IsReal (hid A (proj X W1m z0) b1r) := hid_real hadj.real hP1r (row_real hb1 hb1r)
  have hH1 : Carries (hid A (proj X W1m z0) b1r) (hidden x W1m b1 ei) := fun i k => by
    show max (aggr A (proj X W1m z0) b1r (ix2 (pad i) k)) 0
      = max (conv (mm x W1m) b1 ei (ix2 i k)) (Ideal.ofBits .f32 0x00000000#32)
    rw [aggr_row hadj (mm_real hx hW1r) hP1r hP1 hb1 i k, Ideal.ofBits_zero_f32]
  have hP2r : IsReal (proj (hid A (proj X W1m z0) b1r) W2m z0) := proj_real hH1r hW2r hz0r
  have hP2 : Carries (proj (hid A (proj X W1m z0) b1r) W2m z0) (mm (hidden x W1m b1 ei) W2m) := proj_row hH1 hz0
  have hZ : Carries (emb A (proj (hid A (proj X W1m z0) b1r) W2m z0) b2r) (embed x ei W1m b1 W2m b2) := fun i k => by
    show Ideal.tanh (aggr A (proj (hid A (proj X W1m z0) b1r) W2m z0) b2r (ix2 (pad i) k))
      = Ideal.tanh (conv (mm (hidden x W1m b1 ei) W2m) b2 ei (ix2 i k))
    rw [aggr_row hadj (mm_real (hidden_real hE hx hW1r hb1r) hW2r) hP2r hP2 hb2 i k]
  have hHrow := padded_row hH
  exact out_row hZ hHrow hWct hWcb hbc (gate_row hZ hHrow hWrt hWrb hbr) (gate_row hZ hHrow hWut hWub hbu)

end Cert.Bridge

end
-- ==== Proof.LayerBridge.lean ====
import proofs.«405878_j81363860455818_1_alg».proof.Proof.ScatterRead
import proofs.«405878_j81363860455818_1_alg».proof.Proof.LibDenseAdjacency
import proofs.«405878_j81363860455818_1_alg».proof.ReferenceIdeal
import proofs.«405878_j81363860455818_1_alg».proof.KernelIdeal
import Idealize.ShloMosaic.PureOps.Ideal
import Idealize.ShloMosaic.Lib.ValueIdx
import Mathlib.Data.EReal.Basic
import Mathlib.Data.Real.Basic
import Mathlib.Algebra.BigOperators.Group.Finset.Basic

noncomputable section

open scoped BigOperators
open Idealize.ShloMosaic Idealize.ShloMosaic.ValueIdx Cert.KernelIdeal

namespace Cert.LayerBridge

-- every word of an index array is a node number
abbrev InRange {s : Shape} (I : IVec s 32) : Prop := ∀ e, 0 ≤ (I e).toInt ∧ (I e).toInt < 10000

-- the node an in-range index word of edge e names
def node (I : IVec S320000x1 32) (h : InRange I) (e : S320000.Idx) : Fin 10000 :=
  ⟨(I (ix2 (e 0) 0)).toInt.toNat, by have := h (ix2 (e 0) 0); omega⟩

variable (dstI srcI : IVec S320000x1 32) (pairI : IVec S320000x2 32) (diagI : IVec S10000x2 32)
  (norm : S320000.Idx → EReal) (dinv2 : S10000.Idx → EReal)
  (xw : S10000x256.Idx → EReal) (P : S10240x256.Idx → EReal)
  (hdst : InRange dstI) (hsrc : InRange srcI)
  (hp0 : ∀ e : Fin 320000, pairI (ix2 e 0) = dstI (ix2 e 0))
  (hp1 : ∀ e : Fin 320000, pairI (ix2 e 1) = srcI (ix2 e 0))
  (hdiag : ∀ (i : Fin 10000) (b : Fin 2), (diagI (ix2 i b)).toInt = (i.val : Int))
  (hpair : InRange pairI) (hdiagR : InRange diagI)
  (nf : S320000.Idx → ℝ) (df : S10000.Idx → ℝ) (xf : S10000x256.Idx → ℝ)
  (hn : ∀ j, norm j = (nf j : EReal)) (hd : ∀ j, dinv2 j = (df j : EReal)) (hx : ∀ j, xw j = (xf j : EReal))

include hdst hsrc hp0 hp1 in
-- the pair array holds each edge's destination word and source word
theorem pair_range : InRange pairI := by
  intro e
  obtain ⟨a, b, rfl⟩ : ∃ a b, e = ix2 a b := ⟨e 0, e 1, eq_ix2 e⟩
  match b with
  | ⟨0, _⟩ => have := hdst (ix2 a 0); rw [← hp0 a] at this; exact this
  | ⟨1, _⟩ => have := hsrc (ix2 a 0); rw [← hp1 a] at this; exact this

include hdiag in
-- both words of row i of the diagonal array are i
theorem diag_range : InRange diagI := by
  intro e
  obtain ⟨a, b, rfl⟩ : ∃ a b, e = ix2 a b := ⟨e 0, e 1, eq_ix2 e⟩
  rw [hdiag a b]
  have := a.isLt
  omega

-- the weights of the rows of a two-column index array whose two words are the coordinates of an entry
def hitSum {n : ℕ} (I : IVec ⟨2, ![n, 2]⟩ 32) (w : (⟨1, ![n]⟩ : Shape).Idx → ℝ) (ij : S10240x10240.Idx) : ℝ :=
  ∑ e ∈ Finset.univ.filter (fun e : (⟨1, ![n]⟩ : Shape).Idx =>
    (I (ix2 (e 0) 0)).toInt.toNat = (ij 0).val ∧ (I (ix2 (e 0) 1)).toInt.toNat = (ij 1).val), w e

-- no row of an in-range index array names a row or a column past the nodes
theorem hitSum_zero {n : ℕ} (I : IVec ⟨2, ![n, 2]⟩ 32) (hI : InRange I) (w : (⟨1, ![n]⟩ : Shape).Idx → ℝ)
    (ij : S10240x10240.Idx) (h : 10000 ≤ (ij 0).val ∨ 10000 ≤ (ij 1).val) : hitSum I w ij = 0 :=
  Finset.sum_eq_zero fun e he => by
    have hP := (Finset.mem_filter.mp he).2
    have h0 := hI (ix2 (e 0) 0); have h1 := hI (ix2 (e 0) 1); omega

-- the real entry of the dense matrix: the edge weights and the self weights that land on it
def adjReal (ij : S10240x10240.Idx) : ℝ := hitSum pairI nf ij + hitSum diagI df ij

include hp0 hp1 hdiag in
-- between two nodes: the weight of the edges from the column's node to the row's, plus the self weight on the diagonal
theorem adjReal_nodes (i j : Fin 10000) :
    adjReal pairI diagI nf df (ix2 ⟨i.val, by omega⟩ ⟨j.val, by omega⟩)
      = (∑ e ∈ Finset.univ.filter (fun e : S320000.Idx => node dstI hdst e = i ∧ node srcI hsrc e = j), nf e)
        + (if i = j then df (ix1 i) else 0) := by
  unfold adjReal hitSum
  refine congrArg₂ (· + ·) ?_ ?_
  · refine Finset.sum_congr (Finset.filter_congr fun e _ => ?_) fun _ _ => rfl
    show ((pairI (ix2 (e 0) 0)).toInt.toNat = i.val ∧ (pairI (ix2 (e 0) 1)).toInt.toNat = j.val) ↔ _
    rw [hp0 (e 0), hp1 (e 0)]
    exact ⟨fun h => ⟨Fin.ext h.1, Fin.ext h.2⟩, fun h => ⟨congrArg Fin.val h.1, congrArg Fin.val h.2⟩⟩
  · have hw : ∀ (a : Fin 10000) (b : Fin 2), (diagI (ix2 a b)).toInt.toNat = a.val := by
      intro a b; rw [hdiag a b]; exact Int.toNat_natCast _
    have hfilter : Finset.univ.filter (fun n : S10000.Idx =>
        (diagI (ix2 (n 0) 0)).toInt.toNat = i.val ∧ (diagI (ix2 (n 0) 1)).toInt.toNat = j.val)
        = Finset.univ.filter (fun n : S10000.Idx => (n 0).val = i.val ∧ (n 0).val = j.val) :=
      Finset.filter_congr fun n _ => by rw [hw (n 0) 0, hw (n 0) 1]
    show ∑ n ∈ Finset.univ.filter (fun n : S10000.Idx =>
        (diagI (ix2 (n 0) 0)).toInt.toNat = i.val ∧ (diagI (ix2 (n 0) 1)).toInt.toNat = j.val), df n = _
    rw [hfilter]
    by_cases hij : i = j
    · subst hij
      rw [if_pos rfl, Finset.sum_filter]
      rw [Finset.sum_eq_single (ix1 i)]
      · rw [if_pos ⟨rfl, rfl⟩]
      · intro b _ hb
        rw [if_neg]
        rintro ⟨h0, _⟩
        exact hb ((eq_ix1 b).trans (congrArg ix1 (Fin.ext h0)))
      · intro h; exact absurd (Finset.mem_univ _) h
    · rw [if_neg hij]
      refine Finset.sum_eq_zero fun n hn => ?_
      have := (Finset.mem_filter.mp hn).2
      exact absurd (Fin.ext (this.1.symm.trans this.2)) hij

include hpair hdiagR in
theorem adjReal_zero (ij : S10240x10240.Idx) (h : 10000 ≤ (ij 0).val ∨ 10000 ≤ (ij 1).val) :
    adjReal pairI diagI nf df ij = 0 := by
  unfold adjReal
  rw [hitSum_zero pairI hpair nf ij h, hitSum_zero diagI hdiagR df ij h, add_zero]

variable [Facts₀]

-- the dense matrix: zero, plus the edge weights scattered at (destination, source), plus the self weights on the diagonal
abbrev adjacency : S10240x10240.Idx → EReal :=
  Ideal.hostScatterAdd scatter_S10240x10240_S10000x2_S10000_n_01_01_1
    (Ideal.hostScatterAdd scatter_S10240x10240_S320000x2_S320000_n_01_01_1 (fun _ => 0) pairI norm)
    diagI dinv2

include hpair hdiagR hn hd in
-- in range each scatter reads as a filtered sum, and the inclusion of the reals commutes with finite sums
theorem adjacency_eq_coe (ij : S10240x10240.Idx) :
    adjacency pairI diagI norm dinv2 ij = (adjReal pairI diagI nf df ij : EReal) := by
  unfold adjacency
  rw [Cert.ScatterRead.scatterAdd_diag_apply _ _ _ _ hdiagR, Cert.ScatterRead.scatterAdd_point_apply _ _ _ _ hpair,
    zero_add]
  unfold adjReal hitSum
  rw [EReal.coe_add, Cert.LibDenseAdjacency.coe_sum, Cert.LibDenseAdjacency.coe_sum]
  exact congrArg₂ (· + ·) (Finset.sum_congr rfl fun e _ => hn e) (Finset.sum_congr rfl fun n _ => hd n)

variable [Cert.ReferenceIdeal.Facts₀]

include hn hd hx in
-- the edge-list side at (i, c) is the inclusion of the real sum of the messages into i plus the real self term
theorem edge_side_eq_coe (i : Fin 10000) (c : Fin 256) :
    Ideal.hostScatterAdd Cert.ReferenceIdeal.scatter_S10000x256_S320000x1_S320000x256_1_0_0_1 (fun _ => 0) dstI
          (fun y => Host.gather Cert.ReferenceIdeal.gather_S10000x256_S320000x1_S320000x256_1_0_n_n_0_1_1256 xw srcI y
            * norm (ix1 (y 0))) (ix2 i c)
        + xw (ix2 i c) * dinv2 (ix1 i)
      = (((∑ e ∈ Finset.univ.filter (fun e : S320000.Idx => node dstI hdst e = i),
            nf e * xf (ix2 (node srcI hsrc e) c)) + df (ix1 i) * xf (ix2 i c) : ℝ) : EReal) := by
  have hterm : ∀ e : S320000.Idx,
      Host.gather Cert.ReferenceIdeal.gather_S10000x256_S320000x1_S320000x256_1_0_n_n_0_1_1256 xw srcI (ix2 (e 0) c)
          * norm (ix1 (e 0))
        = ((nf e * xf (ix2 (node srcI hsrc e) c) : ℝ) : EReal) := by
    intro e
    have he : (ix1 (e 0) : S320000.Idx) = e := (eq_ix1 e).symm
    rw [Cert.ScatterRead.gather_rows_apply _ _ _ hsrc, he, hn]
    show xw (ix2 (node srcI hsrc e) c) * _ = _
    rw [hx, ← EReal.coe_mul, mul_comm]
  rw [Cert.ScatterRead.scatterAdd_rows_apply _ _ _ _ hdst, zero_add, EReal.coe_add,
    Cert.LibDenseAdjacency.coe_sum, EReal.coe_mul, hx, hd, mul_comm (xf (ix2 i c) : EReal)]
  refine congrArg₂ (· + ·) ?_ rfl
  refine Finset.sum_congr (Finset.filter_congr fun e _ => ?_) fun e _ => hterm e
  show (dstI (ix2 (e 0) 0)).toInt.toNat = i.val ↔ node dstI hdst e = i
  exact ⟨fun h => Fin.ext h, fun h => congrArg Fin.val h⟩

include hdst hsrc hp0 hp1 hdiag in
-- a dense row against a padded column is the edge-list aggregation plus the self term: on the reals, distribute and exchange the sums
theorem layer_row_eq
    (hnorm : ∃ f : S320000.Idx → ℝ, ∀ j, norm j = (f j : EReal))
    (hdinv2 : ∃ f : S10000.Idx → ℝ, ∀ j, dinv2 j = (f j : EReal))
    (hxw : ∃ f : S10000x256.Idx → ℝ, ∀ j, xw j = (f j : EReal))
    (hPreal : ∃ f : S10240x256.Idx → ℝ, ∀ j, P j = (f j : EReal))
    (hP : ∀ (i : Fin 10000) (c : Fin 256), P (ix2 ⟨i.val, by omega⟩ c) = xw (ix2 i c))
    (i : Fin 10000) (c : Fin 256) :
    ∑ j : Fin 10240, adjacency pairI diagI norm dinv2 (ix2 ⟨i.val, by omega⟩ j) * P (ix2 j c)
      = Ideal.hostScatterAdd Cert.ReferenceIdeal.scatter_S10000x256_S320000x1_S320000x256_1_0_0_1 (fun _ => 0) dstI
          (fun y => Host.gather Cert.ReferenceIdeal.gather_S10000x256_S320000x1_S320000x256_1_0_n_n_0_1_1256 xw srcI y
            * norm (ix1 (y 0))) (ix2 i c)
        + xw (ix2 i c) * dinv2 (ix1 i) := by
  obtain ⟨nf, hn⟩ := hnorm
  obtain ⟨df, hd⟩ := hdinv2
  obtain ⟨xf, hx⟩ := hxw
  obtain ⟨Pf, hPf⟩ := hPreal
  have hpair := pair_range dstI srcI pairI hdst hsrc hp0 hp1
  have hdiagR := diag_range diagI hdiag
  have hL : ∑ j : Fin 10240, adjacency pairI diagI norm dinv2 (ix2 ⟨i.val, by omega⟩ j) * P (ix2 j c)
      = ((∑ j : Fin 10240, adjReal pairI diagI nf df (ix2 ⟨i.val, by omega⟩ j) * Pf (ix2 j c) : ℝ) : EReal) := by
    rw [Cert.LibDenseAdjacency.coe_sum]
    refine Finset.sum_congr rfl fun j _ => ?_
    rw [adjacency_eq_coe pairI diagI norm dinv2 hpair hdiagR nf df hn hd, hPf, ← EReal.coe_mul]
  rw [hL, edge_side_eq_coe dstI srcI norm dinv2 xw hdst hsrc nf df xf hn hd hx i c]
  refine EReal.coe_eq_coe_iff.mpr ?_
  have hPp : ∀ j : Fin 10000, Pf (ix2 (Fin.castAdd 240 j) c) = xf (ix2 j c) := by
    intro j
    have h1 := hP j c
    rw [hx] at h1
    have h2 : P (ix2 ⟨j.val, by omega⟩ c) = (Pf (ix2 (Fin.castAdd 240 j) c) : EReal) := hPf _
    rw [h2] at h1
    exact EReal.coe_eq_coe_iff.mp h1
  exact Cert.LibDenseAdjacency.dense_row_padded (n := 10000) (k := 240)
    (node srcI hsrc) (node dstI hdst) nf (fun a => df (ix1 a)) (fun a => xf (ix2 a c))
    (fun j : Fin 10240 => Pf (ix2 j c)) hPp
    (fun a b : Fin 10240 => adjReal pairI diagI nf df (ix2 a b))
    (fun a b => adjReal_nodes dstI srcI pairI diagI hdst hsrc hp0 hp1 hdiag nf df a b)
    (fun a b hb => adjReal_zero pairI diagI hpair hdiagR nf df _ (Or.inr hb))
    i

include hdst hsrc hp0 hp1 hdiag in
-- with real-valued weights every entry of the dense matrix is the inclusion of a real
theorem adjacency_real
    (hnorm : ∃ f : S320000.Idx → ℝ, ∀ j, norm j = (f j : EReal))
    (hdinv2 : ∃ f : S10000.Idx → ℝ, ∀ j, dinv2 j = (f j : EReal)) :
    ∃ f : S10240x10240.Idx → ℝ, ∀ ij, adjacency pairI diagI norm dinv2 ij = (f ij : EReal) := by
  obtain ⟨nf, hn⟩ := hnorm
  obtain ⟨df, hd⟩ := hdinv2
  exact ⟨adjReal pairI diagI nf df, adjacency_eq_coe pairI diagI norm dinv2
    (pair_range dstI srcI pairI hdst hsrc hp0 hp1) (diag_range diagI hdiag) nf df hn hd⟩

end Cert.LayerBridge
-- ==== Proof.HostValue.lean ====
import proofs.«405878_j81363860455818_1_alg».proof.Proof.Frame.Base
import proofs.«405878_j81363860455818_1_alg».proof.Proof.Frame.Args
import proofs.«405878_j81363860455818_1_alg».proof.Proof.GateAlgebra
import Idealize.ShloMosaic.Lib.StableHlo.Run
import Idealize.ShloMosaic.Lib.KernelVsHost
import Idealize.ShloMosaic.Lib.ValueLayout

set_option maxRecDepth 4096

noncomputable section

namespace Cert.KernelIdeal.HostValue

open Cert.KernelIdeal Cert.KernelIdeal.Gen Cert.KernelIdeal.Fr
open Idealize.ShloMosaic Idealize.ShloMosaic.TcCoe Idealize.ShloMosaic.ValueIdx
open Idealize.SL.Sem

variable (m : (ℓ : Loc nD τ sig) → Buf (Elt Ideal) ℓ) (c : Dev nD)

-- What the fifth stretch computes from one argument of the program that no stretch writes.
theorem V5_of_arg (r a : Ref sig .tc)
    (f : (Proc.devRef .tc a : DevRef τ sig).ty.Contents (Elt Ideal) → (Proc.devRef .tc r : DevRef τ sig).ty.Contents (Elt Ideal))
    (h : ∀ W : Valuation τ sig (Elt Ideal), StableHlo.after hostOps0_4 W (Proc.devRef .tc r) = f (W (Proc.devRef .tc a)))
    (ha : a ∉ written0 ∧ a ∉ written1 ∧ a ∉ written2 ∧ a ∉ written3) :
    V₅ m c (Proc.devRef .tc r) = f (m ((c : Thread nD τ).loc a)) :=
  (h _).trans (congrArg f (V4_of_not_written m c a ha.1 ha.2.1 ha.2.2.1 ha.2.2.2))

theorem V5_main_v80_apply (i : Fin 1) (j : Fin 256) : (V₅ m c main_v80 : S1x256.Idx → EReal) (ix2 i j) = (0 : EReal) := by
  have h : (V₅ m c main_v80 : S1x256.Idx → EReal)
      = broadcastInDim S1x256 ![] bcast_S_S1x256 (constant (F := Ideal) S_ .f32 0x00000000#32) := by
    show StableHlo.after hostOps0_4 _ (Proc.devRef .tc main_v80) = _
    generalize V₄ m c = W
    after_results
  rw [h]
  exact Ideal.ofBits_zero_f32

theorem V5_main_v81_apply (i : Fin 1) (j : Fin 256) :
    (V₅ m c main_v81 : S1x256.Idx → EReal) (ix2 i j) = (m ((c : Thread nD τ).loc main_arg4) : S256.Idx → EReal) (ix1 j) :=
  (congrFun (V5_of_arg m c main_v81 main_arg4 (shapeCast S1x256 · shapeCasts_S256_S1x256) (fun W => by after_results; rfl)
    (by decide)) _).trans (shapeCast_a_1a_apply _ _ i j)

theorem V5_main_v66 :
    (V₅ m c main_v66 : S128x256.Idx → EReal) = (m ((c : Thread nD τ).loc main_arg3) : S128x256.Idx → EReal) :=
  V5_of_arg m c main_v66 main_arg3 id (fun W => by after_results; rfl) (by decide)

theorem V5_main_v69_apply (k : Fin 256) (j : Fin 256) :
    (V₅ m c main_v69 : S256x256.Idx → EReal) (ix2 k j)
      = (m ((c : Thread nD τ).loc main_arg7) : S512x256.Idx → EReal) (ix2 ⟨k.val, by omega⟩ j) :=
  (congrFun (V5_of_arg m c main_v69 main_arg7
    (extractStridedSlice S256x256 ![0, 0] · slices_S512x256_S256x256_0_0) (fun W => by after_results; rfl)
    (by decide)) _).trans (Cert.GateAlgebra.slice_512_top_apply _ _ k j)

theorem V5_main_v67 :
    (V₅ m c main_v67 : S256x256.Idx → EReal) = (m ((c : Thread nD τ).loc main_arg5) : S256x256.Idx → EReal) :=
  V5_of_arg m c main_v67 main_arg5 id (fun W => by after_results; rfl) (by decide)

theorem V5_main_v71_apply (k : Fin 256) (j : Fin 256) :
    (V₅ m c main_v71 : S256x256.Idx → EReal) (ix2 k j)
      = (m ((c : Thread nD τ).loc main_arg7) : S512x256.Idx → EReal) (ix2 ⟨k.val + 256, by omega⟩ j) :=
  (congrFun (V5_of_arg m c main_v71 main_arg7
    (extractStridedSlice S256x256 ![256, 0] · slices_S512x256_S256x256_256_0) (fun W => by after_results; rfl)
    (by decide)) _).trans (Cert.GateAlgebra.slice_512_bottom_apply _ _ k j)

theorem V5_main_v73_apply (k : Fin 256) (j : Fin 256) :
    (V₅ m c main_v73 : S256x256.Idx → EReal) (ix2 k j)
      = (m ((c : Thread nD τ).loc main_arg9) : S512x256.Idx → EReal) (ix2 ⟨k.val, by omega⟩ j) :=
  (congrFun (V5_of_arg m c main_v73 main_arg9
    (extractStridedSlice S256x256 ![0, 0] · slices_S512x256_S256x256_0_0) (fun W => by after_results; rfl)
    (by decide)) _).trans (Cert.GateAlgebra.slice_512_top_apply _ _ k j)

theorem V5_main_v75_apply (k : Fin 256) (j : Fin 256) :
    (V₅ m c main_v75 : S256x256.Idx → EReal) (ix2 k j)
      = (m ((c : Thread nD τ).loc main_arg9) : S512x256.Idx → EReal) (ix2 ⟨k.val + 256, by omega⟩ j) :=
  (congrFun (V5_of_arg m c main_v75 main_arg9
    (extractStridedSlice S256x256 ![256, 0] · slices_S512x256_S256x256_256_0) (fun W => by after_results; rfl)
    (by decide)) _).trans (Cert.GateAlgebra.slice_512_bottom_apply _ _ k j)

theorem V5_main_v77_apply (k : Fin 256) (j : Fin 256) :
    (V₅ m c main_v77 : S256x256.Idx → EReal) (ix2 k j)
      = (m ((c : Thread nD τ).loc main_arg11) : S512x256.Idx → EReal) (ix2 ⟨k.val, by omega⟩ j) :=
  (congrFun (V5_of_arg m c main_v77 main_arg11
    (extractStridedSlice S256x256 ![0, 0] · slices_S512x256_S256x256_0_0) (fun W => by after_results; rfl)
    (by decide)) _).trans (Cert.GateAlgebra.slice_512_top_apply _ _ k j)

theorem V5_main_v79_apply (k : Fin 256) (j : Fin 256) :
    (V₅ m c main_v79 : S256x256.Idx → EReal) (ix2 k j)
      = (m ((c : Thread nD τ).loc main_arg11) : S512x256.Idx → EReal) (ix2 ⟨k.val + 256, by omega⟩ j) :=
  (congrFun (V5_of_arg m c main_v79 main_arg11
    (extractStridedSlice S256x256 ![256, 0] · slices_S512x256_S256x256_256_0) (fun W => by after_results; rfl)
    (by decide)) _).trans (Cert.GateAlgebra.slice_512_bottom_apply _ _ k j)

theorem V5_main_v82_apply (i : Fin 1) (j : Fin 256) :
    (V₅ m c main_v82 : S1x256.Idx → EReal) (ix2 i j) = (m ((c : Thread nD τ).loc main_arg6) : S256.Idx → EReal) (ix1 j) :=
  (congrFun (V5_of_arg m c main_v82 main_arg6 (shapeCast S1x256 · shapeCasts_S256_S1x256) (fun W => by after_results; rfl)
    (by decide)) _).trans (shapeCast_a_1a_apply _ _ i j)

theorem V5_main_v83_apply (i : Fin 1) (j : Fin 256) :
    (V₅ m c main_v83 : S1x256.Idx → EReal) (ix2 i j) = (m ((c : Thread nD τ).loc main_arg8) : S256.Idx → EReal) (ix1 j) :=
  (congrFun (V5_of_arg m c main_v83 main_arg8 (shapeCast S1x256 · shapeCasts_S256_S1x256) (fun W => by after_results; rfl)
    (by decide)) _).trans (shapeCast_a_1a_apply _ _ i j)

theorem V5_main_v84_apply (i : Fin 1) (j : Fin 256) :
    (V₅ m c main_v84 : S1x256.Idx → EReal) (ix2 i j) = (m ((c : Thread nD τ).loc main_arg10) : S256.Idx → EReal) (ix1 j) :=
  (congrFun (V5_of_arg m c main_v84 main_arg10 (shapeCast S1x256 · shapeCasts_S256_S1x256) (fun W => by after_results; rfl)
    (by decide)) _).trans (shapeCast_a_1a_apply _ _ i j)

theorem V5_main_v85_apply (i : Fin 1) (j : Fin 256) :
    (V₅ m c main_v85 : S1x256.Idx → EReal) (ix2 i j) = (m ((c : Thread nD τ).loc main_arg12) : S256.Idx → EReal) (ix1 j) :=
  (congrFun (V5_of_arg m c main_v85 main_arg12 (shapeCast S1x256 · shapeCasts_S256_S1x256) (fun W => by after_results; rfl)
    (by decide)) _).trans (shapeCast_a_1a_apply _ _ i j)

theorem V1_main_c_16 : (V₁ m c main_c_16 : S_.Idx → BitVec 32) = constantI S_ 32 0#32 := by
  show StableHlo.after hostOps0 _ (Proc.devRef .tc main_c_16) = _
  generalize V₀ m c = W
  after_results

theorem V2_main_v63 :
    (V₂ m c main_v63 : S10240x128.Idx → EReal)
      = pad S10240x128 ![0, 0] ![240, 0] ![0, 0] (m ((c : Thread nD τ).loc main_arg0) : S10000x128.Idx → EReal)
          (sitofp (F := Ideal) .f32 (constantI S_ 32 0#32) : S_.Idx → EReal) pads_S10000x128_S10240x128_02400_000 h_S_ := by
  rw [← V1_of_not_written m c main_arg0 (by decide), ← V1_main_c_16 m c]
  show StableHlo.after hostOps0_1 _ (Proc.devRef .tc main_v63) = _
  generalize V₁ m c = W
  after_results
  rfl

theorem V5_main_v64 :
    (V₅ m c main_v64 : S10240x128.Idx → EReal)
      = pad S10240x128 ![0, 0] ![240, 0] ![0, 0] (m ((c : Thread nD τ).loc main_arg0) : S10000x128.Idx → EReal)
          (sitofp (F := Ideal) .f32 (constantI S_ 32 0#32) : S_.Idx → EReal) pads_S10000x128_S10240x128_02400_000 h_S_ := by
  rw [V5_keep m c main_v64 (by decide), V4_keep m c main_v64 (by decide), ← V2_main_v63 m c]
  show StableHlo.after hostOps0_2 _ (Proc.devRef .tc main_v64) = _
  generalize V₂ m c = W
  after_results
  rfl

theorem padding_zero : (sitofp (F := Ideal) .f32 (constantI S_ 32 0#32) : S_.Idx → EReal) (Shape.Idx.first h_S_) = 0 :=
  sitofp_zero

theorem V5_main_v64_apply (i : Fin 10240) (j : Fin 128) :
    (V₅ m c main_v64 : S10240x128.Idx → EReal) (ix2 i j)
      = if hi : i.val < 10000 then (m ((c : Thread nD τ).loc main_arg0) : S10000x128.Idx → EReal) (ix2 ⟨i.val, hi⟩ j)
        else (0 : EReal) := by
  rw [V5_main_v64, Cert.GateAlgebra.pad_10000_10240_apply, padding_zero]

theorem V3_main_c_17 : (V₃ m c main_c_17 : S_.Idx → BitVec 32) = constantI S_ 32 0#32 := by
  show StableHlo.after hostOps0_2 _ (Proc.devRef .tc main_c_17) = _
  generalize V₂ m c = W
  after_results

theorem V5_main_v65 :
    (V₅ m c main_v65 : S10240x256.Idx → EReal)
      = pad S10240x256 ![0, 0] ![240, 0] ![0, 0] (m ((c : Thread nD τ).loc main_arg1) : S10000x256.Idx → EReal)
          (sitofp (F := Ideal) .f32 (constantI S_ 32 0#32) : S_.Idx → EReal) pads_S10000x256_S10240x256_02400_000 h_S_ := by
  rw [V5_keep m c main_v65 (by decide), ← V3_of_not_written m c main_arg1 (by decide) (by decide) (by decide), ← V3_main_c_17 m c]
  show StableHlo.after hostOps0_3 _ (Proc.devRef .tc main_v65) = _
  generalize V₃ m c = W
  after_results
  rfl

theorem V5_main_v65_apply (i : Fin 10240) (j : Fin 256) :
    (V₅ m c main_v65 : S10240x256.Idx → EReal) (ix2 i j)
      = if hi : i.val < 10000 then (m ((c : Thread nD τ).loc main_arg1) : S10000x256.Idx → EReal) (ix2 ⟨i.val, hi⟩ j)
        else (0 : EReal) := by
  rw [V5_main_v65, Cert.GateAlgebra.pad_10000_10240_apply, padding_zero]

section Adjacency

def kWrapE (n : BitVec 32) (idx : IVec S320000 32) : IVec S320000 32 :=
  select (cmpi .slt idx (broadcastInDim S320000 ![] bcast_S_S320000 (constantI S_ 32 0#32)))
    (addi idx (broadcastInDim S320000 ![] bcast_S_S320000 (constantI S_ 32 n))) idx

def kWrapN : IVec S10000 32 :=
  select (cmpi .slt (iotaInDim S10000 32 0) (broadcastInDim S10000 ![] bcast_S_S10000 (constantI S_ 32 0#32)))
    (addi (iotaInDim S10000 32 0) (broadcastInDim S10000 ![] bcast_S_S10000 (constantI S_ 32 10240#32))) (iotaInDim S10000 32 0)

variable (ei : IVec S2x320000 32)

def kSrc : IVec S320000 32 :=
  shapeCast S320000 (extractStridedSlice S1x320000 ![0, 0] ei slices_S2x320000_S1x320000_0_0) shapeCasts_S1x320000_S320000
def kDst : IVec S320000 32 :=
  shapeCast S320000 (extractStridedSlice S1x320000 ![1, 0] ei slices_S2x320000_S1x320000_1_0) shapeCasts_S1x320000_S320000

def kDeg : FVec Ideal S10000 .f32 :=
  Ideal.hostScatterAdd scatter_S10000_S320000x1_S320000_n_0_0_1
    (broadcastInDim S10000 ![] bcast_S_S10000 (constant (F := Ideal) S_ .f32 0x00000000#32))
    (broadcastInDim S320000x1 ![0] bcast_S320000_S320000x1_0 (kWrapE 10000#32 (kDst ei)))
    (broadcastInDim S320000 ![] bcast_S_S320000 (constant (F := Ideal) S_ .f32 0x3F800000#32))

def kDinv : FVec Ideal S10000 .f32 :=
  Host.rsqrt (F := Ideal) (φ := .f32)
    (addf (F := Ideal) (φ := .f32) (kDeg ei) (broadcastInDim S10000 ![] bcast_S_S10000 (constant (F := Ideal) S_ .f32 0x3F800000#32)))

def kNorm : FVec Ideal S320000 .f32 :=
  mulf (F := Ideal) (φ := .f32)
    (Host.gather gather_S10000_S320000x1_S320000_n_0_n_n_0_1_1 (kDinv ei)
      (broadcastInDim S320000x1 ![0] bcast_S320000_S320000x1_0 (kWrapE 10000#32 (kSrc ei))))
    (Host.gather gather_S10000_S320000x1_S320000_n_0_n_n_0_1_1 (kDinv ei)
      (broadcastInDim S320000x1 ![0] bcast_S320000_S320000x1_0 (kWrapE 10000#32 (kDst ei))))

def kPair : IVec S320000x2 32 :=
  concatenate S320000x2 1
    [⟨S320000x1, broadcastInDim S320000x1 ![0] bcast_S320000_S320000x1_0 (kWrapE 10240#32 (kDst ei))⟩,
     ⟨S320000x1, broadcastInDim S320000x1 ![0] bcast_S320000_S320000x1_0 (kWrapE 10240#32 (kSrc ei))⟩]
    concatenates_S320000x1_S320000x1_S320000x2_d1

def kDiag : IVec S10000x2 32 :=
  concatenate S10000x2 1
    [⟨S10000x1, broadcastInDim S10000x1 ![0] bcast_S10000_S10000x1_0 kWrapN⟩,
     ⟨S10000x1, broadcastInDim S10000x1 ![0] bcast_S10000_S10000x1_0 kWrapN⟩]
    concatenates_S10000x1_S10000x1_S10000x2_d1

def kZero : FVec Ideal S10240x10240 .f32 :=
  broadcastInDim S10240x10240 ![] bcast_S_S10240x10240 (constant (F := Ideal) S_ .f32 0x00000000#32)

def kAdj : FVec Ideal S10240x10240 .f32 :=
  Ideal.hostScatterAdd scatter_S10240x10240_S10000x2_S10000_n_01_01_1
    (Ideal.hostScatterAdd scatter_S10240x10240_S320000x2_S320000_n_01_01_1 kZero (kPair ei) (kNorm ei))
    kDiag (fun i => kDinv ei i * kDinv ei i)

end Adjacency

theorem kZero_apply (j : S10240x10240.Idx) : kZero j = 0 := Ideal.ofBits_zero_f32

theorem V1_main_v62 :
    (V₁ m c main_v62 : S10240x10240.Idx → EReal) = kAdj (m ((c : Thread nD τ).loc main_arg2) : IVec S2x320000 32) := by
  show StableHlo.after hostOps0 (V₀ m c) (Proc.devRef .tc main_v62) = kAdj (V₀ m c (Proc.devRef .tc main_arg2))
  generalize V₀ m c = W
  after_results_simp
  rfl

theorem V5_main_v62 :
    (V₅ m c main_v62 : S10240x10240.Idx → EReal) = kAdj (m ((c : Thread nD τ).loc main_arg2) : IVec S2x320000 32) := by
  rw [V5_keep m c main_v62 (by decide), V4_keep m c main_v62 (by decide), V3_keep m c main_v62 (by decide),
    V2_keep m c main_v62 (by decide)]
  exact V1_main_v62 m c

end Cert.KernelIdeal.HostValue
-- ==== Proof.AdjBridge.lean ====
import proofs.«405878_j81363860455818_1_alg».proof.Proof.LayerBridge
import proofs.«405878_j81363860455818_1_alg».proof.Proof.ScatterRead
import proofs.«405878_j81363860455818_1_alg».proof.Proof.RefValue
import proofs.«405878_j81363860455818_1_alg».proof.Proof.HostValue
import Idealize.ShloMosaic.Lib.ValueIdx
import Idealize.ShloMosaic.Lib.ValueLayout
import Idealize.ShloMosaic.Lib.Pipeline.Value
import Idealize.ShloMosaic.Lib.StableHlo.Predicate

noncomputable section

namespace Cert.AdjBridge

open Idealize.ShloMosaic Idealize.ShloMosaic.ValueIdx
open Cert.KernelIdeal Cert.KernelIdeal.HostValue Cert.RefValue

-- a wrap of a non-negative word is the word: the comparison with zero fails
theorem select_nonneg (a alt : BitVec 32) (h : 0 ≤ a.toInt) :
    Scalar.select (IntOp.cmpi .slt a 0#32) alt a = a := by
  have e0 : (0#32 : BitVec 32).toInt = 0 := by decide
  have hb : IntOp.cmpi .slt a 0#32 = 0#1 := by
    show BitVec.ofBool (a.slt 0#32) = 0#1
    rw [show a.slt 0#32 = false by unfold BitVec.slt; rw [e0]; exact decide_eq_false (by omega)]
    rfl
  rw [hb]
  exact select_zero _ _

-- two one-column arrays side by side: column 0 reads the first, column 1 the second
theorem cat_cols_apply {α : Type} {n : ℕ} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨_, x₁⟩, ⟨_, x₂⟩] h (ix2 e 0) = x₁ (ix2 e 0)
      ∧ concatenate ⟨2, ![n, 2]⟩ 1 [⟨_, x₁⟩, ⟨_, x₂⟩] h (ix2 e 1) = x₂ (ix2 e 0) :=
  ⟨concatenate_pair_apply_left 1 _ _ h (ix2 e 0) rfl (ix2 e 0) (fun b => by
      match b with
      | ⟨0, _⟩ => rfl
      | ⟨1, _⟩ => rfl),
    concatenate_pair_apply_right 1 _ _ h (ix2 e 1) rfl rfl (ix2 e 0) (fun b hb => by
      match b with
      | ⟨0, _⟩ => rfl
      | ⟨1, _⟩ => exact absurd rfl hb) rfl⟩

-- a row of the edge list, cut out and flattened, is that row
theorem kSrc_eq (ei : IVec S2x320000 32) : kSrc ei = src ei := by
  funext e
  obtain ⟨a, rfl⟩ : ∃ a, e = ix1 a := ⟨e 0, eq_ix1 e⟩
  exact (shapeCast_1a_a_apply _ _ a).trans (slice2_axis0_apply 0 ei _ (0 : Fin 1) a (0 : Fin 2) rfl)

theorem kDst_eq (ei : IVec S2x320000 32) : kDst ei = dst ei := by
  funext e
  obtain ⟨a, rfl⟩ : ∃ a, e = ix1 a := ⟨e 0, eq_ix1 e⟩
  exact (shapeCast_1a_a_apply _ _ a).trans (slice2_axis0_apply 1 ei _ (0 : Fin 1) a (1 : Fin 2) rfl)

theorem kWrapE_eq_wrap (v : IVec S320000 32) : kWrapE 10000#32 v = wrap v :=
  wrap_eq v _ _ (fun _ => rfl) (fun _ => rfl)

theorem kCol (v : S320000.Idx → BitVec 32) :
    broadcastInDim S320000x1 ![0] Facts₀.bcast_S320000_S320000x1_0 v = col v :=
  bcast_col v

-- the degree, the node weights and the edge weights are the same scatters and gathers over equal records
theorem kDeg_eq (ei : IVec S2x320000 32) : kDeg ei = deg ei := by
  unfold kDeg deg
  rw [kCol, kDst_eq, kWrapE_eq_wrap, splat_S10000, splat_S320000]
  rfl

theorem rsqrt_add_const (d : S10000.Idx → EReal) (c : EReal) :
    Host.rsqrt (F := Ideal) (φ := .f32) (addf (F := Ideal) (φ := .f32) d (fun _ => c)) = fun i => Ideal.rsqrt (d i + c) := rfl

theorem kDinv_eq (ei : IVec S2x320000 32) : kDinv ei = dinv ei := by
  unfold kDinv dinv
  rw [kDeg_eq, splat_S10000, rsqrt_add_const]

theorem kNorm_eq (ei : IVec S2x320000 32) : kNorm ei = RefValue.norm ei := by
  unfold kNorm RefValue.norm
  rw [kCol, kCol, kDinv_eq, kSrc_eq, kDst_eq, kWrapE_eq_wrap, kWrapE_eq_wrap]
  generalize dinv ei = d
  rfl

theorem kAdj_eq (ei : IVec S2x320000 32) :
    kAdj ei = LayerBridge.adjacency (kPair ei) kDiag (RefValue.norm ei) (fun i => dinv ei i * dinv ei i) := by
  unfold kAdj
  rw [show (kZero : S10240x10240.Idx → EReal) = fun _ => 0 from funext kZero_apply, kNorm_eq, kDinv_eq]

-- a node vector broadcast to one column reads the vector at the row
theorem kColN (v : S10000.Idx → BitVec 32) (j : S10000x1.Idx) :
    broadcastInDim S10000x1 ![0] Facts₀.bcast_S10000_S10000x1_0 v j = v (ix1 (j 0)) :=
  broadcastInDim_apply _ Facts₀.bcast_S10000_S10000x1_0 v j (ix1 (j 0)) (fun a => match a with
    | ⟨0, _⟩ => by show (j 0).val = if (10000 : Nat) = 1 then 0 else (j 0).val; rw [if_neg (by decide)])

-- both words of row i of the diagonal array read, signed, as i: the wrapped position i is the word i
theorem kDiag_toInt (i : Fin 10000) (b : Fin 2) : (kDiag (ix2 i b)).toInt = (i.val : Int) := by
  have hi := StableHlo.Predicate.toInt_ofNat_small i.val (by omega)
  have hw : kWrapN (ix1 i) = BitVec.ofNat 32 i.val := select_nonneg (BitVec.ofNat 32 i.val) _ (by rw [hi]; omega)
  have hk : kDiag (ix2 i b) = BitVec.ofNat 32 i.val := by
    unfold kDiag
    match b with
    | ⟨0, _⟩ => exact (cat_cols_apply _ _ _ i).1.trans ((kColN _ _).trans hw)
    | ⟨1, _⟩ => exact (cat_cols_apply _ _ _ i).2.trans ((kColN _ _).trans hw)
  rw [hk, hi]

section Main
variable (ei : IVec S2x320000 32) (hei : ∀ e : S2x320000.Idx, 0 ≤ (ei e).toInt ∧ (ei e).toInt < 10000)
include hei

theorem dstCol_range : ∀ e, 0 ≤ (col (dst ei) e).toInt ∧ (col (dst ei) e).toInt < 10000 :=
  fun e => hei (ix2 1 (e 0))

-- in range the wrapped sources are the sources
theorem wrap_src_apply (e : S320000.Idx) : wrap (src ei) e = ei (ix2 0 (e 0)) :=
  select_nonneg (src ei e) _ (hei (ix2 0 (e 0))).1

theorem srcCol_range :
    ∀ e, 0 ≤ (col (wrap (src ei)) e).toInt ∧ (col (wrap (src ei)) e).toInt < 10000 := by
  intro e
  show 0 ≤ (wrap (src ei) (ix1 (e 0))).toInt ∧ (wrap (src ei) (ix1 (e 0))).toInt < 10000
  rw [wrap_src_apply ei hei]
  exact hei _

-- the pair's words are the destination column's and the wrapped source column's
theorem pair_dst (e : Fin 320000) : kPair ei (ix2 e 0) = col (dst ei) (ix2 e 0) := by
  unfold kPair
  rw [kCol, kCol, (cat_cols_apply _ _ Facts₀.concatenates_S320000x1_S320000x1_S320000x2_d1 e).1, kDst_eq]
  exact select_nonneg (ei (ix2 1 e)) _ (hei (ix2 1 e)).1

theorem pair_src (e : Fin 320000) : kPair ei (ix2 e 1) = col (wrap (src ei)) (ix2 e 0) := by
  unfold kPair
  rw [kCol, kCol, (cat_cols_apply _ _ Facts₀.concatenates_S320000x1_S320000x1_S320000x2_d1 e).2, kSrc_eq]
  show kWrapE 10240#32 (src ei) (ix1 e) = wrap (src ei) (ix1 e)
  rw [wrap_src_apply ei hei]
  exact select_nonneg (ei (ix2 0 e)) _ (hei (ix2 0 e)).1

-- a row of the kernel's matrix against a real padded operand carrying y is the aggregation of y plus the self-loop term
theorem adj_row (y : S10000x256.Idx → EReal) (P : S10240x256.Idx → EReal)
    (hy : ∃ f : S10000x256.Idx → ℝ, ∀ j, y j = (f j : EReal))
    (hPreal : ∃ f : S10240x256.Idx → ℝ, ∀ j, P j = (f j : EReal))
    (hP : ∀ (i : Fin 10000) (o : Fin 256), P (ix2 ⟨i.val, by omega⟩ o) = y (ix2 i o))
    (hnorm : ∃ f : S320000.Idx → ℝ, ∀ j, RefValue.norm ei j = (f j : EReal))
    (hdinv2 : ∃ f : S10000.Idx → ℝ, ∀ j, dinv ei j * dinv ei j = (f j : EReal))
    (i : Fin 10000) (o : Fin 256) :
    ∑ j : Fin 10240, kAdj ei (ix2 ⟨i.val, by omega⟩ j) * P (ix2 j o)
      = agg y ei (ix2 i o) + y (ix2 i o) * (dinv ei (ix1 i) * dinv ei (ix1 i)) := by
  rw [kAdj_eq]
  refine (LayerBridge.layer_row_eq (col (dst ei)) (col (wrap (src ei))) (kPair ei) kDiag (RefValue.norm ei)
    (fun i => dinv ei i * dinv ei i) y P
    (dstCol_range ei hei) (srcCol_range ei hei) (pair_dst ei hei) (pair_src ei hei) kDiag_toInt
    hnorm hdinv2 hy hPreal hP i o).trans ?_
  refine congrArg₂ (· + ·) ?_ rfl
  unfold agg
  rw [Ideal.ofBits_zero_f32]
  rfl

-- with real edge weights and squared node weights every entry of the kernel's matrix is a real
theorem adj_real (hnorm : ∃ f : S320000.Idx → ℝ, ∀ j, RefValue.norm ei j = (f j : EReal))
    (hdinv2 : ∃ f : S10000.Idx → ℝ, ∀ j, dinv ei j * dinv ei j = (f j : EReal)) :
    ∃ f : S10240x10240.Idx → ℝ, ∀ ij, kAdj ei ij = (f ij : EReal) := by
  rw [kAdj_eq]
  exact LayerBridge.adjacency_real (col (dst ei)) (col (wrap (src ei))) (kPair ei) kDiag _ _
    (dstCol_range ei hei) (srcCol_range ei hei) (pair_dst ei hei) (pair_src ei hei) kDiag_toInt hnorm hdinv2

end Main

end Cert.AdjBridge
-- ==== Proof.PreFacts.lean ====
import proofs.«405878_j81363860455818_1_alg».proof.Pre_finite_inputs
import Idealize.ShloMosaic.Lib.ReduceAll
import Idealize.ShloMosaic.Lib.StableHlo.Predicate
import Idealize.ShloMosaic.PureOps.Ideal
import Idealize.ShloMosaic.Lib.ValueIdx
import Mathlib.Data.EReal.Basic

noncomputable section

open Idealize.ShloMosaic Idealize.ShloMosaic.ValueIdx Cert.Pre_finite_inputs

namespace Cert.PreFacts

instance : Subsingleton (⟨0, ![]⟩ : Shape).Idx := ⟨fun _ _ => funext fun d => d.elim0⟩

-- |x| < +∞ excludes ⊤ and ⊥, whose absolute value is ⊤
theorem real_of_abs_lt_inf (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  have hlt : max x (-x) < ⊤ := by simpa using (StableHlo.Predicate.ofBool_eq_one_iff _).1 h
  induction x using EReal.rec
  · simp at hlt
  · exact ⟨_, rfl⟩
  · simp at hlt

-- a word that passes both signed comparisons lies in [0, 10000)
theorem word_range (a : BitVec 32)
    (h : IntOp.andi (IntOp.cmpi .sge a 0#32) (IntOp.cmpi .slt a 10000#32) = 1#1) :
    0 ≤ a.toInt ∧ a.toInt < 10000 :=
  ⟨IntOp.cmpi_sge.1 (IntOp.andi_eq_one.1 h).1, IntOp.cmpi_slt.1 (IntOp.andi_eq_one.1 h).2⟩

variable {s : Shape} {axes : List (Fin s.rank)}
  {hb : (⟨0, ![]⟩ : Shape).BroadcastsInDim s (![] : Fin 0 → Fin s.rank)}
  {hr : s.ReducesTo axes ⟨0, ![]⟩} {h0 : 0 < (⟨0, ![]⟩ : Shape).numel}

-- a conjunction over a whole array is one only if every entry's bit is: here the bit says the entry is real
theorem all_real {x : FVec Ideal s .f32}
    (h : Host.reduce IntOp.andi
        (cmpf .olt (Host.absf x) (broadcastInDim s ![] hb (constant (F := Ideal) ⟨0, ![]⟩ .f32 0x7F800000#32)))
        (constantI ⟨0, ![]⟩ 1 1#1) hr h0 ix0 = 1#1) :
    ∃ f : s.Idx → ℝ, ∀ j, x j = (f j : EReal) := by
  have hj : ∀ j, ∃ r : ℝ, x j = (r : EReal) := fun j =>
    real_of_abs_lt_inf (x j) (Host.reduce_andi_all _ _ hr h0 ix0 h j)
  exact ⟨fun j => (hj j).choose, fun j => (hj j).choose_spec⟩

-- the same for the integer bit: every word is a node number
theorem all_in_range {a : IVec s 32}
    (h : Host.reduce IntOp.andi
        (andi (cmpi .sge a (broadcastInDim s ![] hb (constantI ⟨0, ![]⟩ 32 0#32)))
          (cmpi .slt a (broadcastInDim s ![] hb (constantI ⟨0, ![]⟩ 32 10000#32))))
        (constantI ⟨0, ![]⟩ 1 1#1) hr h0 ix0 = 1#1) (e : s.Idx) :
    0 ≤ (a e).toInt ∧ (a e).toInt < 10000 :=
  word_range (a e) (Host.reduce_andi_all _ _ hr h0 ix0 h e)

-- the precondition is a chain of conjunctions of thirteen bits, one per argument; the bridge needs the first seven
theorem pre_facts [Facts] {a0 a1 a2 a3 a4 a5 a6 a7 a8 a9 a10 a11 a12}
    (h : fn (F := Ideal) a0 a1 a2 a3 a4 a5 a6 a7 a8 a9 a10 a11 a12 = fun _ => 1#1) :
    (∀ e, 0 ≤ (a2 e).toInt ∧ (a2 e).toInt < 10000) ∧ (∃ f : _ → ℝ, ∀ j, a0 j = (f j : EReal)) ∧
    (∃ f : _ → ℝ, ∀ j, a1 j = (f j : EReal)) ∧ (∃ f : _ → ℝ, ∀ j, a3 j = (f j : EReal)) ∧
    (∃ f : _ → ℝ, ∀ j, a4 j = (f j : EReal)) ∧ (∃ f : _ → ℝ, ∀ j, a5 j = (f j : EReal)) ∧
    (∃ f : _ → ℝ, ∀ j, a6 j = (f j : EReal)) := by
  have h0 := congrFun h ix0
  dsimp only [fn, fn_part1, fn_part2, fn_part3] at h0
  have hs : ∀ (x y : IVec ⟨0, ![]⟩ 1), andi x y ix0 = IntOp.andi (x ix0) (y ix0) := fun _ _ => rfl
  simp only [hs, IntOp.andi_eq_one] at h0
  obtain ⟨⟨⟨⟨⟨⟨⟨⟨⟨⟨⟨⟨h_0, h_1⟩, h_3⟩, h_4⟩, h_5⟩, h_6⟩, -⟩, -⟩, -⟩, -⟩, -⟩, -⟩, h_2⟩ := h0
  exact ⟨all_in_range h_2, all_real h_0, all_real h_1, all_real h_3, all_real h_4, all_real h_5, all_real h_6⟩

end Cert.PreFacts
-- ==== Proof.Final.lean ====
import proofs.«405878_j81363860455818_1_alg».proof.Defs
import proofs.«405878_j81363860455818_1_alg».proof.Proof.Gen.Kernel
import proofs.«405878_j81363860455818_1_alg».proof.Proof.Gen.KernelIdeal
import proofs.«405878_j81363860455818_1_alg».proof.Proof.Gen.ReferenceIdeal
import proofs.«405878_j81363860455818_1_alg».proof.Proof.Gen.ReferenceIdeal.Run
import proofs.«405878_j81363860455818_1_alg».proof.Proof.Gen.Pre_finite_inputs
import proofs.«405878_j81363860455818_1_alg».proof.Proof.Frame.Frame
import proofs.«405878_j81363860455818_1_alg».proof.Proof.FrameBits.Frame
import proofs.«405878_j81363860455818_1_alg».proof.Proof.KVal
import proofs.«405878_j81363860455818_1_alg».proof.Proof.Bridge
import proofs.«405878_j81363860455818_1_alg».proof.Proof.AdjBridge
import proofs.«405878_j81363860455818_1_alg».proof.Proof.HostValue
import proofs.«405878_j81363860455818_1_alg».proof.Proof.PreFacts
import proofs.«405878_j81363860455818_1_alg».proof.Proof.RefValue
import proofs.«405878_j81363860455818_1_alg».proof.Proof.RefReal

noncomputable section

namespace Cert.Proof.Final

open Idealize.ShloMosaic Idealize.ShloMosaic.TcCoe Idealize.SL.Sem Idealize.ShloMosaic.ValueIdx
open Cert.KernelIdeal Cert.KernelIdeal.HostValue

theorem frame_k : frame_Kernel (hKernel := Kernel.Gen.facts) (hPre_finite_inputs := Pre_finite_inputs.Gen.facts) :=
  fun m ρ _ => Kernel.Fr.frame m ρ

theorem frame_ki : frame_KernelIdeal (hKernelIdeal := KernelIdeal.Gen.facts) (hPre_finite_inputs := Pre_finite_inputs.Gen.facts) :=
  fun m ρ _ => KernelIdeal.Fr.frame m ρ

-- the reference's run, its result dropped
theorem frame_ri : frame_ReferenceIdeal (hReferenceIdeal := ReferenceIdeal.Gen.facts) (hPre_finite_inputs := Pre_finite_inputs.Gen.facts) :=
  fun m ρ _ => (θ_run ReferenceIdeal.defs _ _).mono (fun _ h c => (h c).2) (ReferenceIdeal.Value.run (F := Ideal) m ρ)

-- under the precondition the data are real and the edge words are nodes, so the dense aggregation is the edge-by-edge one
theorem algebraic : algebraic_KernelIdeal_ReferenceIdeal (hKernelIdeal := KernelIdeal.Gen.facts)
    (hReferenceIdeal := ReferenceIdeal.Gen.facts) (hPre_finite_inputs := Pre_finite_inputs.Gen.facts) := by
  intro m ρ m' ρ' hpre hagree
  refine ⟨fun c => Fr.E8 m c (Proc.devRef .tc main_v93), Fr.run_result m ρ, ?_⟩
  refine (θ_run ReferenceIdeal.defs _ _).mono (fun _ h c => ⟨(h c).1.trans ?_, (h c).2⟩)
    (ReferenceIdeal.Value.run (F := Ideal) m' ρ')
  funext j
  obtain ⟨i, o, rfl⟩ : ∃ (i : Fin 10000) (o : Fin 256), j = ix2 i o := ⟨j 0, j 1, eq_ix2 j⟩
  refine (congrFun (RefValue.ref_result m' c) (ix2 i o)).trans ?_
  obtain ⟨h0, h1, h2, h3, h4, h5, h6, h7, h8, h9, h10, h11, h12⟩ := hagree c
  rw [h0, h1, h2, h3, h4, h5, h6, h7, h8, h9, h10, h11, h12]
  refine Eq.trans ?_ (KVal.kernel_result m c i o).symm
  obtain ⟨hE, r0, r1, r3, r4, r5, r6⟩ := PreFacts.pre_facts (hpre c)
  have hadj : Bridge.AdjFacts (m ((c.tc : Thread nD τ).loc main_arg2) : IVec S2x320000 32) (KVal.v62 m c) := by
    rw [show KVal.v62 m c = kAdj (m ((c.tc : Thread nD τ).loc main_arg2) : IVec S2x320000 32) from V5_main_v62 m c]
    exact ⟨fun y P hy hP hPy i o =>
        AdjBridge.adj_row _ hE y P hy hP hPy (RefValue.norm_real hE) (RefValue.dinv2_real hE) i o,
      AdjBridge.adj_real _ hE (RefValue.norm_real hE) (RefValue.dinv2_real hE)⟩
  exact (Bridge.kernel_eq_result_of_adj hadj hE r0 r1 r3 r4 r5 r6
    (V5_main_v64_apply m c) (V5_main_v65_apply m c) (V5_main_v66 m c) (V5_main_v67 m c)
    (V5_main_v69_apply m c) (V5_main_v71_apply m c) (V5_main_v73_apply m c) (V5_main_v75_apply m c)
    (V5_main_v77_apply m c) (V5_main_v79_apply m c) (V5_main_v80_apply m c) (V5_main_v81_apply m c)
    (V5_main_v82_apply m c) (V5_main_v83_apply m c) (V5_main_v84_apply m c) (V5_main_v85_apply m c) i o).symm

-- the exact reading rewrote no operation, so it preserves the word-level program trivially
theorem claim : Cert.Claim :=
  ⟨Kernel.Gen.facts, KernelIdeal.Gen.facts, ReferenceIdeal.Gen.facts, Pre_finite_inputs.Gen.facts,
    frame_k, frame_ki, frame_ri, trivial, algebraic⟩

end Cert.Proof.Final

end
-- ==== Proof.lean ====
/-
  A gated graph-convolution cell. For real data and edge words that name nodes, the kernel's product with the padded dense
  normalized adjacency matrix is the reference's sum over incoming edges plus the self-loop term; gates and blend agree termwise.
-/
import proofs.«405878_j81363860455818_1_alg».proof.Proof.Final

noncomputable section

namespace Cert.Proof

theorem claim : Cert.Claim := Cert.Proof.Final.claim

end Cert.Proof

end
